-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S128x128 .f32) (main_arg10 : FVec F S128 .f32) (main_arg11 : FVec F S128x10 .f32) (main_arg12 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) (main_arg9 : FVec F S128x128 .f32) (main_arg10 : FVec F S128 .f32) (main_arg11 : FVec F S128x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩
abbrev S512 : Shape := ⟨1, ![512]⟩
abbrev S100000x1 : Shape := ⟨2, ![100000, 1]⟩
abbrev S512x1 : Shape := ⟨2, ![512, 1]⟩
abbrev S1x10 : Shape := ⟨2, ![1, 10]⟩
abbrev S512x10 : Shape := ⟨2, ![512, 10]⟩
abbrev S5000x1 : Shape := ⟨2, ![5000, 1]⟩
abbrev S512x128 : Shape := ⟨2, ![512, 128]⟩
abbrev S5000x512 : Shape := ⟨2, ![5000, 512]⟩

abbrev nBuf : Space → Nat
  | .hbm => 184
  | .vmem => 65
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S1x128, .f32⟩
  | 41 => ⟨S100000x128, .f32⟩
  | 42 => ⟨S1x128, .f32⟩
  | 43 => ⟨S1x128, .f32⟩
  | 44 => ⟨S128, .f32⟩
  | 45 => ⟨S_, .f32⟩
  | 46 => ⟨S128, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S1x128, .f32⟩
  | 64 => ⟨S1x128, .f32⟩
  | 65 => ⟨S1x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S1x128x128, .f32⟩
  | 82 => ⟨S128x128, .f32⟩
  | 83 => ⟨S1x128, .f32⟩
  | 84 => ⟨S128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S1x128, .f32⟩
  | 91 => ⟨S100000x128, .f32⟩
  | 92 => ⟨S1x128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S1x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S1x128, .f32⟩
  | 13 => ⟨S100000x128, .f32⟩
  | 14 => ⟨S1x128, .f32⟩
  | 15 => ⟨S1x128, .f32⟩
  | 16 => ⟨S128, .f32⟩
  | 17 => ⟨S_, .f32⟩
  | 18 => ⟨S128, .f32⟩
  | 19 => ⟨S128, .f32⟩
  | 20 => ⟨S128, .f32⟩
  | 21 => ⟨S_, .f32⟩
  | 22 => ⟨S128, .f32⟩
  | 23 => ⟨S128, .f32⟩
  | 24 => ⟨S128, .f32⟩
  | 25 => ⟨S128, .f32⟩
  | 26 => ⟨S_, .f32⟩
  | 27 => ⟨S128, .f32⟩
  | 28 => ⟨S128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S1x128, .f32⟩
  | 36 => ⟨S1x128, .f32⟩
  | 37 => ⟨S1x128, .f32⟩
  | 38 => ⟨S100000x128, .f32⟩
  | 39 => ⟨S_, .f32⟩
  | 40 => ⟨S100000, .f32⟩
  | 41 => ⟨S_, .f32⟩
  | 42 => ⟨S512, .f32⟩
  | 43 => ⟨S100000x1, .i32⟩
  | 44 => ⟨S512, .f32⟩
  | 45 => ⟨S_, .f32⟩
  | 46 => ⟨S512, .f32⟩
  | 47 => ⟨S512, .f32⟩
  | 48 => ⟨S_, .f32⟩
  | 49 => ⟨S512, .f32⟩
  | 50 => ⟨S512, .f32⟩
  | 51 => ⟨S512x1, .f32⟩
  | 52 => ⟨S100000x1, .i32⟩
  | 53 => ⟨S1x128, .f32⟩
  | 54 => ⟨S1x10, .f32⟩
  | 55 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .i32⟩
  | .local _ .vmem, ⟨57, _⟩ => ⟨S5000x1, .i32⟩
  | .local _ .vmem, ⟨58, _⟩ => ⟨S512x1, .f32⟩
  | .local _ .vmem, ⟨59, _⟩ => ⟨S128x128, .f32⟩
  | .local _ .vmem, ⟨60, _⟩ => ⟨S1x128, .f32⟩
  | .local _ .vmem, ⟨61, _⟩ => ⟨S128x10, .f32⟩
  | .local _ .vmem, ⟨62, _⟩ => ⟨S1x10, .f32⟩
  | .local _ .vmem, ⟨63, _⟩ => ⟨S512x10, .f32⟩
  | .local _ .vmem, ⟨64, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_9 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_10 : Ref sig .tc := ⟨.hbm, 117, rfl⟩
abbrev main_v88 : Ref sig .tc := ⟨.hbm, 118, rfl⟩
abbrev main_v89 : Ref sig .tc := ⟨.hbm, 119, rfl⟩
abbrev main_c_11 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_12 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109_0 : Ref sig .tc := ⟨.hbm, 141, rfl⟩
abbrev main_v109_1 : Ref sig .tc := ⟨.hbm, 142, rfl⟩
abbrev main_v109_2 : Ref sig .tc := ⟨.hbm, 143, rfl⟩
abbrev main_v110 : Ref sig .tc := ⟨.hbm, 144, rfl⟩
abbrev main_cst_13 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_14 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_15 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_16 : Ref sig .tc := ⟨.hbm, 167, rfl⟩
abbrev main_v130 : Ref sig .tc := ⟨.hbm, 168, rfl⟩
abbrev main_cst_17 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_18 : Ref sig .tc := ⟨.hbm, 173, rfl⟩
abbrev main_v134 : Ref sig .tc := ⟨.hbm, 174, rfl⟩
abbrev main_v135 : Ref sig .tc := ⟨.hbm, 175, rfl⟩
abbrev main_cst_19 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_scratch0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x10 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  shapeCasts_S512_S512x1 : S512.ShapeCasts S512x1
  shapeCasts_S100000_S100000x1 : S100000.ShapeCasts S100000x1
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512_S100000x1_S100000_n_0_0_1_wf : ScatterDims.WF S512 S100000x1 S100000 [] [0] [0] 1
  dot_S5000x512_S5000x128_S512x128_0_0_1_1_n_n_wf : DotDims.WF S5000x512 S5000x128 S512x128 [0] [0] [1] [1] [] []
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x1.size a ≤ S512x1.size a
  hwx6_2 : ∀ i : grid6.Coords, EltTy.bits .f32 = 32 ∨ (Rect.block (s := S512x1) S512x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x10.size a ≤ S128x10.size a
  hwx6_5 : ∀ i : grid6.Coords, EltTy.bits .f32 = 32 ∨ (Rect.block (s := S128x10) S128x10.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x10.size a ≤ S1x10.size a
  hwx6_6 : ∀ i : grid6.Coords, EltTy.bits .f32 = 32 ∨ (Rect.block (s := S1x10) S1x10.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x10.size a ≤ S512x10.size a
  hwx6_7 : ∀ i : grid6.Coords, EltTy.bits .f32 = 32 ∨ (Rect.block (s := S512x10) S512x10.size (cc6_transform_7 i) (hinb6_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v67_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v67_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v109_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v109_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v109_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v129) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v139) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v138) S512x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v140) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg11) S128x10.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v141) S1x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v142) S512x10.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun _ => false | 7 => fun i => !(k6_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1x128x128 : Shape := ⟨3, ![1, 128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 296
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S1x128x128, .f32⟩
  | 18 => ⟨S128x128, .f32⟩
  | 19 => ⟨S1x128, .f32⟩
  | 20 => ⟨S128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S100000x128, .f32⟩
  | 110 => ⟨S100000x128, .f32⟩
  | 111 => ⟨S100000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S512x128, .f32⟩
  | 15 => ⟨S100000x1, .i32⟩
  | 16 => ⟨S512x128, .f32⟩
  | 17 => ⟨S_, .f32⟩
  | 18 => ⟨S100000, .f32⟩
  | 19 => ⟨S_, .f32⟩
  | 20 => ⟨S512, .f32⟩
  | 21 => ⟨S100000x1, .i32⟩
  | 22 => ⟨S512, .f32⟩
  | 23 => ⟨S_, .f32⟩
  | 24 => ⟨S512, .f32⟩
  | 25 => ⟨S512, .f32⟩
  | 26 => ⟨S512x1, .f32⟩
  | 27 => ⟨S512x128, .f32⟩
  | 28 => ⟨S512x128, .f32⟩
  | 29 => ⟨S512x128, .f32⟩
  | 30 => ⟨S1x128, .f32⟩
  | 31 => ⟨S512x128, .f32⟩
  | 32 => ⟨S512x128, .f32⟩
  | 33 => ⟨S_, .f32⟩
  | 34 => ⟨S512x128, .f32⟩
  | 35 => ⟨S512x128, .f32⟩
  | 36 => ⟨S512x10, .f32⟩
  | 37 => ⟨S1x10, .f32⟩
  | 38 => ⟨S512x10, .f32⟩
  | 39 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_cst_1 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_c_3 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_cst_1 : Ref sig .tc := ⟨.hbm, 73, rfl⟩
abbrev main_call2_v8 : Ref sig .tc := ⟨.hbm, 74, rfl⟩
abbrev main_call2_cst_2 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_cst_3 : Ref sig .tc := ⟨.hbm, 79, rfl⟩
abbrev main_call2_v12 : Ref sig .tc := ⟨.hbm, 80, rfl⟩
abbrev main_call2_cst_4 : Ref sig .tc := ⟨.hbm, 81, rfl⟩
abbrev main_call2_call0_v0 : Ref sig .tc := ⟨.hbm, 82, rfl⟩
abbrev main_call2_call0_v1 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_4 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_5 : Ref sig .tc := ⟨.hbm, 113, rfl⟩
abbrev main_v68 : Ref sig .tc := ⟨.hbm, 114, rfl⟩
abbrev main_v69 : Ref sig .tc := ⟨.hbm, 115, rfl⟩
abbrev main_c_6 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_7 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call3_cst : Ref sig .tc := ⟨.hbm, 131, rfl⟩
abbrev main_call3_v0 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_call4_cst : Ref sig .tc := ⟨.hbm, 138, rfl⟩
abbrev main_call4_v0 : Ref sig .tc := ⟨.hbm, 139, rfl⟩
abbrev main_v88 : Ref sig .tc := ⟨.hbm, 140, rfl⟩
abbrev main_cst_8 : Ref sig .tc := ⟨.hbm, 141, rfl⟩
abbrev main_v89 : Ref sig .tc := ⟨.hbm, 142, rfl⟩
abbrev main_cst_9 : Ref sig .tc := ⟨.hbm, 143, rfl⟩
abbrev main_v90 : Ref sig .tc := ⟨.hbm, 144, rfl⟩
abbrev main_v91 : Ref sig .tc := ⟨.hbm, 145, rfl⟩
abbrev main_c_10 : Ref sig .tc := ⟨.hbm, 146, rfl⟩
abbrev main_call5_cst : Ref sig .tc := ⟨.hbm, 147, rfl⟩
abbrev main_call5_v0 : Ref sig .tc := ⟨.hbm, 148, rfl⟩
abbrev main_call5_v1 : Ref sig .tc := ⟨.hbm, 149, rfl⟩
abbrev main_call5_cst_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_v6 : Ref sig .tc := ⟨.hbm, 155, rfl⟩
abbrev main_call5_v7 : Ref sig .tc := ⟨.hbm, 156, rfl⟩
abbrev main_call5_cst_1 : Ref sig .tc := ⟨.hbm, 157, rfl⟩
abbrev main_call5_v8 : Ref sig .tc := ⟨.hbm, 158, rfl⟩
abbrev main_call5_cst_2 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_cst_3 : Ref sig .tc := ⟨.hbm, 163, rfl⟩
abbrev main_call5_v12 : Ref sig .tc := ⟨.hbm, 164, rfl⟩
abbrev main_call5_cst_4 : Ref sig .tc := ⟨.hbm, 165, rfl⟩
abbrev main_call5_call0_v0 : Ref sig .tc := ⟨.hbm, 166, rfl⟩
abbrev main_call5_call0_v1 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_11 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_c_12 : Ref sig .tc := ⟨.hbm, 197, rfl⟩
abbrev main_v120 : Ref sig .tc := ⟨.hbm, 198, rfl⟩
abbrev main_v121 : Ref sig .tc := ⟨.hbm, 199, rfl⟩
abbrev main_c_13 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_cst_14 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_call6_cst : Ref sig .tc := ⟨.hbm, 215, rfl⟩
abbrev main_call6_v0 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_call7_cst : Ref sig .tc := ⟨.hbm, 222, rfl⟩
abbrev main_call7_v0 : Ref sig .tc := ⟨.hbm, 223, rfl⟩
abbrev main_v140 : Ref sig .tc := ⟨.hbm, 224, rfl⟩
abbrev main_cst_15 : Ref sig .tc := ⟨.hbm, 225, rfl⟩
abbrev main_v141 : Ref sig .tc := ⟨.hbm, 226, rfl⟩
abbrev main_cst_16 : Ref sig .tc := ⟨.hbm, 227, rfl⟩
abbrev main_v142 : Ref sig .tc := ⟨.hbm, 228, rfl⟩
abbrev main_v143 : Ref sig .tc := ⟨.hbm, 229, rfl⟩
abbrev main_c_17 : Ref sig .tc := ⟨.hbm, 230, rfl⟩
abbrev main_call8_cst : Ref sig .tc := ⟨.hbm, 231, rfl⟩
abbrev main_call8_v0 : Ref sig .tc := ⟨.hbm, 232, rfl⟩
abbrev main_call8_v1 : Ref sig .tc := ⟨.hbm, 233, rfl⟩
abbrev main_call8_cst_0 : Ref sig .tc := ⟨.hbm, 234, rfl⟩
abbrev main_call8_v2 : Ref sig .tc := ⟨.hbm, 235, rfl⟩
abbrev main_call8_v3 : Ref sig .tc := ⟨.hbm, 236, rfl⟩
abbrev main_call8_v4 : Ref sig .tc := ⟨.hbm, 237, rfl⟩
abbrev main_call8_v5 : Ref sig .tc := ⟨.hbm, 238, rfl⟩
abbrev main_call8_v6 : Ref sig .tc := ⟨.hbm, 239, rfl⟩
abbrev main_call8_v7 : Ref sig .tc := ⟨.hbm, 240, rfl⟩
abbrev main_call8_cst_1 : Ref sig .tc := ⟨.hbm, 241, rfl⟩
abbrev main_call8_v8 : Ref sig .tc := ⟨.hbm, 242, rfl⟩
abbrev main_call8_cst_2 : Ref sig .tc := ⟨.hbm, 243, rfl⟩
abbrev main_call8_v9 : Ref sig .tc := ⟨.hbm, 244, rfl⟩
abbrev main_call8_v10 : Ref sig .tc := ⟨.hbm, 245, rfl⟩
abbrev main_call8_v11 : Ref sig .tc := ⟨.hbm, 246, rfl⟩
abbrev main_call8_cst_3 : Ref sig .tc := ⟨.hbm, 247, rfl⟩
abbrev main_call8_v12 : Ref sig .tc := ⟨.hbm, 248, rfl⟩
abbrev main_call8_cst_4 : Ref sig .tc := ⟨.hbm, 249, rfl⟩
abbrev main_call8_call0_v0 : Ref sig .tc := ⟨.hbm, 250, rfl⟩
abbrev main_call8_call0_v1 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_cst_18 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_cst_19 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_cst_20 : Ref sig .tc := ⟨.hbm, 273, rfl⟩
abbrev main_v163 : Ref sig .tc := ⟨.hbm, 274, rfl⟩
abbrev main_cst_21 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_cst_22 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_call9_cst : Ref sig .tc := ⟨.hbm, 289, rfl⟩
abbrev main_call9_v0 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.Mlp0.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR0 (i : grid0.Coords) : Prop := (Scalar.cmpi .ne (Scalar.extui (Scalar.cmpi .eq (BitVec.ofNat 32 (i 0).val) 0#32)) 0#32) = 1#1

theorem hcondR0 : ∀ t : Fin grid0.N, condR0 (grid0.coords t) ↔ t.val % 20 = 0 := by decide +kernel

theorem hzR0 : (![0, 0] : Fin 2 → Nat) = fun _ => 0 := funext fun a => by fin_cases a <;> rfl

/-- The newest write covers every index, so neither older writes nor prior contents are reached. -/
theorem read_writes_unitR0 {sg κ sp S e} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

section Kernel
variable (c : Dev nD) (E : Set ℕ) (i : grid0.Coords)
  (arg1 arg6 : Memref sig .tc .vmem S5000x128 .f32) (arg2 arg4 : Memref sig .tc .vmem S128x128 .f32)
  (arg3 arg5 arg7 arg8 : Memref sig .tc .vmem S1x128 .f32)
  (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (x0 : Vec F S5000x128 .f32) (x1 x3 : Vec F S128x128 .f32) (x2 x4 s6 s7 d6 d7 : Vec F S1x128 .f32)

/-- The five inputs at contents `x0 … x4`, named once; `R` is the rest of a frame. -/
def insR0 (R : sProp 𝕄) : sProp 𝕄 :=
  iprop(owns c.tc arg1 fullShare x0 ∗ owns c.tc arg2 fullShare x1 ∗ owns c.tc arg3 fullShare x2
    ∗ owns c.tc arg4 fullShare x3 ∗ owns c.tc arg5 fullShare x4 ∗ R)

set_option maxHeartbeats 1000000 in
/-- One triple for both values of the body's condition: `hA`, `hB` say which rows `s6`, `s7` the block's sums are added to. -/
theorem sound_kernelR0 (K : PUnit → sProp 𝕄) (hA : condR0 i → s6 = k0_pay2 ∧ s7 = k0_pay3) (hB : ¬condR0 i → d6 = s6 ∧ d7 = s7) :
    insR0 c arg1 arg2 arg4 arg3 arg5 x0 x1 x3 x2 x4 iprop((∃ d, owns c.tc arg6 fullShare d)
        ∗ owns c.tc arg7 fullShare d6 ∗ owns c.tc arg8 fullShare d7
        ∗ (insR0 c arg1 arg2 arg4 arg3 arg5 x0 x1 x3 x2 x4 iprop(owns c.tc arg6 fullShare (k0_pay4 x0 x1 x2 x3 x4)
            ∗ owns c.tc arg7 fullShare (k0_pay5 x0 x1 x2 x3 x4 s6)
            ∗ owns c.tc arg8 fullShare (k0_pay1 (k0_pay4 x0 x1 x2 x3 x4) s7)) -∗ K ⟨⟩))
      ⊢ wp frame (wpE (defs₀ (F := F)) Variants.none c none) E
          (cc0__mlp_stats_kernel i arg1 harg1 arg2 harg2 arg3 harg3 arg4 harg4 arg5 harg5 arg6 harg6 arg7 harg7 arg8 harg8) K := by
  simp only [cc0__mlp_stats_kernel_eq_skeleton]; unfold cc0__mlp_stats_kernel_skel
  simp only [k0_part1_eq_skeleton]
  unfold insR0 owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  by_cases h : condR0 i
  on_goal 1 => obtain ⟨rfl, rfl⟩ := hA h
  on_goal 2 => obtain ⟨rfl, rfl⟩ := hB h
  all_goals
    sl_exec (disch := first | exact h)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    all_goals
      iexists _; isplitr
      swap; · iassumption
      ipureintro
      first
      | with_reducible rfl
      | sl_unfold_words
        first
        | rw [read_writes_unitR0 (S := S5000x128) _ _ hzR0]
        | rw [read_writes_unitR0 (S := S1x128) _ _ hzR0]
        simp only [View.readAt_eq_ld, View.ld_unit_zero (S := S5000x128) hzR0, View.ld_unit_zero (S := S128x128) hzR0,
          View.ld_unit_zero (S := S1x128) hzR0, View.readCov_unit_zero (S := S1x128) _ hzR0]

end Kernel

section Region
variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point's contribution: the block's column sums and column sums of squares added to the rows `s6`, `s7`. -/
abbrev nextR0 (c : Dev nD) (t : Fin cfg0.N) (s6 s7 : Vec F S1x128 .f32) : Vec F S1x128 .f32 × Vec F S1x128 .f32 :=
  (k0_pay5 (iblkR0 V c 0 t) (iblkR0 V c 1 t) (iblkR0 V c 2 t) (iblkR0 V c 3 t) (iblkR0 V c 4 t) s6,
   k0_pay1 (k0_pay4 (iblkR0 V c 0 t) (iblkR0 V c 1 t) (iblkR0 V c 2 t) (iblkR0 V c 3 t) (iblkR0 V c 4 t)) s7)

/-- The running pair after position `n`: `nextR0` folded from the zero rows. -/
def accR0 (c : Dev nD) : (n : ℕ) → n < cfg0.N → Vec F S1x128 .f32 × Vec F S1x128 .f32
  | 0, h => nextR0 V c ⟨0, h⟩ k0_pay2 k0_pay3
  | n + 1, h => nextR0 V c ⟨n + 1, h⟩ (accR0 c n (Nat.lt_of_succ_lt h)).1 (accR0 c n (Nat.lt_of_succ_lt h)).2

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => k0_pay4 (iblkR0 V c 0 t) (iblkR0 V c 1 t) (iblkR0 V c 2 t) (iblkR0 V c 3 t) (iblkR0 V c 4 t)
    | ⟨6, _⟩ => (accR0 V c t.val t.isLt).1
    | ⟨7, _⟩ => (accR0 V c t.val t.isLt).2
  Φ _ := Pipeline.ΦA spec0 c
  q _ := fullShare
  owed _ := 0

theorem datR0_A (c : Dev nD) (w : Fin cfg0.W) : (datR0 V c).A w = V c (Pipeline.arrRef spec0 w) := rfl

theorem before_inR0 (c : Dev nD) (t : Fin cfg0.N) : (∀ d, (datR0 V c).before 0 t d = iblkR0 V c 0 t) ∧
    (∀ d, (datR0 V c).before 1 t d = iblkR0 V c 1 t) ∧ (∀ d, (datR0 V c).before 2 t d = iblkR0 V c 2 t) ∧
    (∀ d, (datR0 V c).before 3 t d = iblkR0 V c 3 t) ∧ ∀ d, (datR0 V c).before 4 t d = iblkR0 V c 4 t := by
  refine ⟨?_, ?_, ?_, ?_, ?_⟩ <;> exact fun d =>
    ((datR0 V c).before_in_eq_fetched _ rfl (fun _ => rfl) (fun _ _ _ => rfl) (fun _ => rfl) t d).trans rfl

/-- By cases on the position: at 0 the condition holds and the rows are zero; at `n + 1` it fails and the rows are the pair at `n`. -/
theorem rowsR0 (c : Dev nD) (t : Fin cfg0.N) : ∃ s6 s7, accR0 V c t.val t.isLt = nextR0 V c t s6 s7 ∧
    (condR0 (grid0.coords t) → s6 = k0_pay2 ∧ s7 = k0_pay3) ∧
    (¬condR0 (grid0.coords t) → ∀ d6 d7, (datR0 V c).before 6 t d6 = s6 ∧ (datR0 V c).before 7 t d7 = s7) := by
  have hN : cfg0.N = 20 := N_0
  obtain ⟨n, hn⟩ := t
  cases n with
  | zero => exact ⟨_, _, rfl, fun _ => ⟨rfl, rfl⟩, fun h => absurd ((hcondR0 ⟨0, hn⟩).mpr rfl) h⟩
  | succ n =>
    have h0 : ¬(n + 1) % 20 = 0 := by omega
    refine ⟨_, _, rfl, fun h => absurd ((hcondR0 ⟨n + 1, hn⟩).mp h) h0, fun _ d6 d7 => ⟨?_, ?_⟩⟩ <;>
      exact Dat.before_out_kept _ _ rfl ⟨n + 1, hn⟩ (Nat.succ_ne_zero n) (Bool.eq_false_iff.mpr fun h => by
        first | have := (flush0_6 _).mp h | have := (flush0_7 _).mp h
        dsimp only at this; omega) (fun _ => rfl) (fun _ _ => rfl) _

set_option maxHeartbeats 800000 in
/-- The kernel's triple at the point's blocks, with the rows `rowsR0` names. -/
theorem sound_bodyR0 (c : Dev nD) (t : Fin cfg0.N) :
    iprop((datR0 V c).Φ t.castSucc ∗ (datR0 V c).owesAt () t.castSucc ∗ bigSep Finset.univ fun w : Fin cfg0.W =>
      iprop(∃ d, owns c.tc ((cfg0.win w).stage (cfg0.slots t w)) fullShare ((datR0 V c).before w t d)))
    ⊢ wp frame (wpE (defs₀ (F := F)) Variants.none c none) Set.univ (bodyAt0 t) fun _ =>
      iprop((datR0 V c).Φ t.castSucc ∗ (datR0 V c).owesAt () t.castSucc
        ∗ insR0 c (st0_0 t) (st0_1 t) (st0_3 t) (st0_2 t) (st0_4 t) (iblkR0 V c 0 t) (iblkR0 V c 1 t) (iblkR0 V c 3 t) (iblkR0 V c 2 t) (iblkR0 V c 4 t)
          iprop(owns c.tc (st0_5 t) fullShare (k0_pay4 (iblkR0 V c 0 t) (iblkR0 V c 1 t) (iblkR0 V c 2 t) (iblkR0 V c 3 t) (iblkR0 V c 4 t))
            ∗ owns c.tc (st0_6 t) fullShare (accR0 V c t.val t.isLt).1
            ∗ owns c.tc (st0_7 t) fullShare (accR0 V c t.val t.isLt).2)) := by
  obtain ⟨s6, s7, hs, hA, hB⟩ := rowsR0 V c t
  unfold bodyAt0
  rw [bigSep_W0]
  obtain ⟨b0, b1, b2, b3, b4⟩ := before_inR0 V c t
  simp only [b0, b1, b2, b3, b4]
  rw [hs]; dsimp only [nextR0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernelR0 c Set.univ (grid0.coords t) _ _ _ _ _ _ _ _ _ _ _ _ _ _ _ _ _ _ _ _ _ s6 s7 _ _ _
    hA fun h => hB h d6 d7)
  unfold insR0
  iframe H0 H1 H2 H3 H4 H6 H7
  isplitl [H5]; · iexists _; iexact H5
  iintro Hp
  iframe

theorem body_obligationR0 (c : Dev nD) : BodyObligation (datR0 (F := F) V c) (defs₀ (F := F)) Variants.none () Set.univ := fun t => by
  have h := sound_bodyR0 V c t
  rw [bigSep_W0] at h ⊢
  rw [bigSep_W0]
  exact h

end Region

end Cert.Kernel.Hand

end
-- ==== Proof.K.Bn1.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblkR1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rblkR1 : Rect S5000x128 := Rect.unit ![0, 0] S5000x128.size inb_S5000x128_S5000x128_0_0

abbrev rrowR1 : Rect S1x128 := Rect.unit ![0, 0] S1x128.size inb_S1x128_S1x128_0_0

theorem offR1 : (![0, 0] : Fin 2 → Nat) = fun _ => 0 := by decide

variable (x0 : Vec F S5000x128 .f32) (x1 x2 x3 x4 : Vec F S1x128 .f32)

-- What the body leaves in the output window's buffer: the payload of the five input buffers' contents.
def outR1 : Vec F S5000x128 .f32 := k1_pay1 x0 x1 x2 x3 x4

-- One store through the whole block leaves its payload, and a load through a whole buffer reads its contents.
theorem outR1_eq :
    (View.canon [⟨rblkR1, k1_pay1 (View.ld x0 rblkR1) (View.ld x1 rrowR1) (View.ld x2 rrowR1) (View.ld x3 rrowR1) (View.ld x4 rrowR1)⟩] : Vec F S5000x128 .f32) =
      k1_pay1 x0 x1 x2 x3 x4 := by
  rw [View.canon_unit_zero offR1]
  simp only [View.ld_unit_zero (S := S5000x128) offR1, View.ld_unit_zero (S := S1x128) offR1]

def datR1 : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => outR1 (iblkR1 V c 0 t) (iblkR1 V c 1 t) (iblkR1 V c 2 t) (iblkR1 V c 3 t) (iblkR1 V c 4 t)
  Φ _ := Pipeline.ΦA spec1 c
  q _ := fullShare
  owed _ := 0

theorem datR1_A (w : Fin cfg1.W) : (datR1 V c).A w = V c (Pipeline.arrRef spec1 w) := rfl

theorem datR1_after5 (t : Fin cfg1.N) :
    (datR1 V c).after 5 t = k1_pay1 (iblkR1 V c 0 t) (iblkR1 V c 1 t) (iblkR1 V c 2 t) (iblkR1 V c 3 t) (iblkR1 V c 4 t) := by
  dsimp only [datR1, outR1]

-- Every window but the output's is an input whose block the body leaves in place.
theorem beforeR1 : ∀ w : Fin cfg1.W, w ≠ 5 → ∀ t d, (datR1 V c).before w t d = (datR1 V c).after w t
  | ⟨5, _⟩, h, _, _ => absurd rfl h
  | ⟨0, _⟩, _, t, d | ⟨1, _⟩, _, t, d | ⟨2, _⟩, _, t, d | ⟨3, _⟩, _, t, d | ⟨4, _⟩, _, t, d =>
    ((datR1 V c).before_in_eq_fetched _ rfl (fun _ => rfl) (fun _ _ _ => rfl) (fun _ => rfl) t d).trans rfl

-- The body's triple at point t in the shape of the library's body obligation, over any contents x0 … x4 of the input buffers and any frame R, S.
theorem sound_kernelR1 (t : Fin cfg1.N) (R S : sProp 𝕄) :
    iprop(R ∗ S ∗ (∃ d : Vec F S5000x128 .f32, owns c (st1_0 t) fullShare x0)
        ∗ (∃ d : Vec F S1x128 .f32, owns c (st1_1 t) fullShare x1)
        ∗ (∃ d : Vec F S1x128 .f32, owns c (st1_2 t) fullShare x2)
        ∗ (∃ d : Vec F S1x128 .f32, owns c (st1_3 t) fullShare x3)
        ∗ (∃ d : Vec F S1x128 .f32, owns c (st1_4 t) fullShare x4)
        ∗ (∃ d, owns c (st1_5 t) fullShare ((datR1 V c).before 5 t d)))
      ⊢ wp frame (wpE (defs₀ (F := F)) Variants.none c none) Set.univ (bodyAt1 t) fun _ =>
          iprop(R ∗ S ∗ owns c (st1_0 t) fullShare x0 ∗ owns c (st1_1 t) fullShare x1
            ∗ owns c (st1_2 t) fullShare x2 ∗ owns c (st1_3 t) fullShare x3
            ∗ owns c (st1_4 t) fullShare x4 ∗ owns c (st1_5 t) fullShare (k1_pay1 x0 x1 x2 x3 x4)) := by
  unfold bodyAt1; simp only [cc1__bn_kernel_eq_skeleton]; unfold cc1__bn_kernel_skel
  unfold owns
  iintro ⟨HR, HS, ⟨%e0, %f0, %hf0, H0⟩, ⟨%e1, %f1, %hf1, H1⟩, ⟨%e2, %f2, %hf2, H2⟩, ⟨%e3, %f3, %hf3, H3⟩, ⟨%e4, %f4, %hf4, H4⟩, ⟨%d5, %f5, -, H5⟩⟩
  subst hf0 hf1 hf2 hf3 hf4
  sl_exec
  sl_step
  iframe HR HS
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact Eq.trans (View.read_writes_eq_canon _ _ _ fun y => ⟨_, List.mem_singleton_self _, View.mem_set_unit_zero offR1 inb_S5000x128_S5000x128_0_0 y⟩)
    (outR1_eq _ _ _ _ _)

theorem body_obligationR1 : BodyObligation (datR1 (F := F) V c) (defs₀ (F := F)) Variants.none () Set.univ := fun t => by
  rw [bigSep_W1, bigSep_W1]
  simp +decide only [beforeR1 V c]
  rw [datR1_after5]
  sl_whnfR [defs₀, Defs.onTc]
  exact sound_kernelR1 V c _ _ _ _ _ t _ _

end Cert.Kernel.Hand

end
-- ==== Proof.K.Mlp2.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR2 (i : grid2.Coords) : Prop := (Scalar.cmpi .ne (Scalar.extui (Scalar.cmpi .eq (BitVec.ofNat 32 (i 0).val) 0#32)) 0#32) = 1#1

theorem hcondR2 : ∀ t : Fin grid2.N, condR2 (grid2.coords t) ↔ t.val % 20 = 0 := by decide +kernel

theorem hzR2 : (![0, 0] : Fin 2 → Nat) = fun _ => 0 := funext fun a => by fin_cases a <;> rfl

/-- The newest write covers every index, so neither older writes nor prior contents are reached. -/
theorem read_writes_unitR2 {sg κ sp S e} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

section Kernel
variable (c : Dev nD) (E : Set ℕ) (i : grid2.Coords)
  (arg1 arg6 : Memref sig .tc .vmem S5000x128 .f32) (arg2 arg4 : Memref sig .tc .vmem S128x128 .f32)
  (arg3 arg5 arg7 arg8 : Memref sig .tc .vmem S1x128 .f32)
  (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (x0 : Vec F S5000x128 .f32) (x1 x3 : Vec F S128x128 .f32) (x2 x4 s6 s7 d6 d7 : Vec F S1x128 .f32)

/-- The five inputs at contents `x0 … x4`, named once; `R` is the rest of a frame. -/
def insR2 (R : sProp 𝕄) : sProp 𝕄 :=
  iprop(owns c.tc arg1 fullShare x0 ∗ owns c.tc arg2 fullShare x1 ∗ owns c.tc arg3 fullShare x2
    ∗ owns c.tc arg4 fullShare x3 ∗ owns c.tc arg5 fullShare x4 ∗ R)

set_option maxHeartbeats 1000000 in
/-- One triple for both values of the body's condition: `hA`, `hB` say which rows `s6`, `s7` the block's sums are added to. -/
theorem sound_kernelR2 (K : PUnit → sProp 𝕄) (hA : condR2 i → s6 = k2_pay2 ∧ s7 = k2_pay3) (hB : ¬condR2 i → d6 = s6 ∧ d7 = s7) :
    insR2 c arg1 arg2 arg4 arg3 arg5 x0 x1 x3 x2 x4 iprop((∃ d, owns c.tc arg6 fullShare d)
        ∗ owns c.tc arg7 fullShare d6 ∗ owns c.tc arg8 fullShare d7
        ∗ (insR2 c arg1 arg2 arg4 arg3 arg5 x0 x1 x3 x2 x4 iprop(owns c.tc arg6 fullShare (k2_pay4 x0 x1 x2 x3 x4)
            ∗ owns c.tc arg7 fullShare (k2_pay5 x0 x1 x2 x3 x4 s6)
            ∗ owns c.tc arg8 fullShare (k2_pay1 (k2_pay4 x0 x1 x2 x3 x4) s7)) -∗ K ⟨⟩))
      ⊢ wp frame (wpE (defs₀ (F := F)) Variants.none c none) E
          (cc2__mlp_stats_kernel i arg1 harg1 arg2 harg2 arg3 harg3 arg4 harg4 arg5 harg5 arg6 harg6 arg7 harg7 arg8 harg8) K := by
  simp only [cc2__mlp_stats_kernel_eq_skeleton]; unfold cc2__mlp_stats_kernel_skel
  simp only [k2_part1_eq_skeleton]
  unfold insR2 owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  by_cases h : condR2 i
  on_goal 1 => obtain ⟨rfl, rfl⟩ := hA h
  on_goal 2 => obtain ⟨rfl, rfl⟩ := hB h
  all_goals
    sl_exec (disch := first | exact h)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    all_goals
      iexists _; isplitr
      swap; · iassumption
      ipureintro
      first
      | with_reducible rfl
      | sl_unfold_words
        first
        | rw [read_writes_unitR2 (S := S5000x128) _ _ hzR2]
        | rw [read_writes_unitR2 (S := S1x128) _ _ hzR2]
        simp only [View.readAt_eq_ld, View.ld_unit_zero (S := S5000x128) hzR2, View.ld_unit_zero (S := S128x128) hzR2,
          View.ld_unit_zero (S := S1x128) hzR2, View.readCov_unit_zero (S := S1x128) _ hzR2]

end Kernel

section Region
variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One grid point's contribution: the block's column sums and column sums of squares added to the rows `s6`, `s7`. -/
abbrev nextR2 (c : Dev nD) (t : Fin cfg2.N) (s6 s7 : Vec F S1x128 .f32) : Vec F S1x128 .f32 × Vec F S1x128 .f32 :=
  (k2_pay5 (iblkR2 V c 0 t) (iblkR2 V c 1 t) (iblkR2 V c 2 t) (iblkR2 V c 3 t) (iblkR2 V c 4 t) s6,
   k2_pay1 (k2_pay4 (iblkR2 V c 0 t) (iblkR2 V c 1 t) (iblkR2 V c 2 t) (iblkR2 V c 3 t) (iblkR2 V c 4 t)) s7)

/-- The running pair after position `n`: `nextR2` folded from the zero rows. -/
def accR2 (c : Dev nD) : (n : ℕ) → n < cfg2.N → Vec F S1x128 .f32 × Vec F S1x128 .f32
  | 0, h => nextR2 V c ⟨0, h⟩ k2_pay2 k2_pay3
  | n + 1, h => nextR2 V c ⟨n + 1, h⟩ (accR2 c n (Nat.lt_of_succ_lt h)).1 (accR2 c n (Nat.lt_of_succ_lt h)).2

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => iblkR2 V c 4 t
    | ⟨5, _⟩ => k2_pay4 (iblkR2 V c 0 t) (iblkR2 V c 1 t) (iblkR2 V c 2 t) (iblkR2 V c 3 t) (iblkR2 V c 4 t)
    | ⟨6, _⟩ => (accR2 V c t.val t.isLt).1
    | ⟨7, _⟩ => (accR2 V c t.val t.isLt).2
  Φ _ := Pipeline.ΦA spec2 c
  q _ := fullShare
  owed _ := 0

theorem datR2_A (c : Dev nD) (w : Fin cfg2.W) : (datR2 V c).A w = V c (Pipeline.arrRef spec2 w) := rfl

theorem before_inR2 (c : Dev nD) (t : Fin cfg2.N) : (∀ d, (datR2 V c).before 0 t d = iblkR2 V c 0 t) ∧
    (∀ d, (datR2 V c).before 1 t d = iblkR2 V c 1 t) ∧ (∀ d, (datR2 V c).before 2 t d = iblkR2 V c 2 t) ∧
    (∀ d, (datR2 V c).before 3 t d = iblkR2 V c 3 t) ∧ ∀ d, (datR2 V c).before 4 t d = iblkR2 V c 4 t := by
  refine ⟨?_, ?_, ?_, ?_, ?_⟩ <;> exact fun d =>
    ((datR2 V c).before_in_eq_fetched _ rfl (fun _ => rfl) (fun _ _ _ => rfl) (fun _ => rfl) t d).trans rfl

/-- By cases on the position: at 0 the condition holds and the rows are zero; at `n + 1` it fails and the rows are the pair at `n`. -/
theorem rowsR2 (c : Dev nD) (t : Fin cfg2.N) : ∃ s6 s7, accR2 V c t.val t.isLt = nextR2 V c t s6 s7 ∧
    (condR2 (grid2.coords t) → s6 = k2_pay2 ∧ s7 = k2_pay3) ∧
    (¬condR2 (grid2.coords t) → ∀ d6 d7, (datR2 V c).before 6 t d6 = s6 ∧ (datR2 V c).before 7 t d7 = s7) := by
  have hN : cfg2.N = 20 := N_2
  obtain ⟨n, hn⟩ := t
  cases n with
  | zero => exact ⟨_, _, rfl, fun _ => ⟨rfl, rfl⟩, fun h => absurd ((hcondR2 ⟨0, hn⟩).mpr rfl) h⟩
  | succ n =>
    have h0 : ¬(n + 1) % 20 = 0 := by omega
    refine ⟨_, _, rfl, fun h => absurd ((hcondR2 ⟨n + 1, hn⟩).mp h) h0, fun _ d6 d7 => ⟨?_, ?_⟩⟩ <;>
      exact Dat.before_out_kept _ _ rfl ⟨n + 1, hn⟩ (Nat.succ_ne_zero n) (Bool.eq_false_iff.mpr fun h => by
        first | have := (flush2_6 _).mp h | have := (flush2_7 _).mp h
        dsimp only at this; omega) (fun _ => rfl) (fun _ _ => rfl) _

set_option maxHeartbeats 800000 in
/-- The kernel's triple at the point's blocks, with the rows `rowsR2` names. -/
theorem sound_bodyR2 (c : Dev nD) (t : Fin cfg2.N) :
    iprop((datR2 V c).Φ t.castSucc ∗ (datR2 V c).owesAt () t.castSucc ∗ bigSep Finset.univ fun w : Fin cfg2.W =>
      iprop(∃ d, owns c.tc ((cfg2.win w).stage (cfg2.slots t w)) fullShare ((datR2 V c).before w t d)))
    ⊢ wp frame (wpE (defs₀ (F := F)) Variants.none c none) Set.univ (bodyAt2 t) fun _ =>
      iprop((datR2 V c).Φ t.castSucc ∗ (datR2 V c).owesAt () t.castSucc
        ∗ insR2 c (st2_0 t) (st2_1 t) (st2_3 t) (st2_2 t) (st2_4 t) (iblkR2 V c 0 t) (iblkR2 V c 1 t) (iblkR2 V c 3 t) (iblkR2 V c 2 t) (iblkR2 V c 4 t)
          iprop(owns c.tc (st2_5 t) fullShare (k2_pay4 (iblkR2 V c 0 t) (iblkR2 V c 1 t) (iblkR2 V c 2 t) (iblkR2 V c 3 t) (iblkR2 V c 4 t))
            ∗ owns c.tc (st2_6 t) fullShare (accR2 V c t.val t.isLt).1
            ∗ owns c.tc (st2_7 t) fullShare (accR2 V c t.val t.isLt).2)) := by
  obtain ⟨s6, s7, hs, hA, hB⟩ := rowsR2 V c t
  unfold bodyAt2
  rw [bigSep_W2]
  obtain ⟨b0, b1, b2, b3, b4⟩ := before_inR2 V c t
  simp only [b0, b1, b2, b3, b4]
  rw [hs]; dsimp only [nextR2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernelR2 c Set.univ (grid2.coords t) _ _ _ _ _ _ _ _ _ _ _ _ _ _ _ _ _ _ _ _ _ s6 s7 _ _ _
    hA fun h => hB h d6 d7)
  unfold insR2
  iframe H0 H1 H2 H3 H4 H6 H7
  isplitl [H5]; · iexists _; iexact H5
  iintro Hp
  iframe

theorem body_obligationR2 (c : Dev nD) : BodyObligation (datR2 (F := F) V c) (defs₀ (F := F)) Variants.none () Set.univ := fun t => by
  have h := sound_bodyR2 V c t
  rw [bigSep_W2] at h ⊢
  rw [bigSep_W2]
  exact h

end Region

end Cert.Kernel.Hand

end
-- ==== Proof.K.Bn3.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblkR3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rblkR3 : Rect S5000x128 := Rect.unit ![0, 0] S5000x128.size inb_S5000x128_S5000x128_0_0

abbrev rrowR3 : Rect S1x128 := Rect.unit ![0, 0] S1x128.size inb_S1x128_S1x128_0_0

theorem offR3 : (![0, 0] : Fin 2 → Nat) = fun _ => 0 := by decide

variable (x0 : Vec F S5000x128 .f32) (x1 x2 x3 x4 : Vec F S1x128 .f32)

-- What the body leaves in the output window's buffer: the payload of the five input buffers' contents.
def outR3 : Vec F S5000x128 .f32 := k3_pay1 x0 x1 x2 x3 x4

-- One store through the whole block leaves its payload, and a load through a whole buffer reads its contents.
theorem outR3_eq :
    (View.canon [⟨rblkR3, k3_pay1 (View.ld x0 rblkR3) (View.ld x1 rrowR3) (View.ld x2 rrowR3) (View.ld x3 rrowR3) (View.ld x4 rrowR3)⟩] : Vec F S5000x128 .f32) =
      k3_pay1 x0 x1 x2 x3 x4 := by
  rw [View.canon_unit_zero offR3]
  simp only [View.ld_unit_zero (S := S5000x128) offR3, View.ld_unit_zero (S := S1x128) offR3]

def datR3 : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => iblkR3 V c 3 t
    | ⟨4, _⟩ => iblkR3 V c 4 t
    | ⟨5, _⟩ => outR3 (iblkR3 V c 0 t) (iblkR3 V c 1 t) (iblkR3 V c 2 t) (iblkR3 V c 3 t) (iblkR3 V c 4 t)
  Φ _ := Pipeline.ΦA spec3 c
  q _ := fullShare
  owed _ := 0

theorem datR3_A (w : Fin cfg3.W) : (datR3 V c).A w = V c (Pipeline.arrRef spec3 w) := rfl

theorem datR3_after5 (t : Fin cfg3.N) :
    (datR3 V c).after 5 t = k3_pay1 (iblkR3 V c 0 t) (iblkR3 V c 1 t) (iblkR3 V c 2 t) (iblkR3 V c 3 t) (iblkR3 V c 4 t) := by
  dsimp only [datR3, outR3]

-- Every window but the output's is an input whose block the body leaves in place.
theorem beforeR3 : ∀ w : Fin cfg3.W, w ≠ 5 → ∀ t d, (datR3 V c).before w t d = (datR3 V c).after w t
  | ⟨5, _⟩, h, _, _ => absurd rfl h
  | ⟨0, _⟩, _, t, d | ⟨1, _⟩, _, t, d | ⟨2, _⟩, _, t, d | ⟨3, _⟩, _, t, d | ⟨4, _⟩, _, t, d =>
    ((datR3 V c).before_in_eq_fetched _ rfl (fun _ => rfl) (fun _ _ _ => rfl) (fun _ => rfl) t d).trans rfl

-- The body's triple at point t in the shape of the library's body obligation, over any contents x0 … x4 of the input buffers and any frame R, S.
theorem sound_kernelR3 (t : Fin cfg3.N) (R S : sProp 𝕄) :
    iprop(R ∗ S ∗ (∃ d : Vec F S5000x128 .f32, owns c (st3_0 t) fullShare x0)
        ∗ (∃ d : Vec F S1x128 .f32, owns c (st3_1 t) fullShare x1)
        ∗ (∃ d : Vec F S1x128 .f32, owns c (st3_2 t) fullShare x2)
        ∗ (∃ d : Vec F S1x128 .f32, owns c (st3_3 t) fullShare x3)
        ∗ (∃ d : Vec F S1x128 .f32, owns c (st3_4 t) fullShare x4)
        ∗ (∃ d, owns c (st3_5 t) fullShare ((datR3 V c).before 5 t d)))
      ⊢ wp frame (wpE (defs₀ (F := F)) Variants.none c none) Set.univ (bodyAt3 t) fun _ =>
          iprop(R ∗ S ∗ owns c (st3_0 t) fullShare x0 ∗ owns c (st3_1 t) fullShare x1
            ∗ owns c (st3_2 t) fullShare x2 ∗ owns c (st3_3 t) fullShare x3
            ∗ owns c (st3_4 t) fullShare x4 ∗ owns c (st3_5 t) fullShare (k3_pay1 x0 x1 x2 x3 x4)) := by
  unfold bodyAt3; simp only [cc3__bn_kernel_eq_skeleton]; unfold cc3__bn_kernel_skel
  unfold owns
  iintro ⟨HR, HS, ⟨%e0, %f0, %hf0, H0⟩, ⟨%e1, %f1, %hf1, H1⟩, ⟨%e2, %f2, %hf2, H2⟩, ⟨%e3, %f3, %hf3, H3⟩, ⟨%e4, %f4, %hf4, H4⟩, ⟨%d5, %f5, -, H5⟩⟩
  subst hf0 hf1 hf2 hf3 hf4
  sl_exec
  sl_step
  iframe HR HS
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact Eq.trans (View.read_writes_eq_canon _ _ _ fun y => ⟨_, List.mem_singleton_self _, View.mem_set_unit_zero offR3 inb_S5000x128_S5000x128_0_0 y⟩)
    (outR3_eq _ _ _ _ _)

theorem body_obligationR3 : BodyObligation (datR3 (F := F) V c) (defs₀ (F := F)) Variants.none () Set.univ := fun t => by
  rw [bigSep_W3, bigSep_W3]
  simp +decide only [beforeR3 V c]
  rw [datR3_after5]
  sl_whnfR [defs₀, Defs.onTc]
  exact sound_kernelR3 V c _ _ _ _ _ t _ _

end Cert.Kernel.Hand

end
-- ==== Proof.K.Mlp4.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR4 (i : grid4.Coords) : Prop := (Scalar.cmpi .ne (Scalar.extui (Scalar.cmpi .eq (BitVec.ofNat 32 (i 0).val) 0#32)) 0#32) = 1#1

theorem hcondR4 : ∀ t : Fin grid4.N, condR4 (grid4.coords t) ↔ t.val % 20 = 0 := by decide +kernel

theorem hzR4 : (![0, 0] : Fin 2 → Nat) = fun _ => 0 := funext fun a => by fin_cases a <;> rfl

/-- The newest write covers every index, so neither older writes nor prior contents are reached. -/
theorem read_writes_unitR4 {sg κ sp S e} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

section Kernel
variable (c : Dev nD) (E : Set ℕ) (i : grid4.Coords)
  (arg1 arg6 : Memref sig .tc .vmem S5000x128 .f32) (arg2 arg4 : Memref sig .tc .vmem S128x128 .f32)
  (arg3 arg5 arg7 arg8 : Memref sig .tc .vmem S1x128 .f32)
  (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (x0 : Vec F S5000x128 .f32) (x1 x3 : Vec F S128x128 .f32) (x2 x4 s6 s7 d6 d7 : Vec F S1x128 .f32)

/-- The five inputs at contents `x0 … x4`, named once; `R` is the rest of a frame. -/
def insR4 (R : sProp 𝕄) : sProp 𝕄 :=
  iprop(owns c.tc arg1 fullShare x0 ∗ owns c.tc arg2 fullShare x1 ∗ owns c.tc arg3 fullShare x2
    ∗ owns c.tc arg4 fullShare x3 ∗ owns c.tc arg5 fullShare x4 ∗ R)

set_option maxHeartbeats 1000000 in
/-- One triple for both values of the body's condition: `hA`, `hB` say which rows `s6`, `s7` the block's sums are added to. -/
theorem sound_kernelR4 (K : PUnit → sProp 𝕄) (hA : condR4 i → s6 = k4_pay2 ∧ s7 = k4_pay3) (hB : ¬condR4 i → d6 = s6 ∧ d7 = s7) :
    insR4 c arg1 arg2 arg4 arg3 arg5 x0 x1 x3 x2 x4 iprop((∃ d, owns c.tc arg6 fullShare d)
        ∗ owns c.tc arg7 fullShare d6 ∗ owns c.tc arg8 fullShare d7
        ∗ (insR4 c arg1 arg2 arg4 arg3 arg5 x0 x1 x3 x2 x4 iprop(owns c.tc arg6 fullShare (k4_pay4 x0 x1 x2 x3 x4)
            ∗ owns c.tc arg7 fullShare (k4_pay5 x0 x1 x2 x3 x4 s6)
            ∗ owns c.tc arg8 fullShare (k4_pay1 (k4_pay4 x0 x1 x2 x3 x4) s7)) -∗ K ⟨⟩))
      ⊢ wp frame (wpE (defs₀ (F := F)) Variants.none c none) E
          (cc4__mlp_stats_kernel i arg1 harg1 arg2 harg2 arg3 harg3 arg4 harg4 arg5 harg5 arg6 harg6 arg7 harg7 arg8 harg8) K := by
  simp only [cc4__mlp_stats_kernel_eq_skeleton]; unfold cc4__mlp_stats_kernel_skel
  simp only [k4_part1_eq_skeleton]
  unfold insR4 owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  by_cases h : condR4 i
  on_goal 1 => obtain ⟨rfl, rfl⟩ := hA h
  on_goal 2 => obtain ⟨rfl, rfl⟩ := hB h
  all_goals
    sl_exec (disch := first | exact h)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    all_goals
      iexists _; isplitr
      swap; · iassumption
      ipureintro
      first
      | with_reducible rfl
      | sl_unfold_words
        first
        | rw [read_writes_unitR4 (S := S5000x128) _ _ hzR4]
        | rw [read_writes_unitR4 (S := S1x128) _ _ hzR4]
        simp only [View.readAt_eq_ld, View.ld_unit_zero (S := S5000x128) hzR4, View.ld_unit_zero (S := S128x128) hzR4,
          View.ld_unit_zero (S := S1x128) hzR4, View.readCov_unit_zero (S := S1x128) _ hzR4]

end Kernel

section Region
variable (V : (c : Dev nD) → (b : Ref sig .tc) → Buf (Elt F) ((c : Thread nD τ).loc b))

def iblkR4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- One grid point's contribution: the block's column sums and column sums of squares added to the rows `s6`, `s7`. -/
abbrev nextR4 (c : Dev nD) (t : Fin cfg4.N) (s6 s7 : Vec F S1x128 .f32) : Vec F S1x128 .f32 × Vec F S1x128 .f32 :=
  (k4_pay5 (iblkR4 V c 0 t) (iblkR4 V c 1 t) (iblkR4 V c 2 t) (iblkR4 V c 3 t) (iblkR4 V c 4 t) s6,
   k4_pay1 (k4_pay4 (iblkR4 V c 0 t) (iblkR4 V c 1 t) (iblkR4 V c 2 t) (iblkR4 V c 3 t) (iblkR4 V c 4 t)) s7)

/-- The running pair after position `n`: `nextR4` folded from the zero rows. -/
def accR4 (c : Dev nD) : (n : ℕ) → n < cfg4.N → Vec F S1x128 .f32 × Vec F S1x128 .f32
  | 0, h => nextR4 V c ⟨0, h⟩ k4_pay2 k4_pay3
  | n + 1, h => nextR4 V c ⟨n + 1, h⟩ (accR4 c n (Nat.lt_of_succ_lt h)).1 (accR4 c n (Nat.lt_of_succ_lt h)).2

def datR4 (c : Dev nD) : Dat τ (Elt F) Unit ℕ (UR sig nD τ) ℕ cfg4 c where
  A w := V c (Pipeline.arrRef spec4 w)
  after w t := match w with
    | ⟨0, _⟩ => iblkR4 V c 0 t
    | ⟨1, _⟩ => iblkR4 V c 1 t
    | ⟨2, _⟩ => iblkR4 V c 2 t
    | ⟨3, _⟩ => iblkR4 V c 3 t
    | ⟨4, _⟩ => iblkR4 V c 4 t
    | ⟨5, _⟩ => k4_pay4 (iblkR4 V c 0 t) (iblkR4 V c 1 t) (iblkR4 V c 2 t) (iblkR4 V c 3 t) (iblkR4 V c 4 t)
    | ⟨6, _⟩ => (accR4 V c t.val t.isLt).1
    | ⟨7, _⟩ => (accR4 V c t.val t.isLt).2
  Φ _ := Pipeline.ΦA spec4 c
  q _ := fullShare
  owed _ := 0

theorem datR4_A (c : Dev nD) (w : Fin cfg4.W) : (datR4 V c).A w = V c (Pipeline.arrRef spec4 w) := rfl

theorem before_inR4 (c : Dev nD) (t : Fin cfg4.N) : (∀ d, (datR4 V c).before 0 t d = iblkR4 V c 0 t) ∧
    (∀ d, (datR4 V c).before 1 t d = iblkR4 V c 1 t) ∧ (∀ d, (datR4 V c).before 2 t d = iblkR4 V c 2 t) ∧
    (∀ d, (datR4 V c).before 3 t d = iblkR4 V c 3 t) ∧ ∀ d, (datR4 V c).before 4 t d = iblkR4 V c 4 t := by
  refine ⟨?_, ?_, ?_, ?_, ?_⟩ <;> exact fun d =>
    ((datR4 V c).before_in_eq_fetched _ rfl (fun _ => rfl) (fun _ _ _ => rfl) (fun _ => rfl) t d).trans rfl

/-- By cases on the position: at 0 the condition holds and the rows are zero; at `n + 1` it fails and the rows are the pair at `n`. -/
theorem rowsR4 (c : Dev nD) (t : Fin cfg4.N) : ∃ s6 s7, accR4 V c t.val t.isLt = nextR4 V c t s6 s7 ∧
    (condR4 (grid4.coords t) → s6 = k4_pay2 ∧ s7 = k4_pay3) ∧
    (¬condR4 (grid4.coords t) → ∀ d6 d7, (datR4 V c).before 6 t d6 = s6 ∧ (datR4 V c).before 7 t d7 = s7) := by
  have hN : cfg4.N = 20 := N_4
  obtain ⟨n, hn⟩ := t
  cases n with
  | zero => exact ⟨_, _, rfl, fun _ => ⟨rfl, rfl⟩, fun h => absurd ((hcondR4 ⟨0, hn⟩).mpr rfl) h⟩
  | succ n =>
    have h0 : ¬(n + 1) % 20 = 0 := by omega
    refine ⟨_, _, rfl, fun h => absurd ((hcondR4 ⟨n + 1, hn⟩).mp h) h0, fun _ d6 d7 => ⟨?_, ?_⟩⟩ <;>
      exact Dat.before_out_kept _ _ rfl ⟨n + 1, hn⟩ (Nat.succ_ne_zero n) (Bool.eq_false_iff.mpr fun h => by
        first | have := (flush4_6 _).mp h | have := (flush4_7 _).mp h
        dsimp only at this; omega) (fun _ => rfl) (fun _ _ => rfl) _

set_option maxHeartbeats 800000 in
/-- The kernel's triple at the point's blocks, with the rows `rowsR4` names. -/
theorem sound_bodyR4 (c : Dev nD) (t : Fin cfg4.N) :
    iprop((datR4 V c).Φ t.castSucc ∗ (datR4 V c).owesAt () t.castSucc ∗ bigSep Finset.univ fun w : Fin cfg4.W =>
      iprop(∃ d, owns c.tc ((cfg4.win w).stage (cfg4.slots t w)) fullShare ((datR4 V c).before w t d)))
    ⊢ wp frame (wpE (defs₀ (F := F)) Variants.none c none) Set.univ (bodyAt4 t) fun _ =>
      iprop((datR4 V c).Φ t.castSucc ∗ (datR4 V c).owesAt () t.castSucc
        ∗ insR4 c (st4_0 t) (st4_1 t) (st4_3 t) (st4_2 t) (st4_4 t) (iblkR4 V c 0 t) (iblkR4 V c 1 t) (iblkR4 V c 3 t) (iblkR4 V c 2 t) (iblkR4 V c 4 t)
          iprop(owns c.tc (st4_5 t) fullShare (k4_pay4 (iblkR4 V c 0 t) (iblkR4 V c 1 t) (iblkR4 V c 2 t) (iblkR4 V c 3 t) (iblkR4 V c 4 t))
            ∗ owns c.tc (st4_6 t) fullShare (accR4 V c t.val t.isLt).1
            ∗ owns c.tc (st4_7 t) fullShare (accR4 V c t.val t.isLt).2)) := by
  obtain ⟨s6, s7, hs, hA, hB⟩ := rowsR4 V c t
  unfold bodyAt4
  rw [bigSep_W4]
  obtain ⟨b0, b1, b2, b3, b4⟩ := before_inR4 V c t
  simp only [b0, b1, b2, b3, b4]
  rw [hs]; dsimp only [nextR4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernelR4 c Set.univ (grid4.coords t) _ _ _ _ _ _ _ _ _ _ _ _ _ _ _ _ _ _ _ _ _ s6 s7 _ _ _
    hA fun h => hB h d6 d7)
  unfold insR4
  iframe H0 H1 H2 H3 H4 H6 H7
  isplitl [H5]; · iexists _; iexact H5
  iintro Hp
  iframe

theorem body_obligationR4 (c : Dev nD) : BodyObligation (datR4 (F := F) V c) (defs₀ (F := F)) Variants.none () Set.univ := fun t => by
  have h := sound_bodyR4 V c t
  rw [bigSep_W4] at h ⊢
  rw [bigSep_W4]
  exact h

end Region

end Cert.Kernel.Hand

end
-- ==== Proof.K.Bn5.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblkR5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rblkR5 : Rect S5000x128 := Rect.unit ![0, 0] S5000x128.size inb_S5000x128_S5000x128_0_0

abbrev rrowR5 : Rect S1x128 := Rect.unit ![0, 0] S1x128.size inb_S1x128_S1x128_0_0

theorem offR5 : (![0, 0] : Fin 2 → Nat) = fun _ => 0 := by decide

variable (x0 : Vec F S5000x128 .f32) (x1 x2 x3 x4 : Vec F S1x128 .f32)

-- What the body leaves in the output window's buffer: the payload of the five input buffers' contents.
def outR5 : Vec F S5000x128 .f32 := k5_pay1 x0 x1 x2 x3 x4

-- One store through the whole block leaves its payload, and a load through a whole buffer reads its contents.
theorem outR5_eq :
    (View.canon [⟨rblkR5, k5_pay1 (View.ld x0 rblkR5) (View.ld x1 rrowR5) (View.ld x2 rrowR5) (View.ld x3 rrowR5) (View.ld x4 rrowR5)⟩] : Vec F S5000x128 .f32) =
      k5_pay1 x0 x1 x2 x3 x4 := by
  rw [View.canon_unit_zero offR5]
  simp only [View.ld_unit_zero (S := S5000x128) offR5, View.ld_unit_zero (S := S1x128) offR5]

def datR5 : Dat τ (Elt F) Unit ℕ (UR sig nD τ) ℕ cfg5 c where
  A w := V c (Pipeline.arrRef spec5 w)
  after w t := match w with
    | ⟨0, _⟩ => iblkR5 V c 0 t
    | ⟨1, _⟩ => iblkR5 V c 1 t
    | ⟨2, _⟩ => iblkR5 V c 2 t
    | ⟨3, _⟩ => iblkR5 V c 3 t
    | ⟨4, _⟩ => iblkR5 V c 4 t
    | ⟨5, _⟩ => outR5 (iblkR5 V c 0 t) (iblkR5 V c 1 t) (iblkR5 V c 2 t) (iblkR5 V c 3 t) (iblkR5 V c 4 t)
  Φ _ := Pipeline.ΦA spec5 c
  q _ := fullShare
  owed _ := 0

theorem datR5_A (w : Fin cfg5.W) : (datR5 V c).A w = V c (Pipeline.arrRef spec5 w) := rfl

theorem datR5_after5 (t : Fin cfg5.N) :
    (datR5 V c).after 5 t = k5_pay1 (iblkR5 V c 0 t) (iblkR5 V c 1 t) (iblkR5 V c 2 t) (iblkR5 V c 3 t) (iblkR5 V c 4 t) := by
  dsimp only [datR5, outR5]

-- Every window but the output's is an input whose block the body leaves in place.
theorem beforeR5 : ∀ w : Fin cfg5.W, w ≠ 5 → ∀ t d, (datR5 V c).before w t d = (datR5 V c).after w t
  | ⟨5, _⟩, h, _, _ => absurd rfl h
  | ⟨0, _⟩, _, t, d | ⟨1, _⟩, _, t, d | ⟨2, _⟩, _, t, d | ⟨3, _⟩, _, t, d | ⟨4, _⟩, _, t, d =>
    ((datR5 V c).before_in_eq_fetched _ rfl (fun _ => rfl) (fun _ _ _ => rfl) (fun _ => rfl) t d).trans rfl

-- The body's triple at point t in the shape of the library's body obligation, over any contents x0 … x4 of the input buffers and any frame R, S.
theorem sound_kernelR5 (t : Fin cfg5.N) (R S : sProp 𝕄) :
    iprop(R ∗ S ∗ (∃ d : Vec F S5000x128 .f32, owns c (st5_0 t) fullShare x0)
        ∗ (∃ d : Vec F S1x128 .f32, owns c (st5_1 t) fullShare x1)
        ∗ (∃ d : Vec F S1x128 .f32, owns c (st5_2 t) fullShare x2)
        ∗ (∃ d : Vec F S1x128 .f32, owns c (st5_3 t) fullShare x3)
        ∗ (∃ d : Vec F S1x128 .f32, owns c (st5_4 t) fullShare x4)
        ∗ (∃ d, owns c (st5_5 t) fullShare ((datR5 V c).before 5 t d)))
      ⊢ wp frame (wpE (defs₀ (F := F)) Variants.none c none) Set.univ (bodyAt5 t) fun _ =>
          iprop(R ∗ S ∗ owns c (st5_0 t) fullShare x0 ∗ owns c (st5_1 t) fullShare x1
            ∗ owns c (st5_2 t) fullShare x2 ∗ owns c (st5_3 t) fullShare x3
            ∗ owns c (st5_4 t) fullShare x4 ∗ owns c (st5_5 t) fullShare (k5_pay1 x0 x1 x2 x3 x4)) := by
  unfold bodyAt5; simp only [cc5__bn_kernel_eq_skeleton]; unfold cc5__bn_kernel_skel
  unfold owns
  iintro ⟨HR, HS, ⟨%e0, %f0, %hf0, H0⟩, ⟨%e1, %f1, %hf1, H1⟩, ⟨%e2, %f2, %hf2, H2⟩, ⟨%e3, %f3, %hf3, H3⟩, ⟨%e4, %f4, %hf4, H4⟩, ⟨%d5, %f5, -, H5⟩⟩
  subst hf0 hf1 hf2 hf3 hf4
  sl_exec
  sl_step
  iframe HR HS
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact Eq.trans (View.read_writes_eq_canon _ _ _ fun y => ⟨_, List.mem_singleton_self _, View.mem_set_unit_zero offR5 inb_S5000x128_S5000x128_0_0 y⟩)
    (outR5_eq _ _ _ _ _)

theorem body_obligationR5 : BodyObligation (datR5 (F := F) V c) (defs₀ (F := F)) Variants.none () Set.univ := fun t => by
  rw [bigSep_W5, bigSep_W5]
  simp +decide only [beforeR5 V c]
  rw [datR5_after5]
  sl_whnfR [defs₀, Defs.onTc]
  exact sound_kernelR5 V c _ _ _ _ _ t _ _

end Cert.Kernel.Hand

end
-- ==== Proof.K.Pool6.lean ====
import proofs.«408502_j57071525429596_1_alg».proof.Proof.Gen.Kernel.Launch
import proofs.«408502_j57071525429596_1_alg».proof.Proof.Gen.Kernel.Skeleton
import proofs.«408502_j57071525429596_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev cond6_0 (i : grid6.Coords) : Prop :=
  (Scalar.cmpi .ne (Scalar.extui (Scalar.cmpi .eq (BitVec.ofNat 32 (i 0).val) 0#32)) 0#32) = 1#1
abbrev cond6_1 (i : grid6.Coords) : Prop := k6_cond2 i = 1#1
theorem hcond6 : ∀ t : Fin cfg6.N, (cond6_0 (grid6.coords t) ↔ t.val = 0) ∧ (cond6_1 (grid6.coords t) ↔ t.val = 19) := by
  decide +kernel

theorem idle6_7 : ∀ t : Fin cfg6.N, (¬cond6_1 (grid6.coords t) → cfg6.idle 7 (grid6.coords t) = true ∧ (cfg6.win 7).flush t = false)
    ∧ (cond6_1 (grid6.coords t) → cfg6.idle 7 (grid6.coords t) = false) := by
  decide +kernel

section Run
variable {c : Dev nD} {i : grid6.Coords} {arg1 : Memref sig .tc .vmem S5000x128 .f32} {harg1 : arg1.IsWhole} {arg2 : Memref sig .tc .vmem S5000x1 .i32} {harg2 : arg2.IsWhole} {arg3 : Memref sig .tc .vmem S512x1 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S128x10 .f32} {harg6 : arg6.IsWhole} {arg7 : Memref sig .tc .vmem S1x10 .f32} {harg7 : arg7.IsWhole} {arg8 : Memref sig .tc .vmem S512x10 .f32} {harg8 : arg8.IsWhole} {arg9 : Memref sig .tc .vmem S512x128 .f32} {harg9 : arg9.IsWhole}
  {x0 : Vec F S5000x128 .f32} {x1 : Vec F S5000x1 .i32} {x2 : Vec F S512x1 .f32} {x3 : Vec F S128x128 .f32} {x4 : Vec F S1x128 .f32}
  {x5 : Vec F S128x10 .f32} {x6 : Vec F S1x10 .f32} {xs : Vec F S512x128 .f32}

set_option maxHeartbeats 1000000 in
-- Away from the last point the running sum, restarted from zero at the first point, gains the point's rows.
theorem runR6_acc (hc1 : ¬cond6_1 i) (z : Vec F S512x128 .f32) (hz : z = if cond6_0 i then k6_pay1 (F := F) else xs) (E : Set ℕ)
    (K : PUnit → sProp 𝕄) :
    iprop(owns (c : Thread nD τ) arg1 fullShare x0 ∗ owns (c : Thread nD τ) arg2 fullShare x1 ∗ owns (c : Thread nD τ) arg9 fullShare xs
        ∗ (iprop(owns (c : Thread nD τ) arg1 fullShare x0 ∗ owns (c : Thread nD τ) arg2 fullShare x1
            ∗ owns (c : Thread nD τ) arg9 fullShare (k6_pay2 x0 x1 z)) -∗ K ⟨⟩))
      ⊢ wp frame (wpE (defs₀ (F := F)) Variants.none c none) E (cc6__pool_head_kernel i arg1 harg1 arg2 harg2 arg3 harg3 arg4 harg4 arg5 harg5 arg6 harg6 arg7 harg7 arg8 harg8 arg9 harg9) K := by
  simp only [cc6__pool_head_kernel_eq_skeleton]; unfold cc6__pool_head_kernel_skel
  unfold owns
  iintro ⟨⟨%f0, %hf0, H0⟩, ⟨%f1, %hf1, H1⟩, ⟨%fs, %hfs, HS⟩, Hk⟩
  subst hf0 hf1 hfs hz
  by_cases hc0 : cond6_0 i
  all_goals
    first | rw [if_pos hc0] | rw [if_neg hc0]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    iexists _; isplitr
    swap; · iexact HS
    ipureintro
    try sl_unfold_run_names
    rw [View.read_writes_eq_canon _ _ _ (fun y => ⟨_, List.Mem.head _, View.mem_set_unit_zero hz2 inb_S512x128_S512x128_0_0 y⟩), View.canon_cons_unit_zero (S := S512x128) hz2]
    simp only [View.readAt_eq_ld]
    repeat' first | exact View.ld_unit_zero hz2 _ _ | exact View.readCov_unit_zero _ hz2 _ _ | congr 1

set_option maxHeartbeats 1000000 in
-- The last point also yields the head applied to the finished sum.
theorem runR6_last (hc0 : ¬cond6_0 i) (hc1 : cond6_1 i) (R : sProp 𝕄)
    (hR : R = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6))
    (E : Set ℕ) (K : PUnit → sProp 𝕄) :
    iprop(R ∗ (∃ d, owns (c : Thread nD τ) arg8 fullShare d) ∗ owns (c : Thread nD τ) arg9 fullShare xs
        ∗ (iprop(R ∗ owns (c : Thread nD τ) arg8 fullShare (k6_pay3 (k6_pay2 x0 x1 xs) x2 x3 x4 x5 x6)
            ∗ owns (c : Thread nD τ) arg9 fullShare (k6_pay2 x0 x1 xs)) -∗ K ⟨⟩))
      ⊢ wp frame (wpE (defs₀ (F := F)) Variants.none c none) E (cc6__pool_head_kernel i arg1 harg1 arg2 harg2 arg3 harg3 arg4 harg4 arg5 harg5 arg6 harg6 arg7 harg7 arg8 harg8 arg9 harg9) K := by
  subst hR
  simp only [cc6__pool_head_kernel_eq_skeleton]; unfold cc6__pool_head_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs, %hfs, HS⟩, Hk⟩
  subst hf0 hf1 hf2 hf3 hf4 hf5 hf6 hfs
  sl_exec (disch := first | exact hc0 | exact hc1)
  sl_step
  iapply Hk
  isplitl [H0 H1 H2 H3 H4 H5 H6]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    swap; · iexact H7
    ipureintro
    sl_unfold_run_names
    rw [View.read_writes_eq_canon _ _ _ (fun y => ⟨_, List.Mem.head _, View.mem_set_unit_zero hz2 inb_S512x10_S512x10_0_0 y⟩), View.canon_cons_unit_zero (S := S512x10) hz2,
      View.readCov_unit_zero (S := S512x128) _ hz2]
    simp only [View.readAt_eq_ld]
    repeat' first | exact View.ld_unit_zero hz2 _ _ | exact View.readCov_unit_zero _ hz2 _ _ | congr 1
  iexists _; isplitr
  swap; · iexact HS
  ipureintro
  try sl_unfold_run_names
  rw [View.read_writes_eq_canon _ _ _ (fun y => ⟨_, List.Mem.head _, View.mem_set_unit_zero hz2 inb_S512x128_S512x128_0_0 y⟩), View.canon_cons_unit_zero (S := S512x128) hz2]
  simp only [View.readAt_eq_ld]
  repeat' first | exact View.ld_unit_zero hz2 _ _ | exact View.readCov_unit_zero _ hz2 _ _ | congr 1

end Run

section Data
variable (V : (c : Dev nD) → (b : Ref sig .tc) → Buf (Elt F) ((c : Thread nD τ).loc b)) (c : Dev nD)

def iblkR6 (w : Fin cfg6.W) (t : Fin cfg6.N) : ((cfg6.win w).xblock (cfg6.grid.coords t)).Idx → Elt F (cfg6.win w).elt :=
  ((cfg6.win w).blk t).view.read (Elt F) (V c (Pipeline.arrRef spec6 w))

def accR6 : (n : ℕ) → n < cfg6.N → Vec F S512x128 .f32
  | 0, h => k6_pay2 (iblkR6 V c 0 ⟨0, h⟩) (iblkR6 V c 1 ⟨0, h⟩) (k6_pay1 (F := F))
  | n + 1, h => k6_pay2 (iblkR6 V c 0 ⟨n + 1, h⟩) (iblkR6 V c 1 ⟨n + 1, h⟩) (accR6 n (Nat.lt_of_succ_lt h))

theorem accR6_step (t : Fin cfg6.N) : accR6 V c t.val t.isLt = k6_pay2 (iblkR6 V c 0 t) (iblkR6 V c 1 t)
    (if t.val = 0 then k6_pay1 (F := F) else accR6 V c (t.val - 1) (Nat.lt_of_le_of_lt (Nat.sub_le _ _) t.isLt)) := by
  obtain ⟨_ | n, hn⟩ := t <;> rfl

abbrev scM6 : Memref sig .tc .vmem S512x128 .f32 := Memref.whole cc6_scratch0

abbrev heldR6 (P : sProp 𝕄) : sProp 𝕄 :=
  iprop(iprop(P ∗ Pipeline.scopedRestBut (Ix := Unit) (Name := ℕ) (U := UR sig nD τ) (Lvl := ℕ) (Val := Elt F) spec6 c [cc6_scratch0])
    ∗ (∃ r, prngReg c r))

theorem PhiA6_eq : (Pipeline.ΦA spec6 c : sProp 𝕄) = heldR6 c iprop(∃ d, owns (c : Thread nD τ) scM6 fullShare d) := by
  unfold Pipeline.ΦA; rw [scopedRest6_split]; simp only [heldR6, scM6, owns_whole]; try rfl

def PhiR6 : (n : ℕ) → n ≤ cfg6.N → sProp 𝕄
  | 0, _ => Pipeline.ΦA spec6 c
  | n + 1, hn => heldR6 c (owns (c : Thread nD τ) scM6 fullShare (accR6 V c n hn))

theorem PhiR6_step (n : ℕ) (h : n ≤ cfg6.N) : PhiR6 V c n h = if hz : n = 0 then Pipeline.ΦA spec6 c else
    heldR6 c (owns (c : Thread nD τ) scM6 fullShare (accR6 V c (n - 1) (by omega))) := by
  cases n <;> rfl

def datR6 : Dat τ (Elt F) Unit ℕ (UR sig nD τ) ℕ cfg6 c where
  A w := V c (Pipeline.arrRef spec6 w)
  after w t := match w with
    | ⟨0, _⟩ => iblkR6 V c 0 t
    | ⟨1, _⟩ => iblkR6 V c 1 t
    | ⟨2, _⟩ => iblkR6 V c 2 t
    | ⟨3, _⟩ => iblkR6 V c 3 t
    | ⟨4, _⟩ => iblkR6 V c 4 t
    | ⟨5, _⟩ => iblkR6 V c 5 t
    | ⟨6, _⟩ => iblkR6 V c 6 t
    | ⟨7, _⟩ => k6_pay3 (accR6 V c t.val t.isLt) (iblkR6 V c 2 t) (iblkR6 V c 3 t) (iblkR6 V c 4 t) (iblkR6 V c 5 t) (iblkR6 V c 6 t)
  Φ t := PhiR6 V c t.val (Nat.le_of_lt_succ t.isLt)
  q _ := fullShare
  owed _ := 0

theorem datR6_A (w : Fin cfg6.W) : (datR6 V c).A w = V c (Pipeline.arrRef spec6 w) := rfl

theorem afterR6_7 (t : Fin cfg6.N) : (datR6 V c).after 7 t
    = k6_pay3 (accR6 V c t.val t.isLt) (iblkR6 V c 2 t) (iblkR6 V c 3 t) (iblkR6 V c 4 t) (iblkR6 V c 5 t) (iblkR6 V c 6 t) := rfl

theorem afterR6 (t : Fin cfg6.N) :
    (datR6 V c).after 0 t = iblkR6 V c 0 t ∧ (datR6 V c).after 1 t = iblkR6 V c 1 t ∧ (datR6 V c).after 2 t = iblkR6 V c 2 t
    ∧ (datR6 V c).after 3 t = iblkR6 V c 3 t ∧ (datR6 V c).after 4 t = iblkR6 V c 4 t ∧ (datR6 V c).after 5 t = iblkR6 V c 5 t
    ∧ (datR6 V c).after 6 t = iblkR6 V c 6 t := ⟨rfl, rfl, rfl, rfl, rfl, rfl, rfl⟩

theorem beforeR6 (t : Fin cfg6.N) (w : Fin cfg6.W) (hw : w ≠ 7) (d) : (datR6 V c).before w t d = (datR6 V c).after w t := by
  fin_cases w <;> first
    | exact absurd rfl hw
    | (refine ((datR6 V c).before_in_eq_fetched _ ?_ ?_ ?_ ?_ t d).trans ?_ <;> intros <;> rfl)

theorem leavesR6 (t : Fin cfg6.N) (w : Fin cfg6.W) (hw : w ≠ 7) : (datR6 V c).leavesExact w t
    = owns (c : Thread nD τ) ((cfg6.win w).stage (cfg6.slots t w)) fullShare ((datR6 V c).after w t) := by
  fin_cases w <;> first | exact absurd rfl hw | rfl

set_option maxHeartbeats 4800000 in
theorem sound_bodyR6 (t : Fin cfg6.N) :
    iprop((datR6 V c).Φ t.castSucc ∗ (datR6 V c).owesAt () t.castSucc ∗ bigSep Finset.univ fun w =>
        iprop(∃ d, owns (c : Thread nD τ) ((cfg6.win w).stage (cfg6.slots t w)) fullShare ((datR6 V c).before w t d)))
      ⊢ wp frame (wpE (defs₀ (F := F)) Variants.none c none) Set.univ (bodyAt6 t) fun _ =>
        iprop((datR6 V c).Φ t.succ ∗ (datR6 V c).owesAt () t.succ ∗ bigSep Finset.univ fun w => (datR6 V c).leavesExact w t) := by
  rw [bigSep_W6, bigSep_W6]
  unfold bodyAt6
  simp (disch := decide) only [beforeR6 V c t, leavesR6 V c t, afterR6 V c t]
  rw [show (datR6 V c).owesAt () t.succ = (datR6 V c).owesAt () t.castSucc from rfl,
    show (datR6 V c).Φ t.succ = heldR6 c (owns (c : Thread nD τ) scM6 fullShare (accR6 V c t.val t.isLt)) from rfl,
    show (datR6 V c).Φ t.castSucc = PhiR6 V c t.val (Nat.le_of_lt t.isLt) from rfl]
  by_cases h19 : t.val = 19
  · have h0 : t.val ≠ 0 := by omega
    have hc0 : ¬cond6_0 (grid6.coords t) := fun h => h0 ((hcond6 t).1.mp h)
    have hc1 := (hcond6 t).2.mpr h19
    rw [show (datR6 V c).leavesExact 7 t = owns (c : Thread nD τ) (st6_7 t) fullShare ((datR6 V c).after 7 t) from by
      unfold Dat.leavesExact; rw [(idle6_7 t).2 hc1], afterR6_7, accR6_step V c t, if_neg h0, PhiR6_step V c, dif_neg h0]
    unfold heldR6
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runR6_last hc0 hc1 _ rfl Set.univ _)
    iframe H0 H1 H2 H3 H4 H5 H6 HS
    isplitl [H7]; · iexists _; iexact H7
    iintro ⟨⟨H0, H1, H2, H3, H4, H5, H6⟩, H7, HS⟩
    iframe
  · have hc1 : ¬cond6_1 (grid6.coords t) := fun h => h19 ((hcond6 t).2.mp h)
    rw [Dat.leavesExact_idle _ 7 t ((idle6_7 t).1 hc1).1 ((idle6_7 t).1 hc1).2]
    by_cases h0 : t.val = 0
    · rw [accR6_step V c t, if_pos h0, PhiR6_step V c, dif_pos h0, PhiA6_eq]
      unfold heldR6
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runR6_acc hc1 _ (if_pos ((hcond6 t).1.mpr h0)).symm Set.univ _)
      iframe H0 H1 HS
      iintro ⟨H0, H1, HS⟩
      iframe
      iexists _; iexact H7
    · rw [accR6_step V c t, if_neg h0, PhiR6_step V c, dif_neg h0]
      unfold heldR6
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runR6_acc hc1 _ (if_neg fun h => h0 ((hcond6 t).1.mp h)).symm Set.univ _)
      iframe H0 H1 HS
      iintro ⟨H0, H1, HS⟩
      iframe
      iexists _; iexact H7

theorem body_obligationR6 : BodyObligation (datR6 (F := F) V c) (defs₀ (F := F)) Variants.none () Set.univ := sound_bodyR6 V c

theorem hinR6 : Pipeline.ΦA spec6 c ⊢ (datR6 V c).Φ 0 := .rfl

theorem houtR6 : (datR6 V c).Φ (Fin.last cfg6.N) ⊢ Pipeline.ΦA spec6 c := by
  rw [show (datR6 V c).Φ (Fin.last cfg6.N) = PhiR6 V c cfg6.N le_rfl from rfl,
    PhiR6_step V c, dif_neg (by have : cfg6.N = 20 := N_6; omega), PhiA6_eq]
  unfold heldR6
  iintro ⟨⟨HS, Hr⟩, Hg⟩
  iframe Hr Hg
  iexists _; iexact HS

end Data

end Cert.Kernel.Hand

end
-- ==== Proof.K.DataFacts.lean ====
import proofs.«408502_j57071525429596_1_alg».proof.Proof.K.Mlp0
import proofs.«408502_j57071525429596_1_alg».proof.Proof.K.Bn1
import proofs.«408502_j57071525429596_1_alg».proof.Proof.K.Mlp2
import proofs.«408502_j57071525429596_1_alg».proof.Proof.K.Bn3
import proofs.«408502_j57071525429596_1_alg».proof.Proof.K.Mlp4
import proofs.«408502_j57071525429596_1_alg».proof.Proof.K.Bn5
import proofs.«408502_j57071525429596_1_alg».proof.Proof.K.Pool6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem datR0_share (c : Dev nD) : ∀ w, (datR0 V c).share w = fullShare := (datR0 V c).share_full fun _ => rfl
theorem datR0_owed0 (c : Dev nD) : ∀ t, (datR0 V c).owed t = 0 := fun _ => rfl
theorem hinR0 (c : Dev nD) : Pipeline.ΦA spec0 c ⊢ (datR0 V c).Φ 0 := .rfl
theorem houtR0 (c : Dev nD) : (datR0 V c).Φ (Fin.last cfg0.N) ⊢ Pipeline.ΦA spec0 c := .rfl

theorem datR1_share (c : Dev nD) : ∀ w, (datR1 V c).share w = fullShare := (datR1 V c).share_full fun _ => rfl
theorem datR1_owed0 (c : Dev nD) : ∀ t, (datR1 V c).owed t = 0 := fun _ => rfl
theorem hinR1 (c : Dev nD) : Pipeline.ΦA spec1 c ⊢ (datR1 V c).Φ 0 := .rfl
theorem houtR1 (c : Dev nD) : (datR1 V c).Φ (Fin.last cfg1.N) ⊢ Pipeline.ΦA spec1 c := .rfl

theorem datR2_share (c : Dev nD) : ∀ w, (datR2 V c).share w = fullShare := (datR2 V c).share_full fun _ => rfl
theorem datR2_owed0 (c : Dev nD) : ∀ t, (datR2 V c).owed t = 0 := fun _ => rfl
theorem hinR2 (c : Dev nD) : Pipeline.ΦA spec2 c ⊢ (datR2 V c).Φ 0 := .rfl
theorem houtR2 (c : Dev nD) : (datR2 V c).Φ (Fin.last cfg2.N) ⊢ Pipeline.ΦA spec2 c := .rfl

theorem datR3_share (c : Dev nD) : ∀ w, (datR3 V c).share w = fullShare := (datR3 V c).share_full fun _ => rfl
theorem datR3_owed0 (c : Dev nD) : ∀ t, (datR3 V c).owed t = 0 := fun _ => rfl
theorem hinR3 (c : Dev nD) : Pipeline.ΦA spec3 c ⊢ (datR3 V c).Φ 0 := .rfl
theorem houtR3 (c : Dev nD) : (datR3 V c).Φ (Fin.last cfg3.N) ⊢ Pipeline.ΦA spec3 c := .rfl

theorem datR4_share (c : Dev nD) : ∀ w, (datR4 V c).share w = fullShare := (datR4 V c).share_full fun _ => rfl
theorem datR4_owed0 (c : Dev nD) : ∀ t, (datR4 V c).owed t = 0 := fun _ => rfl
theorem hinR4 (c : Dev nD) : Pipeline.ΦA spec4 c ⊢ (datR4 V c).Φ 0 := .rfl
theorem houtR4 (c : Dev nD) : (datR4 V c).Φ (Fin.last cfg4.N) ⊢ Pipeline.ΦA spec4 c := .rfl

theorem datR5_share (c : Dev nD) : ∀ w, (datR5 V c).share w = fullShare := (datR5 V c).share_full fun _ => rfl
theorem datR5_owed0 (c : Dev nD) : ∀ t, (datR5 V c).owed t = 0 := fun _ => rfl
theorem hinR5 (c : Dev nD) : Pipeline.ΦA spec5 c ⊢ (datR5 V c).Φ 0 := .rfl
theorem houtR5 (c : Dev nD) : (datR5 V c).Φ (Fin.last cfg5.N) ⊢ Pipeline.ΦA spec5 c := .rfl

theorem datR6_share (c : Dev nD) : ∀ w, (datR6 V c).share w = fullShare := (datR6 V c).share_full fun _ => rfl
theorem datR6_owed0 (c : Dev nD) : ∀ t, (datR6 V c).owed t = 0 := fun _ => rfl

end Cert.Kernel.Hand

end
-- ==== Proof.K.Chain.lean ====
import proofs.«408502_j57071525429596_1_alg».proof.Proof.Gen.Kernel.Launch
import proofs.«408502_j57071525429596_1_alg».proof.Proof.Gen.Kernel.Regions
import proofs.«408502_j57071525429596_1_alg».proof.Proof.K.DataFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable {cfg : Cfg sig Λ₀} (D : (c : Dev nD) → Dat τ (Elt F) Unit ℕ (UR sig nD τ) ℕ cfg c)
  (W : Dev nD → Valuation τ sig (Elt F)) (c : Dev nD)

/-- The contents at a region's exit: the data's final arrays at the windows' references, the entry contents elsewhere. -/
def exitOf : Valuation τ sig (Elt F) := Pipeline.withArrays cfg.spec c (W c) fun w => (D c).arrAt w cfg.N

theorem exitOf_arr (hinj : Function.Injective (Pipeline.arrRef cfg.spec)) (w : Fin cfg.W) :
    exitOf D W c (Proc.devRef .tc (Pipeline.arrRef cfg.spec w)) = (D c).arrAt w cfg.N :=
  Pipeline.withArrays_arr cfg.spec hinj c _ _ w

theorem exitOf_rest : ∀ b, b ∉ Finset.univ.image (Pipeline.arrRef cfg.spec) →
    exitOf D W c (Proc.devRef .tc b) = W c (Proc.devRef .tc b) :=
  fun b hb => Pipeline.withArrays_of_ne cfg.spec c _ _ b fun w e => hb (Finset.mem_image.mpr ⟨w, Finset.mem_univ _, e⟩)

/-- A reference outside `outs`, which lists every output window's array, holds at the exit what it held at the entry. -/
theorem exitOf_keep (hinj : Function.Injective (Pipeline.arrRef cfg.spec))
    (hA : ∀ w, (D c).A w = W c (Proc.devRef .tc (Pipeline.arrRef cfg.spec w))) (outs : List (Ref sig .tc))
    (ho : ∀ w, (cfg.win w).isOut = true → Pipeline.arrRef cfg.spec w ∈ outs) (r : Ref sig .tc) (hr : r ∉ outs) :
    exitOf D W c (Proc.devRef .tc r) = W c (Proc.devRef .tc r) := by
  by_cases h : ∃ w, Pipeline.arrRef cfg.spec w = r
  · obtain ⟨w, rfl⟩ := h
    exact (exitOf_arr D W c hinj w).trans
      (((D c).arrAt_in w (eq_false_of_ne_true fun hb => hr (ho w hb)) _).trans (hA w))
  · exact Pipeline.withArrays_of_ne cfg.spec c _ _ r fun w e => h ⟨w, e⟩

/-- Contents indexed by device buffers, read at a core's own references. -/
abbrev rd : (c : Dev nD) → (b : Ref sig .tc) → Buf (Elt F) ((c : Thread nD τ).loc b) := fun c b => W c b
end

variable (m : (ℓ : Loc nD τ sig) → Buf (Elt F) ℓ) (c : Dev nD) (r : Ref sig .tc)

abbrev W0 : Dev nD → Valuation τ sig (Elt F) := fun c b => m (c, b)
abbrev outsOf : Fin 7 → List (Ref sig .tc)
  | 0 => [main_v25_0, main_v25_1, main_v25_2]
  | 1 => [main_v45]
  | 2 => [main_v67_0, main_v67_1, main_v67_2]
  | 3 => [main_v87]
  | 4 => [main_v109_0, main_v109_1, main_v109_2]
  | 5 => [main_v129]
  | 6 => [main_v142]

abbrev W1 : Dev nD → Valuation τ sig (Elt F) := fun c => StableHlo.after hostOps0 (W0 m c)
abbrev E1 := rd (W1 m)
def W2 : Dev nD → Valuation τ sig (Elt F) := exitOf (datR0 (E1 m)) (W1 m)
abbrev E2 := rd (W2 m)
theorem W2_arr (w : Fin cfg0.W) :
    W2 m c (Proc.devRef .tc (Pipeline.arrRef spec0 w)) = (datR0 (E1 m) c).arrAt w cfg0.N :=
  exitOf_arr _ _ c launch0.win.arr_inj w
theorem W1_of (h : r ∉ hostOps0_W) : W1 m c (Proc.devRef .tc r) = W0 m c (Proc.devRef .tc r) :=
  StableHlo.after_of_writes_sub hostOps0 _ hostOps0_writes h
theorem W2_keep (hr : r ∉ outsOf 0) : W2 m c (Proc.devRef .tc r) = W1 m c (Proc.devRef .tc r) :=
  exitOf_keep _ _ c launch0.win.arr_inj (datR0_A (E1 m) c) _ (by decide) r hr

abbrev W3 : Dev nD → Valuation τ sig (Elt F) := fun c => StableHlo.after hostOps1 (W2 m c)
abbrev E3 := rd (W3 m)
def W4 : Dev nD → Valuation τ sig (Elt F) := exitOf (datR1 (E3 m)) (W3 m)
abbrev E4 := rd (W4 m)
theorem W4_arr (w : Fin cfg1.W) :
    W4 m c (Proc.devRef .tc (Pipeline.arrRef spec1 w)) = (datR1 (E3 m) c).arrAt w cfg1.N :=
  exitOf_arr _ _ c launch1.win.arr_inj w
theorem W3_of (h : r ∉ hostOps1_W) : W3 m c (Proc.devRef .tc r) = W2 m c (Proc.devRef .tc r) :=
  StableHlo.after_of_writes_sub hostOps1 _ hostOps1_writes h
theorem W4_keep (hr : r ∉ outsOf 1) : W4 m c (Proc.devRef .tc r) = W3 m c (Proc.devRef .tc r) :=
  exitOf_keep _ _ c launch1.win.arr_inj (datR1_A (E3 m) c) _ (by decide) r hr

abbrev W5 : Dev nD → Valuation τ sig (Elt F) := fun c => StableHlo.after hostOps2 (W4 m c)
abbrev E5 := rd (W5 m)
def W6 : Dev nD → Valuation τ sig (Elt F) := exitOf (datR2 (E5 m)) (W5 m)
abbrev E6 := rd (W6 m)
theorem W6_arr (w : Fin cfg2.W) :
    W6 m c (Proc.devRef .tc (Pipeline.arrRef spec2 w)) = (datR2 (E5 m) c).arrAt w cfg2.N :=
  exitOf_arr _ _ c launch2.win.arr_inj w
theorem W5_of (h : r ∉ hostOps2_W) : W5 m c (Proc.devRef .tc r) = W4 m c (Proc.devRef .tc r) :=
  StableHlo.after_of_writes_sub hostOps2 _ hostOps2_writes h
theorem W6_keep (hr : r ∉ outsOf 2) : W6 m c (Proc.devRef .tc r) = W5 m c (Proc.devRef .tc r) :=
  exitOf_keep _ _ c launch2.win.arr_inj (datR2_A (E5 m) c) _ (by decide) r hr

abbrev W7 : Dev nD → Valuation τ sig (Elt F) := fun c => StableHlo.after hostOps3 (W6 m c)
abbrev E7 := rd (W7 m)
def W8 : Dev nD → Valuation τ sig (Elt F) := exitOf (datR3 (E7 m)) (W7 m)
abbrev E8 := rd (W8 m)
theorem W8_arr (w : Fin cfg3.W) :
    W8 m c (Proc.devRef .tc (Pipeline.arrRef spec3 w)) = (datR3 (E7 m) c).arrAt w cfg3.N :=
  exitOf_arr _ _ c launch3.win.arr_inj w
theorem W7_of (h : r ∉ hostOps3_W) : W7 m c (Proc.devRef .tc r) = W6 m c (Proc.devRef .tc r) :=
  StableHlo.after_of_writes_sub hostOps3 _ hostOps3_writes h
theorem W8_keep (hr : r ∉ outsOf 3) : W8 m c (Proc.devRef .tc r) = W7 m c (Proc.devRef .tc r) :=
  exitOf_keep _ _ c launch3.win.arr_inj (datR3_A (E7 m) c) _ (by decide) r hr

abbrev W9 : Dev nD → Valuation τ sig (Elt F) := fun c => StableHlo.after hostOps4 (W8 m c)
abbrev E9 := rd (W9 m)
def W10 : Dev nD → Valuation τ sig (Elt F) := exitOf (datR4 (E9 m)) (W9 m)
abbrev E10 := rd (W10 m)
theorem W10_arr (w : Fin cfg4.W) :
    W10 m c (Proc.devRef .tc (Pipeline.arrRef spec4 w)) = (datR4 (E9 m) c).arrAt w cfg4.N :=
  exitOf_arr _ _ c launch4.win.arr_inj w
theorem W9_of (h : r ∉ hostOps4_W) : W9 m c (Proc.devRef .tc r) = W8 m c (Proc.devRef .tc r) :=
  StableHlo.after_of_writes_sub hostOps4 _ hostOps4_writes h
theorem W10_keep (hr : r ∉ outsOf 4) : W10 m c (Proc.devRef .tc r) = W9 m c (Proc.devRef .tc r) :=
  exitOf_keep _ _ c launch4.win.arr_inj (datR4_A (E9 m) c) _ (by decide) r hr

abbrev W11 : Dev nD → Valuation τ sig (Elt F) := fun c => StableHlo.after hostOps5 (W10 m c)
abbrev E11 := rd (W11 m)
def W12 : Dev nD → Valuation τ sig (Elt F) := exitOf (datR5 (E11 m)) (W11 m)
abbrev E12 := rd (W12 m)
theorem W12_arr (w : Fin cfg5.W) :
    W12 m c (Proc.devRef .tc (Pipeline.arrRef spec5 w)) = (datR5 (E11 m) c).arrAt w cfg5.N :=
  exitOf_arr _ _ c launch5.win.arr_inj w
theorem W11_of (h : r ∉ hostOps5_W) : W11 m c (Proc.devRef .tc r) = W10 m c (Proc.devRef .tc r) :=
  StableHlo.after_of_writes_sub hostOps5 _ hostOps5_writes h
theorem W12_keep (hr : r ∉ outsOf 5) : W12 m c (Proc.devRef .tc r) = W11 m c (Proc.devRef .tc r) :=
  exitOf_keep _ _ c launch5.win.arr_inj (datR5_A (E11 m) c) _ (by decide) r hr

abbrev W13 : Dev nD → Valuation τ sig (Elt F) := fun c => StableHlo.after hostOps6 (W12 m c)
abbrev E13 := rd (W13 m)
def W14 : Dev nD → Valuation τ sig (Elt F) := exitOf (datR6 (E13 m)) (W13 m)
abbrev E14 := rd (W14 m)
theorem W14_arr (w : Fin cfg6.W) :
    W14 m c (Proc.devRef .tc (Pipeline.arrRef spec6 w)) = (datR6 (E13 m) c).arrAt w cfg6.N :=
  exitOf_arr _ _ c launch6.win.arr_inj w
theorem W13_of (h : r ∉ hostOps6_W) : W13 m c (Proc.devRef .tc r) = W12 m c (Proc.devRef .tc r) :=
  StableHlo.after_of_writes_sub hostOps6 _ hostOps6_writes h
theorem W14_keep (hr : r ∉ outsOf 6) : W14 m c (Proc.devRef .tc r) = W13 m c (Proc.devRef .tc r) :=
  exitOf_keep _ _ c launch6.win.arr_inj (datR6_A (E13 m) c) _ (by decide) r hr

/-- The fourteen steps chained: a reference outside every write list and every output list ends at its launch contents. -/
theorem W14_launch (ho : ∀ K : Fin 7, r ∉ outsOf K)
    (h0 : r ∉ hostOps0_W) (h1 : r ∉ hostOps1_W) (h2 : r ∉ hostOps2_W) (h3 : r ∉ hostOps3_W) (h4 : r ∉ hostOps4_W)
    (h5 : r ∉ hostOps5_W) (h6 : r ∉ hostOps6_W) : W14 m c (Proc.devRef .tc r) = m ((c : Thread nD τ).loc r) :=
  (W14_keep m c r (ho 6)).trans <| (W13_of m c r h6).trans <| (W12_keep m c r (ho 5)).trans <| (W11_of m c r h5).trans <|
  (W10_keep m c r (ho 4)).trans <| (W9_of m c r h4).trans <| (W8_keep m c r (ho 3)).trans <| (W7_of m c r h3).trans <|
  (W6_keep m c r (ho 2)).trans <| (W5_of m c r h2).trans <| (W4_keep m c r (ho 1)).trans <| (W3_of m c r h1).trans <|
  (W2_keep m c r (ho 0)).trans <| (W1_of m c r h0).trans rfl

end Cert.Kernel.Hand

end
-- ==== Proof.K.Regs.lean ====
import proofs.«408502_j57071525429596_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => datR0 (E1 m)
  | ⟨1, _⟩ => datR1 (E3 m)
  | ⟨2, _⟩ => datR2 (E5 m)
  | ⟨3, _⟩ => datR3 (E7 m)
  | ⟨4, _⟩ => datR4 (E9 m)
  | ⟨5, _⟩ => datR5 (E11 m)
  | ⟨6, _⟩ => datR6 (E13 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region `p` as a segment from the thread state at `Wi` to the one at its exit contents, from the facts of its data. -/
def mkReg {p : Fin 7} (lf : Pipeline.LaunchFacts (nD := nD) (τ := τ) cfgs p) (Wi : Dev nD → Valuation τ sig (Elt F))
    (hb : ∀ c, BodyObligation (pdats m p c) (defs₀ (F := F)) 𝒱₀ () Set.univ)
    (hw : ∀ c t, (pdats m p c).owed t = 0) (hs : ∀ c w, (pdats m p c).share w = fullShare)
    (hR : ∀ c x, x ∈ (pdats m p c).recorded 0)
    (hA : ∀ c w, (pdats m p c).A w = Wi c (Pipeline.arrRef (cfgs p).spec w))
    (hI : ∀ c, Pipeline.ΦA (cfgs p).spec c ⊢ (pdats m p c).Φ 0)
    (hO : ∀ c, (pdats m p c).Φ (Fin.last _) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wi c) ∗ R c)
  post c := iprop(StableHlo.held (c : Thread nD τ) (Pipeline.ucRefs τ sig) (exitOf (pdats m p) Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    fun b => Wi c b
  hentry c := by
    rw [Pipeline.ownSems0_none]
    have hsplit := Pipeline.arrays_of_unscopedBufs (p := p) (pcfgs (F := F)) adm (pdats m) lf.win lf.arr_whole c
      (hs c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hw]
      icases HO with ⟨%W, HO⟩; iexists W; isplitr; · ipureintro; exact fun x _ => Or.inl (hR c x)
      iexact HO
    isplitl [Hp]; · iexact Hp
    iexact Hrest
  hin c := by
    have h := hI c
    unfold Pipeline.ΦA at h
    iintro ⟨Hp, -, Hr⟩
    iapply h
    isplitl [Hr]; · iexact Hr
    iexact Hp
  hout c := by
    rw [Pipeline.ownSems0_none]
    have h := hO c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hs c) (fun b => Wi c b) (fun b => exitOf (pdats m p) Wi c b) ((pdats m p c).arrAt · (cfgs p).N)
      (fun w => (exitOf_arr (pdats m p) Wi c lf.win.arr_inj w).symm) (exitOf_rest (pdats m p) Wi c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw]
    icases HO with ⟨%W, -, HO⟩; iexists W; iexact HO

def reg0 := mkReg m launch0 (W1 m) (body_obligationR0 (E1 m)) (datR0_owed0 (E1 m)) (datR0_share (E1 m))
  (fun _ _ => trivial) (datR0_A (E1 m)) (hinR0 (E1 m)) (houtR0 (E1 m))

def reg1 := mkReg m launch1 (W3 m) (body_obligationR1 (E3 m)) (datR1_owed0 (E3 m)) (datR1_share (E3 m))
  (fun _ _ => trivial) (datR1_A (E3 m)) (hinR1 (E3 m)) (houtR1 (E3 m))

def reg2 := mkReg m launch2 (W5 m) (body_obligationR2 (E5 m)) (datR2_owed0 (E5 m)) (datR2_share (E5 m))
  (fun _ _ => trivial) (datR2_A (E5 m)) (hinR2 (E5 m)) (houtR2 (E5 m))

def reg3 := mkReg m launch3 (W7 m) (body_obligationR3 (E7 m)) (datR3_owed0 (E7 m)) (datR3_share (E7 m))
  (fun _ _ => trivial) (datR3_A (E7 m)) (hinR3 (E7 m)) (houtR3 (E7 m))

def reg4 := mkReg m launch4 (W9 m) (body_obligationR4 (E9 m)) (datR4_owed0 (E9 m)) (datR4_share (E9 m))
  (fun _ _ => trivial) (datR4_A (E9 m)) (hinR4 (E9 m)) (houtR4 (E9 m))

def reg5 := mkReg m launch5 (W11 m) (body_obligationR5 (E11 m)) (datR5_owed0 (E11 m)) (datR5_share (E11 m))
  (fun _ _ => trivial) (datR5_A (E11 m)) (hinR5 (E11 m)) (houtR5 (E11 m))

def reg6 := mkReg m launch6 (W13 m) (body_obligationR6 (E13 m)) (datR6_owed0 (E13 m)) (datR6_share (E13 m))
  (fun _ _ => trivial) (datR6_A (E13 m)) (hinR6 (E13 m)) (houtR6 (E13 m))

end Cert.Kernel.Hand

end
-- ==== Proof.K.Run.lean ====
import proofs.«408502_j57071525429596_1_alg».proof.Proof.K.Regs
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m),
    .host (hseg hostOps5 hostOps5_sub hostOps5_fresh (W10 m)), .region (reg5 m),
    .host (hseg hostOps6 hostOps6_sub hostOps6_fresh (W12 m)), .region (reg6 m) ]

-- No region puts out, and no host stretch writes, an argument of @main.
theorem args_kept : List.Forall (fun r : Ref sig .tc => ¬ (Proc.devRef .tc r : DevRef τ sig).isScoped ∧ (∀ K : Fin 7, r ∉ outsOf K) ∧ r ∉ hostOps0_W
    ∧ r ∉ hostOps1_W ∧ r ∉ hostOps2_W ∧ r ∉ hostOps3_W ∧ r ∉ hostOps4_W ∧ r ∉ hostOps5_W ∧ r ∉ hostOps6_W)
    [main_arg0, main_arg1, main_arg2, main_arg3, main_arg4, main_arg5, main_arg6, main_arg7, main_arg8, main_arg9, main_arg10, main_arg11,
      main_arg12] := by decide

set_option backward.isDefEq.respectTransparency.types false in
theorem run : θ_run defs (onTc (τ := τ) (main (F := F))) ⟨m, fun _ => 0, ρ⟩ (fun r => ∀ c : Dev nD,
      r.2.mem ((c.tc : Thread nD τ).loc main_v142) = W14 m c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [show main (F := F) c = Pipeline.Seg.run (segs m) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl); iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W14 m c) ∗ ∃ r, prngReg c r))
    (hch := by repeat' first | exact fun _ => .rfl | exact fun _ => BI.sep_assoc' | apply And.intro)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all _ (fun b => ((c : Thread nD τ).1, b)) _ s')
      isplitl [Hh] <;> iassumption)
    (hQ := fun s h c => ⟨h c _ (mem_uc main_v142 (by decide)), args_kept.imp
      (q := fun r => s.mem ((c.tc : Thread nD τ).loc r) = m ((c.tc : Thread nD τ).loc r)) fun r ⟨hs, ho, h0, h1, h2, h3, h4, h5, h6⟩ =>
      (h c _ (mem_uc r hs)).trans (W14_launch m c r ho h0 h1 h2 h3 h4 h5 h6)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.Kernel.Hand

end
-- ==== Proof.KI.Mlp0.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR0 (i : grid0.Coords) : Prop := (Scalar.cmpi .ne (Scalar.extui (Scalar.cmpi .eq (BitVec.ofNat 32 (i 0).val) 0#32)) 0#32) = 1#1

theorem hcondR0 : ∀ t : Fin grid0.N, condR0 (grid0.coords t) ↔ t.val % 20 = 0 := by decide +kernel

theorem hzR0 : (![0, 0] : Fin 2 → Nat) = fun _ => 0 := funext fun a => by fin_cases a <;> rfl

/-- The newest write covers every index, so neither older writes nor prior contents are reached. -/
theorem read_writes_unitR0 {sg κ sp S e} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

section Kernel
variable (c : Dev nD) (E : Set ℕ) (i : grid0.Coords)
  (arg1 arg6 : Memref sig .tc .vmem S5000x128 .f32) (arg2 arg4 : Memref sig .tc .vmem S128x128 .f32)
  (arg3 arg5 arg7 arg8 : Memref sig .tc .vmem S1x128 .f32)
  (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (x0 : Vec F S5000x128 .f32) (x1 x3 : Vec F S128x128 .f32) (x2 x4 s6 s7 d6 d7 : Vec F S1x128 .f32)

/-- The five inputs at contents `x0 … x4`, named once; `R` is the rest of a frame. -/
def insR0 (R : sProp 𝕄) : sProp 𝕄 :=
  iprop(owns c.tc arg1 fullShare x0 ∗ owns c.tc arg2 fullShare x1 ∗ owns c.tc arg3 fullShare x2
    ∗ owns c.tc arg4 fullShare x3 ∗ owns c.tc arg5 fullShare x4 ∗ R)

set_option maxHeartbeats 1000000 in
/-- One triple for both values of the body's condition: `hA`, `hB` say which rows `s6`, `s7` the block's sums are added to. -/
theorem sound_kernelR0 (K : PUnit → sProp 𝕄) (hA : condR0 i → s6 = k0_pay2 ∧ s7 = k0_pay3) (hB : ¬condR0 i → d6 = s6 ∧ d7 = s7) :
    insR0 c arg1 arg2 arg4 arg3 arg5 x0 x1 x3 x2 x4 iprop((∃ d, owns c.tc arg6 fullShare d)
        ∗ owns c.tc arg7 fullShare d6 ∗ owns c.tc arg8 fullShare d7
        ∗ (insR0 c arg1 arg2 arg4 arg3 arg5 x0 x1 x3 x2 x4 iprop(owns c.tc arg6 fullShare (k0_pay4 x0 x1 x2 x3 x4)
            ∗ owns c.tc arg7 fullShare (k0_pay5 x0 x1 x2 x3 x4 s6)
            ∗ owns c.tc arg8 fullShare (k0_pay1 (k0_pay4 x0 x1 x2 x3 x4) s7)) -∗ K ⟨⟩))
      ⊢ wp frame (wpE (defs₀ (F := F)) Variants.none c none) E
          (cc0__mlp_stats_kernel i arg1 harg1 arg2 harg2 arg3 harg3 arg4 harg4 arg5 harg5 arg6 harg6 arg7 harg7 arg8 harg8) K := by
  simp only [cc0__mlp_stats_kernel_eq_skeleton]; unfold cc0__mlp_stats_kernel_skel
  simp only [k0_part1_eq_skeleton]
  unfold insR0 owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  by_cases h : condR0 i
  on_goal 1 => obtain ⟨rfl, rfl⟩ := hA h
  on_goal 2 => obtain ⟨rfl, rfl⟩ := hB h
  all_goals
    sl_exec (disch := first | exact h)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    all_goals
      iexists _; isplitr
      swap; · iassumption
      ipureintro
      first
      | with_reducible rfl
      | sl_unfold_words
        first
        | rw [read_writes_unitR0 (S := S5000x128) _ _ hzR0]
        | rw [read_writes_unitR0 (S := S1x128) _ _ hzR0]
        simp only [View.readAt_eq_ld, View.ld_unit_zero (S := S5000x128) hzR0, View.ld_unit_zero (S := S128x128) hzR0,
          View.ld_unit_zero (S := S1x128) hzR0, View.readCov_unit_zero (S := S1x128) _ hzR0]

end Kernel

section Region
variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point's contribution: the block's column sums and column sums of squares added to the rows `s6`, `s7`. -/
abbrev nextR0 (c : Dev nD) (t : Fin cfg0.N) (s6 s7 : Vec F S1x128 .f32) : Vec F S1x128 .f32 × Vec F S1x128 .f32 :=
  (k0_pay5 (iblkR0 V c 0 t) (iblkR0 V c 1 t) (iblkR0 V c 2 t) (iblkR0 V c 3 t) (iblkR0 V c 4 t) s6,
   k0_pay1 (k0_pay4 (iblkR0 V c 0 t) (iblkR0 V c 1 t) (iblkR0 V c 2 t) (iblkR0 V c 3 t) (iblkR0 V c 4 t)) s7)

/-- The running pair after position `n`: `nextR0` folded from the zero rows. -/
def accR0 (c : Dev nD) : (n : ℕ) → n < cfg0.N → Vec F S1x128 .f32 × Vec F S1x128 .f32
  | 0, h => nextR0 V c ⟨0, h⟩ k0_pay2 k0_pay3
  | n + 1, h => nextR0 V c ⟨n + 1, h⟩ (accR0 c n (Nat.lt_of_succ_lt h)).1 (accR0 c n (Nat.lt_of_succ_lt h)).2

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => k0_pay4 (iblkR0 V c 0 t) (iblkR0 V c 1 t) (iblkR0 V c 2 t) (iblkR0 V c 3 t) (iblkR0 V c 4 t)
    | ⟨6, _⟩ => (accR0 V c t.val t.isLt).1
    | ⟨7, _⟩ => (accR0 V c t.val t.isLt).2
  Φ _ := Pipeline.ΦA spec0 c
  q _ := fullShare
  owed _ := 0

theorem datR0_A (c : Dev nD) (w : Fin cfg0.W) : (datR0 V c).A w = V c (Pipeline.arrRef spec0 w) := rfl

theorem before_inR0 (c : Dev nD) (t : Fin cfg0.N) : (∀ d, (datR0 V c).before 0 t d = iblkR0 V c 0 t) ∧
    (∀ d, (datR0 V c).before 1 t d = iblkR0 V c 1 t) ∧ (∀ d, (datR0 V c).before 2 t d = iblkR0 V c 2 t) ∧
    (∀ d, (datR0 V c).before 3 t d = iblkR0 V c 3 t) ∧ ∀ d, (datR0 V c).before 4 t d = iblkR0 V c 4 t := by
  refine ⟨?_, ?_, ?_, ?_, ?_⟩ <;> exact fun d =>
    ((datR0 V c).before_in_eq_fetched _ rfl (fun _ => rfl) (fun _ _ _ => rfl) (fun _ => rfl) t d).trans rfl

/-- By cases on the position: at 0 the condition holds and the rows are zero; at `n + 1` it fails and the rows are the pair at `n`. -/
theorem rowsR0 (c : Dev nD) (t : Fin cfg0.N) : ∃ s6 s7, accR0 V c t.val t.isLt = nextR0 V c t s6 s7 ∧
    (condR0 (grid0.coords t) → s6 = k0_pay2 ∧ s7 = k0_pay3) ∧
    (¬condR0 (grid0.coords t) → ∀ d6 d7, (datR0 V c).before 6 t d6 = s6 ∧ (datR0 V c).before 7 t d7 = s7) := by
  have hN : cfg0.N = 20 := N_0
  obtain ⟨n, hn⟩ := t
  cases n with
  | zero => exact ⟨_, _, rfl, fun _ => ⟨rfl, rfl⟩, fun h => absurd ((hcondR0 ⟨0, hn⟩).mpr rfl) h⟩
  | succ n =>
    have h0 : ¬(n + 1) % 20 = 0 := by omega
    refine ⟨_, _, rfl, fun h => absurd ((hcondR0 ⟨n + 1, hn⟩).mp h) h0, fun _ d6 d7 => ⟨?_, ?_⟩⟩ <;>
      exact Dat.before_out_kept _ _ rfl ⟨n + 1, hn⟩ (Nat.succ_ne_zero n) (Bool.eq_false_iff.mpr fun h => by
        first | have := (flush0_6 _).mp h | have := (flush0_7 _).mp h
        dsimp only at this; omega) (fun _ => rfl) (fun _ _ => rfl) _

set_option maxHeartbeats 800000 in
/-- The kernel's triple at the point's blocks, with the rows `rowsR0` names. -/
theorem sound_bodyR0 (c : Dev nD) (t : Fin cfg0.N) :
    iprop((datR0 V c).Φ t.castSucc ∗ (datR0 V c).owesAt () t.castSucc ∗ bigSep Finset.univ fun w : Fin cfg0.W =>
      iprop(∃ d, owns c.tc ((cfg0.win w).stage (cfg0.slots t w)) fullShare ((datR0 V c).before w t d)))
    ⊢ wp frame (wpE (defs₀ (F := F)) Variants.none c none) Set.univ (bodyAt0 t) fun _ =>
      iprop((datR0 V c).Φ t.castSucc ∗ (datR0 V c).owesAt () t.castSucc
        ∗ insR0 c (st0_0 t) (st0_1 t) (st0_3 t) (st0_2 t) (st0_4 t) (iblkR0 V c 0 t) (iblkR0 V c 1 t) (iblkR0 V c 3 t) (iblkR0 V c 2 t) (iblkR0 V c 4 t)
          iprop(owns c.tc (st0_5 t) fullShare (k0_pay4 (iblkR0 V c 0 t) (iblkR0 V c 1 t) (iblkR0 V c 2 t) (iblkR0 V c 3 t) (iblkR0 V c 4 t))
            ∗ owns c.tc (st0_6 t) fullShare (accR0 V c t.val t.isLt).1
            ∗ owns c.tc (st0_7 t) fullShare (accR0 V c t.val t.isLt).2)) := by
  obtain ⟨s6, s7, hs, hA, hB⟩ := rowsR0 V c t
  unfold bodyAt0
  rw [bigSep_W0]
  obtain ⟨b0, b1, b2, b3, b4⟩ := before_inR0 V c t
  simp only [b0, b1, b2, b3, b4]
  rw [hs]; dsimp only [nextR0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernelR0 c Set.univ (grid0.coords t) _ _ _ _ _ _ _ _ _ _ _ _ _ _ _ _ _ _ _ _ _ s6 s7 _ _ _
    hA fun h => hB h d6 d7)
  unfold insR0
  iframe H0 H1 H2 H3 H4 H6 H7
  isplitl [H5]; · iexists _; iexact H5
  iintro Hp
  iframe

theorem body_obligationR0 (c : Dev nD) : BodyObligation (datR0 (F := F) V c) (defs₀ (F := F)) Variants.none () Set.univ := fun t => by
  have h := sound_bodyR0 V c t
  rw [bigSep_W0] at h ⊢
  rw [bigSep_W0]
  exact h

end Region

end Cert.KernelIdeal.Hand

end
-- ==== Proof.KI.Bn1.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblkR1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rblkR1 : Rect S5000x128 := Rect.unit ![0, 0] S5000x128.size inb_S5000x128_S5000x128_0_0

abbrev rrowR1 : Rect S1x128 := Rect.unit ![0, 0] S1x128.size inb_S1x128_S1x128_0_0

theorem offR1 : (![0, 0] : Fin 2 → Nat) = fun _ => 0 := by decide

variable (x0 : Vec F S5000x128 .f32) (x1 x2 x3 x4 : Vec F S1x128 .f32)

-- What the body leaves in the output window's buffer: the payload of the five input buffers' contents.
def outR1 : Vec F S5000x128 .f32 := k1_pay1 x0 x1 x2 x3 x4

-- One store through the whole block leaves its payload, and a load through a whole buffer reads its contents.
theorem outR1_eq :
    (View.canon [⟨rblkR1, k1_pay1 (View.ld x0 rblkR1) (View.ld x1 rrowR1) (View.ld x2 rrowR1) (View.ld x3 rrowR1) (View.ld x4 rrowR1)⟩] : Vec F S5000x128 .f32) =
      k1_pay1 x0 x1 x2 x3 x4 := by
  rw [View.canon_unit_zero offR1]
  simp only [View.ld_unit_zero (S := S5000x128) offR1, View.ld_unit_zero (S := S1x128) offR1]

def datR1 : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => outR1 (iblkR1 V c 0 t) (iblkR1 V c 1 t) (iblkR1 V c 2 t) (iblkR1 V c 3 t) (iblkR1 V c 4 t)
  Φ _ := Pipeline.ΦA spec1 c
  q _ := fullShare
  owed _ := 0

theorem datR1_A (w : Fin cfg1.W) : (datR1 V c).A w = V c (Pipeline.arrRef spec1 w) := rfl

theorem datR1_after5 (t : Fin cfg1.N) :
    (datR1 V c).after 5 t = k1_pay1 (iblkR1 V c 0 t) (iblkR1 V c 1 t) (iblkR1 V c 2 t) (iblkR1 V c 3 t) (iblkR1 V c 4 t) := by
  dsimp only [datR1, outR1]

-- Every window but the output's is an input whose block the body leaves in place.
theorem beforeR1 : ∀ w : Fin cfg1.W, w ≠ 5 → ∀ t d, (datR1 V c).before w t d = (datR1 V c).after w t
  | ⟨5, _⟩, h, _, _ => absurd rfl h
  | ⟨0, _⟩, _, t, d | ⟨1, _⟩, _, t, d | ⟨2, _⟩, _, t, d | ⟨3, _⟩, _, t, d | ⟨4, _⟩, _, t, d =>
    ((datR1 V c).before_in_eq_fetched _ rfl (fun _ => rfl) (fun _ _ _ => rfl) (fun _ => rfl) t d).trans rfl

-- The body's triple at point t in the shape of the library's body obligation, over any contents x0 … x4 of the input buffers and any frame R, S.
theorem sound_kernelR1 (t : Fin cfg1.N) (R S : sProp 𝕄) :
    iprop(R ∗ S ∗ (∃ d : Vec F S5000x128 .f32, owns c (st1_0 t) fullShare x0)
        ∗ (∃ d : Vec F S1x128 .f32, owns c (st1_1 t) fullShare x1)
        ∗ (∃ d : Vec F S1x128 .f32, owns c (st1_2 t) fullShare x2)
        ∗ (∃ d : Vec F S1x128 .f32, owns c (st1_3 t) fullShare x3)
        ∗ (∃ d : Vec F S1x128 .f32, owns c (st1_4 t) fullShare x4)
        ∗ (∃ d, owns c (st1_5 t) fullShare ((datR1 V c).before 5 t d)))
      ⊢ wp frame (wpE (defs₀ (F := F)) Variants.none c none) Set.univ (bodyAt1 t) fun _ =>
          iprop(R ∗ S ∗ owns c (st1_0 t) fullShare x0 ∗ owns c (st1_1 t) fullShare x1
            ∗ owns c (st1_2 t) fullShare x2 ∗ owns c (st1_3 t) fullShare x3
            ∗ owns c (st1_4 t) fullShare x4 ∗ owns c (st1_5 t) fullShare (k1_pay1 x0 x1 x2 x3 x4)) := by
  unfold bodyAt1; simp only [cc1__bn_kernel_eq_skeleton]; unfold cc1__bn_kernel_skel
  unfold owns
  iintro ⟨HR, HS, ⟨%e0, %f0, %hf0, H0⟩, ⟨%e1, %f1, %hf1, H1⟩, ⟨%e2, %f2, %hf2, H2⟩, ⟨%e3, %f3, %hf3, H3⟩, ⟨%e4, %f4, %hf4, H4⟩, ⟨%d5, %f5, -, H5⟩⟩
  subst hf0 hf1 hf2 hf3 hf4
  sl_exec
  sl_step
  iframe HR HS
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact Eq.trans (View.read_writes_eq_canon _ _ _ fun y => ⟨_, List.mem_singleton_self _, View.mem_set_unit_zero offR1 inb_S5000x128_S5000x128_0_0 y⟩)
    (outR1_eq _ _ _ _ _)

theorem body_obligationR1 : BodyObligation (datR1 (F := F) V c) (defs₀ (F := F)) Variants.none () Set.univ := fun t => by
  rw [bigSep_W1, bigSep_W1]
  simp +decide only [beforeR1 V c]
  rw [datR1_after5]
  sl_whnfR [defs₀, Defs.onTc]
  exact sound_kernelR1 V c _ _ _ _ _ t _ _

end Cert.KernelIdeal.Hand

end
-- ==== Proof.KI.Mlp2.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR2 (i : grid2.Coords) : Prop := (Scalar.cmpi .ne (Scalar.extui (Scalar.cmpi .eq (BitVec.ofNat 32 (i 0).val) 0#32)) 0#32) = 1#1

theorem hcondR2 : ∀ t : Fin grid2.N, condR2 (grid2.coords t) ↔ t.val % 20 = 0 := by decide +kernel

theorem hzR2 : (![0, 0] : Fin 2 → Nat) = fun _ => 0 := funext fun a => by fin_cases a <;> rfl

/-- The newest write covers every index, so neither older writes nor prior contents are reached. -/
theorem read_writes_unitR2 {sg κ sp S e} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

section Kernel
variable (c : Dev nD) (E : Set ℕ) (i : grid2.Coords)
  (arg1 arg6 : Memref sig .tc .vmem S5000x128 .f32) (arg2 arg4 : Memref sig .tc .vmem S128x128 .f32)
  (arg3 arg5 arg7 arg8 : Memref sig .tc .vmem S1x128 .f32)
  (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (x0 : Vec F S5000x128 .f32) (x1 x3 : Vec F S128x128 .f32) (x2 x4 s6 s7 d6 d7 : Vec F S1x128 .f32)

/-- The five inputs at contents `x0 … x4`, named once; `R` is the rest of a frame. -/
def insR2 (R : sProp 𝕄) : sProp 𝕄 :=
  iprop(owns c.tc arg1 fullShare x0 ∗ owns c.tc arg2 fullShare x1 ∗ owns c.tc arg3 fullShare x2
    ∗ owns c.tc arg4 fullShare x3 ∗ owns c.tc arg5 fullShare x4 ∗ R)

set_option maxHeartbeats 1000000 in
/-- One triple for both values of the body's condition: `hA`, `hB` say which rows `s6`, `s7` the block's sums are added to. -/
theorem sound_kernelR2 (K : PUnit → sProp 𝕄) (hA : condR2 i → s6 = k2_pay2 ∧ s7 = k2_pay3) (hB : ¬condR2 i → d6 = s6 ∧ d7 = s7) :
    insR2 c arg1 arg2 arg4 arg3 arg5 x0 x1 x3 x2 x4 iprop((∃ d, owns c.tc arg6 fullShare d)
        ∗ owns c.tc arg7 fullShare d6 ∗ owns c.tc arg8 fullShare d7
        ∗ (insR2 c arg1 arg2 arg4 arg3 arg5 x0 x1 x3 x2 x4 iprop(owns c.tc arg6 fullShare (k2_pay4 x0 x1 x2 x3 x4)
            ∗ owns c.tc arg7 fullShare (k2_pay5 x0 x1 x2 x3 x4 s6)
            ∗ owns c.tc arg8 fullShare (k2_pay1 (k2_pay4 x0 x1 x2 x3 x4) s7)) -∗ K ⟨⟩))
      ⊢ wp frame (wpE (defs₀ (F := F)) Variants.none c none) E
          (cc2__mlp_stats_kernel i arg1 harg1 arg2 harg2 arg3 harg3 arg4 harg4 arg5 harg5 arg6 harg6 arg7 harg7 arg8 harg8) K := by
  simp only [cc2__mlp_stats_kernel_eq_skeleton]; unfold cc2__mlp_stats_kernel_skel
  simp only [k2_part1_eq_skeleton]
  unfold insR2 owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  by_cases h : condR2 i
  on_goal 1 => obtain ⟨rfl, rfl⟩ := hA h
  on_goal 2 => obtain ⟨rfl, rfl⟩ := hB h
  all_goals
    sl_exec (disch := first | exact h)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    all_goals
      iexists _; isplitr
      swap; · iassumption
      ipureintro
      first
      | with_reducible rfl
      | sl_unfold_words
        first
        | rw [read_writes_unitR2 (S := S5000x128) _ _ hzR2]
        | rw [read_writes_unitR2 (S := S1x128) _ _ hzR2]
        simp only [View.readAt_eq_ld, View.ld_unit_zero (S := S5000x128) hzR2, View.ld_unit_zero (S := S128x128) hzR2,
          View.ld_unit_zero (S := S1x128) hzR2, View.readCov_unit_zero (S := S1x128) _ hzR2]

end Kernel

section Region
variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One grid point's contribution: the block's column sums and column sums of squares added to the rows `s6`, `s7`. -/
abbrev nextR2 (c : Dev nD) (t : Fin cfg2.N) (s6 s7 : Vec F S1x128 .f32) : Vec F S1x128 .f32 × Vec F S1x128 .f32 :=
  (k2_pay5 (iblkR2 V c 0 t) (iblkR2 V c 1 t) (iblkR2 V c 2 t) (iblkR2 V c 3 t) (iblkR2 V c 4 t) s6,
   k2_pay1 (k2_pay4 (iblkR2 V c 0 t) (iblkR2 V c 1 t) (iblkR2 V c 2 t) (iblkR2 V c 3 t) (iblkR2 V c 4 t)) s7)

/-- The running pair after position `n`: `nextR2` folded from the zero rows. -/
def accR2 (c : Dev nD) : (n : ℕ) → n < cfg2.N → Vec F S1x128 .f32 × Vec F S1x128 .f32
  | 0, h => nextR2 V c ⟨0, h⟩ k2_pay2 k2_pay3
  | n + 1, h => nextR2 V c ⟨n + 1, h⟩ (accR2 c n (Nat.lt_of_succ_lt h)).1 (accR2 c n (Nat.lt_of_succ_lt h)).2

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => iblkR2 V c 4 t
    | ⟨5, _⟩ => k2_pay4 (iblkR2 V c 0 t) (iblkR2 V c 1 t) (iblkR2 V c 2 t) (iblkR2 V c 3 t) (iblkR2 V c 4 t)
    | ⟨6, _⟩ => (accR2 V c t.val t.isLt).1
    | ⟨7, _⟩ => (accR2 V c t.val t.isLt).2
  Φ _ := Pipeline.ΦA spec2 c
  q _ := fullShare
  owed _ := 0

theorem datR2_A (c : Dev nD) (w : Fin cfg2.W) : (datR2 V c).A w = V c (Pipeline.arrRef spec2 w) := rfl

theorem before_inR2 (c : Dev nD) (t : Fin cfg2.N) : (∀ d, (datR2 V c).before 0 t d = iblkR2 V c 0 t) ∧
    (∀ d, (datR2 V c).before 1 t d = iblkR2 V c 1 t) ∧ (∀ d, (datR2 V c).before 2 t d = iblkR2 V c 2 t) ∧
    (∀ d, (datR2 V c).before 3 t d = iblkR2 V c 3 t) ∧ ∀ d, (datR2 V c).before 4 t d = iblkR2 V c 4 t := by
  refine ⟨?_, ?_, ?_, ?_, ?_⟩ <;> exact fun d =>
    ((datR2 V c).before_in_eq_fetched _ rfl (fun _ => rfl) (fun _ _ _ => rfl) (fun _ => rfl) t d).trans rfl

/-- By cases on the position: at 0 the condition holds and the rows are zero; at `n + 1` it fails and the rows are the pair at `n`. -/
theorem rowsR2 (c : Dev nD) (t : Fin cfg2.N) : ∃ s6 s7, accR2 V c t.val t.isLt = nextR2 V c t s6 s7 ∧
    (condR2 (grid2.coords t) → s6 = k2_pay2 ∧ s7 = k2_pay3) ∧
    (¬condR2 (grid2.coords t) → ∀ d6 d7, (datR2 V c).before 6 t d6 = s6 ∧ (datR2 V c).before 7 t d7 = s7) := by
  have hN : cfg2.N = 20 := N_2
  obtain ⟨n, hn⟩ := t
  cases n with
  | zero => exact ⟨_, _, rfl, fun _ => ⟨rfl, rfl⟩, fun h => absurd ((hcondR2 ⟨0, hn⟩).mpr rfl) h⟩
  | succ n =>
    have h0 : ¬(n + 1) % 20 = 0 := by omega
    refine ⟨_, _, rfl, fun h => absurd ((hcondR2 ⟨n + 1, hn⟩).mp h) h0, fun _ d6 d7 => ⟨?_, ?_⟩⟩ <;>
      exact Dat.before_out_kept _ _ rfl ⟨n + 1, hn⟩ (Nat.succ_ne_zero n) (Bool.eq_false_iff.mpr fun h => by
        first | have := (flush2_6 _).mp h | have := (flush2_7 _).mp h
        dsimp only at this; omega) (fun _ => rfl) (fun _ _ => rfl) _

set_option maxHeartbeats 800000 in
/-- The kernel's triple at the point's blocks, with the rows `rowsR2` names. -/
theorem sound_bodyR2 (c : Dev nD) (t : Fin cfg2.N) :
    iprop((datR2 V c).Φ t.castSucc ∗ (datR2 V c).owesAt () t.castSucc ∗ bigSep Finset.univ fun w : Fin cfg2.W =>
      iprop(∃ d, owns c.tc ((cfg2.win w).stage (cfg2.slots t w)) fullShare ((datR2 V c).before w t d)))
    ⊢ wp frame (wpE (defs₀ (F := F)) Variants.none c none) Set.univ (bodyAt2 t) fun _ =>
      iprop((datR2 V c).Φ t.castSucc ∗ (datR2 V c).owesAt () t.castSucc
        ∗ insR2 c (st2_0 t) (st2_1 t) (st2_3 t) (st2_2 t) (st2_4 t) (iblkR2 V c 0 t) (iblkR2 V c 1 t) (iblkR2 V c 3 t) (iblkR2 V c 2 t) (iblkR2 V c 4 t)
          iprop(owns c.tc (st2_5 t) fullShare (k2_pay4 (iblkR2 V c 0 t) (iblkR2 V c 1 t) (iblkR2 V c 2 t) (iblkR2 V c 3 t) (iblkR2 V c 4 t))
            ∗ owns c.tc (st2_6 t) fullShare (accR2 V c t.val t.isLt).1
            ∗ owns c.tc (st2_7 t) fullShare (accR2 V c t.val t.isLt).2)) := by
  obtain ⟨s6, s7, hs, hA, hB⟩ := rowsR2 V c t
  unfold bodyAt2
  rw [bigSep_W2]
  obtain ⟨b0, b1, b2, b3, b4⟩ := before_inR2 V c t
  simp only [b0, b1, b2, b3, b4]
  rw [hs]; dsimp only [nextR2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernelR2 c Set.univ (grid2.coords t) _ _ _ _ _ _ _ _ _ _ _ _ _ _ _ _ _ _ _ _ _ s6 s7 _ _ _
    hA fun h => hB h d6 d7)
  unfold insR2
  iframe H0 H1 H2 H3 H4 H6 H7
  isplitl [H5]; · iexists _; iexact H5
  iintro Hp
  iframe

theorem body_obligationR2 (c : Dev nD) : BodyObligation (datR2 (F := F) V c) (defs₀ (F := F)) Variants.none () Set.univ := fun t => by
  have h := sound_bodyR2 V c t
  rw [bigSep_W2] at h ⊢
  rw [bigSep_W2]
  exact h

end Region

end Cert.KernelIdeal.Hand

end
-- ==== Proof.KI.Bn3.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblkR3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rblkR3 : Rect S5000x128 := Rect.unit ![0, 0] S5000x128.size inb_S5000x128_S5000x128_0_0

abbrev rrowR3 : Rect S1x128 := Rect.unit ![0, 0] S1x128.size inb_S1x128_S1x128_0_0

theorem offR3 : (![0, 0] : Fin 2 → Nat) = fun _ => 0 := by decide

variable (x0 : Vec F S5000x128 .f32) (x1 x2 x3 x4 : Vec F S1x128 .f32)

-- What the body leaves in the output window's buffer: the payload of the five input buffers' contents.
def outR3 : Vec F S5000x128 .f32 := k3_pay1 x0 x1 x2 x3 x4

-- One store through the whole block leaves its payload, and a load through a whole buffer reads its contents.
theorem outR3_eq :
    (View.canon [⟨rblkR3, k3_pay1 (View.ld x0 rblkR3) (View.ld x1 rrowR3) (View.ld x2 rrowR3) (View.ld x3 rrowR3) (View.ld x4 rrowR3)⟩] : Vec F S5000x128 .f32) =
      k3_pay1 x0 x1 x2 x3 x4 := by
  rw [View.canon_unit_zero offR3]
  simp only [View.ld_unit_zero (S := S5000x128) offR3, View.ld_unit_zero (S := S1x128) offR3]

def datR3 : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => iblkR3 V c 3 t
    | ⟨4, _⟩ => iblkR3 V c 4 t
    | ⟨5, _⟩ => outR3 (iblkR3 V c 0 t) (iblkR3 V c 1 t) (iblkR3 V c 2 t) (iblkR3 V c 3 t) (iblkR3 V c 4 t)
  Φ _ := Pipeline.ΦA spec3 c
  q _ := fullShare
  owed _ := 0

theorem datR3_A (w : Fin cfg3.W) : (datR3 V c).A w = V c (Pipeline.arrRef spec3 w) := rfl

theorem datR3_after5 (t : Fin cfg3.N) :
    (datR3 V c).after 5 t = k3_pay1 (iblkR3 V c 0 t) (iblkR3 V c 1 t) (iblkR3 V c 2 t) (iblkR3 V c 3 t) (iblkR3 V c 4 t) := by
  dsimp only [datR3, outR3]

-- Every window but the output's is an input whose block the body leaves in place.
theorem beforeR3 : ∀ w : Fin cfg3.W, w ≠ 5 → ∀ t d, (datR3 V c).before w t d = (datR3 V c).after w t
  | ⟨5, _⟩, h, _, _ => absurd rfl h
  | ⟨0, _⟩, _, t, d | ⟨1, _⟩, _, t, d | ⟨2, _⟩, _, t, d | ⟨3, _⟩, _, t, d | ⟨4, _⟩, _, t, d =>
    ((datR3 V c).before_in_eq_fetched _ rfl (fun _ => rfl) (fun _ _ _ => rfl) (fun _ => rfl) t d).trans rfl

-- The body's triple at point t in the shape of the library's body obligation, over any contents x0 … x4 of the input buffers and any frame R, S.
theorem sound_kernelR3 (t : Fin cfg3.N) (R S : sProp 𝕄) :
    iprop(R ∗ S ∗ (∃ d : Vec F S5000x128 .f32, owns c (st3_0 t) fullShare x0)
        ∗ (∃ d : Vec F S1x128 .f32, owns c (st3_1 t) fullShare x1)
        ∗ (∃ d : Vec F S1x128 .f32, owns c (st3_2 t) fullShare x2)
        ∗ (∃ d : Vec F S1x128 .f32, owns c (st3_3 t) fullShare x3)
        ∗ (∃ d : Vec F S1x128 .f32, owns c (st3_4 t) fullShare x4)
        ∗ (∃ d, owns c (st3_5 t) fullShare ((datR3 V c).before 5 t d)))
      ⊢ wp frame (wpE (defs₀ (F := F)) Variants.none c none) Set.univ (bodyAt3 t) fun _ =>
          iprop(R ∗ S ∗ owns c (st3_0 t) fullShare x0 ∗ owns c (st3_1 t) fullShare x1
            ∗ owns c (st3_2 t) fullShare x2 ∗ owns c (st3_3 t) fullShare x3
            ∗ owns c (st3_4 t) fullShare x4 ∗ owns c (st3_5 t) fullShare (k3_pay1 x0 x1 x2 x3 x4)) := by
  unfold bodyAt3; simp only [cc3__bn_kernel_eq_skeleton]; unfold cc3__bn_kernel_skel
  unfold owns
  iintro ⟨HR, HS, ⟨%e0, %f0, %hf0, H0⟩, ⟨%e1, %f1, %hf1, H1⟩, ⟨%e2, %f2, %hf2, H2⟩, ⟨%e3, %f3, %hf3, H3⟩, ⟨%e4, %f4, %hf4, H4⟩, ⟨%d5, %f5, -, H5⟩⟩
  subst hf0 hf1 hf2 hf3 hf4
  sl_exec
  sl_step
  iframe HR HS
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact Eq.trans (View.read_writes_eq_canon _ _ _ fun y => ⟨_, List.mem_singleton_self _, View.mem_set_unit_zero offR3 inb_S5000x128_S5000x128_0_0 y⟩)
    (outR3_eq _ _ _ _ _)

theorem body_obligationR3 : BodyObligation (datR3 (F := F) V c) (defs₀ (F := F)) Variants.none () Set.univ := fun t => by
  rw [bigSep_W3, bigSep_W3]
  simp +decide only [beforeR3 V c]
  rw [datR3_after5]
  sl_whnfR [defs₀, Defs.onTc]
  exact sound_kernelR3 V c _ _ _ _ _ t _ _

end Cert.KernelIdeal.Hand

end
-- ==== Proof.KI.Mlp4.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR4 (i : grid4.Coords) : Prop := (Scalar.cmpi .ne (Scalar.extui (Scalar.cmpi .eq (BitVec.ofNat 32 (i 0).val) 0#32)) 0#32) = 1#1

theorem hcondR4 : ∀ t : Fin grid4.N, condR4 (grid4.coords t) ↔ t.val % 20 = 0 := by decide +kernel

theorem hzR4 : (![0, 0] : Fin 2 → Nat) = fun _ => 0 := funext fun a => by fin_cases a <;> rfl

/-- The newest write covers every index, so neither older writes nor prior contents are reached. -/
theorem read_writes_unitR4 {sg κ sp S e} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

section Kernel
variable (c : Dev nD) (E : Set ℕ) (i : grid4.Coords)
  (arg1 arg6 : Memref sig .tc .vmem S5000x128 .f32) (arg2 arg4 : Memref sig .tc .vmem S128x128 .f32)
  (arg3 arg5 arg7 arg8 : Memref sig .tc .vmem S1x128 .f32)
  (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (x0 : Vec F S5000x128 .f32) (x1 x3 : Vec F S128x128 .f32) (x2 x4 s6 s7 d6 d7 : Vec F S1x128 .f32)

/-- The five inputs at contents `x0 … x4`, named once; `R` is the rest of a frame. -/
def insR4 (R : sProp 𝕄) : sProp 𝕄 :=
  iprop(owns c.tc arg1 fullShare x0 ∗ owns c.tc arg2 fullShare x1 ∗ owns c.tc arg3 fullShare x2
    ∗ owns c.tc arg4 fullShare x3 ∗ owns c.tc arg5 fullShare x4 ∗ R)

set_option maxHeartbeats 1000000 in
/-- One triple for both values of the body's condition: `hA`, `hB` say which rows `s6`, `s7` the block's sums are added to. -/
theorem sound_kernelR4 (K : PUnit → sProp 𝕄) (hA : condR4 i → s6 = k4_pay2 ∧ s7 = k4_pay3) (hB : ¬condR4 i → d6 = s6 ∧ d7 = s7) :
    insR4 c arg1 arg2 arg4 arg3 arg5 x0 x1 x3 x2 x4 iprop((∃ d, owns c.tc arg6 fullShare d)
        ∗ owns c.tc arg7 fullShare d6 ∗ owns c.tc arg8 fullShare d7
        ∗ (insR4 c arg1 arg2 arg4 arg3 arg5 x0 x1 x3 x2 x4 iprop(owns c.tc arg6 fullShare (k4_pay4 x0 x1 x2 x3 x4)
            ∗ owns c.tc arg7 fullShare (k4_pay5 x0 x1 x2 x3 x4 s6)
            ∗ owns c.tc arg8 fullShare (k4_pay1 (k4_pay4 x0 x1 x2 x3 x4) s7)) -∗ K ⟨⟩))
      ⊢ wp frame (wpE (defs₀ (F := F)) Variants.none c none) E
          (cc4__mlp_stats_kernel i arg1 harg1 arg2 harg2 arg3 harg3 arg4 harg4 arg5 harg5 arg6 harg6 arg7 harg7 arg8 harg8) K := by
  simp only [cc4__mlp_stats_kernel_eq_skeleton]; unfold cc4__mlp_stats_kernel_skel
  simp only [k4_part1_eq_skeleton]
  unfold insR4 owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  by_cases h : condR4 i
  on_goal 1 => obtain ⟨rfl, rfl⟩ := hA h
  on_goal 2 => obtain ⟨rfl, rfl⟩ := hB h
  all_goals
    sl_exec (disch := first | exact h)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    all_goals
      iexists _; isplitr
      swap; · iassumption
      ipureintro
      first
      | with_reducible rfl
      | sl_unfold_words
        first
        | rw [read_writes_unitR4 (S := S5000x128) _ _ hzR4]
        | rw [read_writes_unitR4 (S := S1x128) _ _ hzR4]
        simp only [View.readAt_eq_ld, View.ld_unit_zero (S := S5000x128) hzR4, View.ld_unit_zero (S := S128x128) hzR4,
          View.ld_unit_zero (S := S1x128) hzR4, View.readCov_unit_zero (S := S1x128) _ hzR4]

end Kernel

section Region
variable (V : (c : Dev nD) → (b : Ref sig .tc) → Buf (Elt F) ((c : Thread nD τ).loc b))

def iblkR4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- One grid point's contribution: the block's column sums and column sums of squares added to the rows `s6`, `s7`. -/
abbrev nextR4 (c : Dev nD) (t : Fin cfg4.N) (s6 s7 : Vec F S1x128 .f32) : Vec F S1x128 .f32 × Vec F S1x128 .f32 :=
  (k4_pay5 (iblkR4 V c 0 t) (iblkR4 V c 1 t) (iblkR4 V c 2 t) (iblkR4 V c 3 t) (iblkR4 V c 4 t) s6,
   k4_pay1 (k4_pay4 (iblkR4 V c 0 t) (iblkR4 V c 1 t) (iblkR4 V c 2 t) (iblkR4 V c 3 t) (iblkR4 V c 4 t)) s7)

/-- The running pair after position `n`: `nextR4` folded from the zero rows. -/
def accR4 (c : Dev nD) : (n : ℕ) → n < cfg4.N → Vec F S1x128 .f32 × Vec F S1x128 .f32
  | 0, h => nextR4 V c ⟨0, h⟩ k4_pay2 k4_pay3
  | n + 1, h => nextR4 V c ⟨n + 1, h⟩ (accR4 c n (Nat.lt_of_succ_lt h)).1 (accR4 c n (Nat.lt_of_succ_lt h)).2

def datR4 (c : Dev nD) : Dat τ (Elt F) Unit ℕ (UR sig nD τ) ℕ cfg4 c where
  A w := V c (Pipeline.arrRef spec4 w)
  after w t := match w with
    | ⟨0, _⟩ => iblkR4 V c 0 t
    | ⟨1, _⟩ => iblkR4 V c 1 t
    | ⟨2, _⟩ => iblkR4 V c 2 t
    | ⟨3, _⟩ => iblkR4 V c 3 t
    | ⟨4, _⟩ => iblkR4 V c 4 t
    | ⟨5, _⟩ => k4_pay4 (iblkR4 V c 0 t) (iblkR4 V c 1 t) (iblkR4 V c 2 t) (iblkR4 V c 3 t) (iblkR4 V c 4 t)
    | ⟨6, _⟩ => (accR4 V c t.val t.isLt).1
    | ⟨7, _⟩ => (accR4 V c t.val t.isLt).2
  Φ _ := Pipeline.ΦA spec4 c
  q _ := fullShare
  owed _ := 0

theorem datR4_A (c : Dev nD) (w : Fin cfg4.W) : (datR4 V c).A w = V c (Pipeline.arrRef spec4 w) := rfl

theorem before_inR4 (c : Dev nD) (t : Fin cfg4.N) : (∀ d, (datR4 V c).before 0 t d = iblkR4 V c 0 t) ∧
    (∀ d, (datR4 V c).before 1 t d = iblkR4 V c 1 t) ∧ (∀ d, (datR4 V c).before 2 t d = iblkR4 V c 2 t) ∧
    (∀ d, (datR4 V c).before 3 t d = iblkR4 V c 3 t) ∧ ∀ d, (datR4 V c).before 4 t d = iblkR4 V c 4 t := by
  refine ⟨?_, ?_, ?_, ?_, ?_⟩ <;> exact fun d =>
    ((datR4 V c).before_in_eq_fetched _ rfl (fun _ => rfl) (fun _ _ _ => rfl) (fun _ => rfl) t d).trans rfl

/-- By cases on the position: at 0 the condition holds and the rows are zero; at `n + 1` it fails and the rows are the pair at `n`. -/
theorem rowsR4 (c : Dev nD) (t : Fin cfg4.N) : ∃ s6 s7, accR4 V c t.val t.isLt = nextR4 V c t s6 s7 ∧
    (condR4 (grid4.coords t) → s6 = k4_pay2 ∧ s7 = k4_pay3) ∧
    (¬condR4 (grid4.coords t) → ∀ d6 d7, (datR4 V c).before 6 t d6 = s6 ∧ (datR4 V c).before 7 t d7 = s7) := by
  have hN : cfg4.N = 20 := N_4
  obtain ⟨n, hn⟩ := t
  cases n with
  | zero => exact ⟨_, _, rfl, fun _ => ⟨rfl, rfl⟩, fun h => absurd ((hcondR4 ⟨0, hn⟩).mpr rfl) h⟩
  | succ n =>
    have h0 : ¬(n + 1) % 20 = 0 := by omega
    refine ⟨_, _, rfl, fun h => absurd ((hcondR4 ⟨n + 1, hn⟩).mp h) h0, fun _ d6 d7 => ⟨?_, ?_⟩⟩ <;>
      exact Dat.before_out_kept _ _ rfl ⟨n + 1, hn⟩ (Nat.succ_ne_zero n) (Bool.eq_false_iff.mpr fun h => by
        first | have := (flush4_6 _).mp h | have := (flush4_7 _).mp h
        dsimp only at this; omega) (fun _ => rfl) (fun _ _ => rfl) _

set_option maxHeartbeats 800000 in
/-- The kernel's triple at the point's blocks, with the rows `rowsR4` names. -/
theorem sound_bodyR4 (c : Dev nD) (t : Fin cfg4.N) :
    iprop((datR4 V c).Φ t.castSucc ∗ (datR4 V c).owesAt () t.castSucc ∗ bigSep Finset.univ fun w : Fin cfg4.W =>
      iprop(∃ d, owns c.tc ((cfg4.win w).stage (cfg4.slots t w)) fullShare ((datR4 V c).before w t d)))
    ⊢ wp frame (wpE (defs₀ (F := F)) Variants.none c none) Set.univ (bodyAt4 t) fun _ =>
      iprop((datR4 V c).Φ t.castSucc ∗ (datR4 V c).owesAt () t.castSucc
        ∗ insR4 c (st4_0 t) (st4_1 t) (st4_3 t) (st4_2 t) (st4_4 t) (iblkR4 V c 0 t) (iblkR4 V c 1 t) (iblkR4 V c 3 t) (iblkR4 V c 2 t) (iblkR4 V c 4 t)
          iprop(owns c.tc (st4_5 t) fullShare (k4_pay4 (iblkR4 V c 0 t) (iblkR4 V c 1 t) (iblkR4 V c 2 t) (iblkR4 V c 3 t) (iblkR4 V c 4 t))
            ∗ owns c.tc (st4_6 t) fullShare (accR4 V c t.val t.isLt).1
            ∗ owns c.tc (st4_7 t) fullShare (accR4 V c t.val t.isLt).2)) := by
  obtain ⟨s6, s7, hs, hA, hB⟩ := rowsR4 V c t
  unfold bodyAt4
  rw [bigSep_W4]
  obtain ⟨b0, b1, b2, b3, b4⟩ := before_inR4 V c t
  simp only [b0, b1, b2, b3, b4]
  rw [hs]; dsimp only [nextR4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernelR4 c Set.univ (grid4.coords t) _ _ _ _ _ _ _ _ _ _ _ _ _ _ _ _ _ _ _ _ _ s6 s7 _ _ _
    hA fun h => hB h d6 d7)
  unfold insR4
  iframe H0 H1 H2 H3 H4 H6 H7
  isplitl [H5]; · iexists _; iexact H5
  iintro Hp
  iframe

theorem body_obligationR4 (c : Dev nD) : BodyObligation (datR4 (F := F) V c) (defs₀ (F := F)) Variants.none () Set.univ := fun t => by
  have h := sound_bodyR4 V c t
  rw [bigSep_W4] at h ⊢
  rw [bigSep_W4]
  exact h

end Region

end Cert.KernelIdeal.Hand

end
-- ==== Proof.KI.Bn5.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblkR5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rblkR5 : Rect S5000x128 := Rect.unit ![0, 0] S5000x128.size inb_S5000x128_S5000x128_0_0

abbrev rrowR5 : Rect S1x128 := Rect.unit ![0, 0] S1x128.size inb_S1x128_S1x128_0_0

theorem offR5 : (![0, 0] : Fin 2 → Nat) = fun _ => 0 := by decide

variable (x0 : Vec F S5000x128 .f32) (x1 x2 x3 x4 : Vec F S1x128 .f32)

-- What the body leaves in the output window's buffer: the payload of the five input buffers' contents.
def outR5 : Vec F S5000x128 .f32 := k5_pay1 x0 x1 x2 x3 x4

-- One store through the whole block leaves its payload, and a load through a whole buffer reads its contents.
theorem outR5_eq :
    (View.canon [⟨rblkR5, k5_pay1 (View.ld x0 rblkR5) (View.ld x1 rrowR5) (View.ld x2 rrowR5) (View.ld x3 rrowR5) (View.ld x4 rrowR5)⟩] : Vec F S5000x128 .f32) =
      k5_pay1 x0 x1 x2 x3 x4 := by
  rw [View.canon_unit_zero offR5]
  simp only [View.ld_unit_zero (S := S5000x128) offR5, View.ld_unit_zero (S := S1x128) offR5]

def datR5 : Dat τ (Elt F) Unit ℕ (UR sig nD τ) ℕ cfg5 c where
  A w := V c (Pipeline.arrRef spec5 w)
  after w t := match w with
    | ⟨0, _⟩ => iblkR5 V c 0 t
    | ⟨1, _⟩ => iblkR5 V c 1 t
    | ⟨2, _⟩ => iblkR5 V c 2 t
    | ⟨3, _⟩ => iblkR5 V c 3 t
    | ⟨4, _⟩ => iblkR5 V c 4 t
    | ⟨5, _⟩ => outR5 (iblkR5 V c 0 t) (iblkR5 V c 1 t) (iblkR5 V c 2 t) (iblkR5 V c 3 t) (iblkR5 V c 4 t)
  Φ _ := Pipeline.ΦA spec5 c
  q _ := fullShare
  owed _ := 0

theorem datR5_A (w : Fin cfg5.W) : (datR5 V c).A w = V c (Pipeline.arrRef spec5 w) := rfl

theorem datR5_after5 (t : Fin cfg5.N) :
    (datR5 V c).after 5 t = k5_pay1 (iblkR5 V c 0 t) (iblkR5 V c 1 t) (iblkR5 V c 2 t) (iblkR5 V c 3 t) (iblkR5 V c 4 t) := by
  dsimp only [datR5, outR5]

-- Every window but the output's is an input whose block the body leaves in place.
theorem beforeR5 : ∀ w : Fin cfg5.W, w ≠ 5 → ∀ t d, (datR5 V c).before w t d = (datR5 V c).after w t
  | ⟨5, _⟩, h, _, _ => absurd rfl h
  | ⟨0, _⟩, _, t, d | ⟨1, _⟩, _, t, d | ⟨2, _⟩, _, t, d | ⟨3, _⟩, _, t, d | ⟨4, _⟩, _, t, d =>
    ((datR5 V c).before_in_eq_fetched _ rfl (fun _ => rfl) (fun _ _ _ => rfl) (fun _ => rfl) t d).trans rfl

-- The body's triple at point t in the shape of the library's body obligation, over any contents x0 … x4 of the input buffers and any frame R, S.
theorem sound_kernelR5 (t : Fin cfg5.N) (R S : sProp 𝕄) :
    iprop(R ∗ S ∗ (∃ d : Vec F S5000x128 .f32, owns c (st5_0 t) fullShare x0)
        ∗ (∃ d : Vec F S1x128 .f32, owns c (st5_1 t) fullShare x1)
        ∗ (∃ d : Vec F S1x128 .f32, owns c (st5_2 t) fullShare x2)
        ∗ (∃ d : Vec F S1x128 .f32, owns c (st5_3 t) fullShare x3)
        ∗ (∃ d : Vec F S1x128 .f32, owns c (st5_4 t) fullShare x4)
        ∗ (∃ d, owns c (st5_5 t) fullShare ((datR5 V c).before 5 t d)))
      ⊢ wp frame (wpE (defs₀ (F := F)) Variants.none c none) Set.univ (bodyAt5 t) fun _ =>
          iprop(R ∗ S ∗ owns c (st5_0 t) fullShare x0 ∗ owns c (st5_1 t) fullShare x1
            ∗ owns c (st5_2 t) fullShare x2 ∗ owns c (st5_3 t) fullShare x3
            ∗ owns c (st5_4 t) fullShare x4 ∗ owns c (st5_5 t) fullShare (k5_pay1 x0 x1 x2 x3 x4)) := by
  unfold bodyAt5; simp only [cc5__bn_kernel_eq_skeleton]; unfold cc5__bn_kernel_skel
  unfold owns
  iintro ⟨HR, HS, ⟨%e0, %f0, %hf0, H0⟩, ⟨%e1, %f1, %hf1, H1⟩, ⟨%e2, %f2, %hf2, H2⟩, ⟨%e3, %f3, %hf3, H3⟩, ⟨%e4, %f4, %hf4, H4⟩, ⟨%d5, %f5, -, H5⟩⟩
  subst hf0 hf1 hf2 hf3 hf4
  sl_exec
  sl_step
  iframe HR HS
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact Eq.trans (View.read_writes_eq_canon _ _ _ fun y => ⟨_, List.mem_singleton_self _, View.mem_set_unit_zero offR5 inb_S5000x128_S5000x128_0_0 y⟩)
    (outR5_eq _ _ _ _ _)

theorem body_obligationR5 : BodyObligation (datR5 (F := F) V c) (defs₀ (F := F)) Variants.none () Set.univ := fun t => by
  rw [bigSep_W5, bigSep_W5]
  simp +decide only [beforeR5 V c]
  rw [datR5_after5]
  sl_whnfR [defs₀, Defs.onTc]
  exact sound_kernelR5 V c _ _ _ _ _ t _ _

end Cert.KernelIdeal.Hand

end
-- ==== Proof.KI.Pool6.lean ====
import proofs.«408502_j57071525429596_1_alg».proof.Proof.Gen.KernelIdeal.Launch
import proofs.«408502_j57071525429596_1_alg».proof.Proof.Gen.KernelIdeal.Skeleton
import proofs.«408502_j57071525429596_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev cond6_0 (i : grid6.Coords) : Prop :=
  (Scalar.cmpi .ne (Scalar.extui (Scalar.cmpi .eq (BitVec.ofNat 32 (i 0).val) 0#32)) 0#32) = 1#1
abbrev cond6_1 (i : grid6.Coords) : Prop := k6_cond2 i = 1#1
theorem hcond6 : ∀ t : Fin cfg6.N, (cond6_0 (grid6.coords t) ↔ t.val = 0) ∧ (cond6_1 (grid6.coords t) ↔ t.val = 19) := by
  decide +kernel

theorem idle6_7 : ∀ t : Fin cfg6.N, (¬cond6_1 (grid6.coords t) → cfg6.idle 7 (grid6.coords t) = true ∧ (cfg6.win 7).flush t = false)
    ∧ (cond6_1 (grid6.coords t) → cfg6.idle 7 (grid6.coords t) = false) := by
  decide +kernel

section Run
variable {c : Dev nD} {i : grid6.Coords} {arg1 : Memref sig .tc .vmem S5000x128 .f32} {harg1 : arg1.IsWhole} {arg2 : Memref sig .tc .vmem S5000x1 .i32} {harg2 : arg2.IsWhole} {arg3 : Memref sig .tc .vmem S512x1 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S128x10 .f32} {harg6 : arg6.IsWhole} {arg7 : Memref sig .tc .vmem S1x10 .f32} {harg7 : arg7.IsWhole} {arg8 : Memref sig .tc .vmem S512x10 .f32} {harg8 : arg8.IsWhole} {arg9 : Memref sig .tc .vmem S512x128 .f32} {harg9 : arg9.IsWhole}
  {x0 : Vec F S5000x128 .f32} {x1 : Vec F S5000x1 .i32} {x2 : Vec F S512x1 .f32} {x3 : Vec F S128x128 .f32} {x4 : Vec F S1x128 .f32}
  {x5 : Vec F S128x10 .f32} {x6 : Vec F S1x10 .f32} {xs : Vec F S512x128 .f32}

set_option maxHeartbeats 1000000 in
-- Away from the last point the running sum, restarted from zero at the first point, gains the point's rows.
theorem runR6_acc (hc1 : ¬cond6_1 i) (z : Vec F S512x128 .f32) (hz : z = if cond6_0 i then k6_pay1 (F := F) else xs) (E : Set ℕ)
    (K : PUnit → sProp 𝕄) :
    iprop(owns (c : Thread nD τ) arg1 fullShare x0 ∗ owns (c : Thread nD τ) arg2 fullShare x1 ∗ owns (c : Thread nD τ) arg9 fullShare xs
        ∗ (iprop(owns (c : Thread nD τ) arg1 fullShare x0 ∗ owns (c : Thread nD τ) arg2 fullShare x1
            ∗ owns (c : Thread nD τ) arg9 fullShare (k6_pay2 x0 x1 z)) -∗ K ⟨⟩))
      ⊢ wp frame (wpE (defs₀ (F := F)) Variants.none c none) E (cc6__pool_head_kernel i arg1 harg1 arg2 harg2 arg3 harg3 arg4 harg4 arg5 harg5 arg6 harg6 arg7 harg7 arg8 harg8 arg9 harg9) K := by
  simp only [cc6__pool_head_kernel_eq_skeleton]; unfold cc6__pool_head_kernel_skel
  unfold owns
  iintro ⟨⟨%f0, %hf0, H0⟩, ⟨%f1, %hf1, H1⟩, ⟨%fs, %hfs, HS⟩, Hk⟩
  subst hf0 hf1 hfs hz
  by_cases hc0 : cond6_0 i
  all_goals
    first | rw [if_pos hc0] | rw [if_neg hc0]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    iexists _; isplitr
    swap; · iexact HS
    ipureintro
    try sl_unfold_run_names
    rw [View.read_writes_eq_canon _ _ _ (fun y => ⟨_, List.Mem.head _, View.mem_set_unit_zero hz2 inb_S512x128_S512x128_0_0 y⟩), View.canon_cons_unit_zero (S := S512x128) hz2]
    simp only [View.readAt_eq_ld]
    repeat' first | exact View.ld_unit_zero hz2 _ _ | exact View.readCov_unit_zero _ hz2 _ _ | congr 1

set_option maxHeartbeats 1000000 in
-- The last point also yields the head applied to the finished sum.
theorem runR6_last (hc0 : ¬cond6_0 i) (hc1 : cond6_1 i) (R : sProp 𝕄)
    (hR : R = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6))
    (E : Set ℕ) (K : PUnit → sProp 𝕄) :
    iprop(R ∗ (∃ d, owns (c : Thread nD τ) arg8 fullShare d) ∗ owns (c : Thread nD τ) arg9 fullShare xs
        ∗ (iprop(R ∗ owns (c : Thread nD τ) arg8 fullShare (k6_pay3 (k6_pay2 x0 x1 xs) x2 x3 x4 x5 x6)
            ∗ owns (c : Thread nD τ) arg9 fullShare (k6_pay2 x0 x1 xs)) -∗ K ⟨⟩))
      ⊢ wp frame (wpE (defs₀ (F := F)) Variants.none c none) E (cc6__pool_head_kernel i arg1 harg1 arg2 harg2 arg3 harg3 arg4 harg4 arg5 harg5 arg6 harg6 arg7 harg7 arg8 harg8 arg9 harg9) K := by
  subst hR
  simp only [cc6__pool_head_kernel_eq_skeleton]; unfold cc6__pool_head_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs, %hfs, HS⟩, Hk⟩
  subst hf0 hf1 hf2 hf3 hf4 hf5 hf6 hfs
  sl_exec (disch := first | exact hc0 | exact hc1)
  sl_step
  iapply Hk
  isplitl [H0 H1 H2 H3 H4 H5 H6]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    swap; · iexact H7
    ipureintro
    sl_unfold_run_names
    rw [View.read_writes_eq_canon _ _ _ (fun y => ⟨_, List.Mem.head _, View.mem_set_unit_zero hz2 inb_S512x10_S512x10_0_0 y⟩), View.canon_cons_unit_zero (S := S512x10) hz2,
      View.readCov_unit_zero (S := S512x128) _ hz2]
    simp only [View.readAt_eq_ld]
    repeat' first | exact View.ld_unit_zero hz2 _ _ | exact View.readCov_unit_zero _ hz2 _ _ | congr 1
  iexists _; isplitr
  swap; · iexact HS
  ipureintro
  try sl_unfold_run_names
  rw [View.read_writes_eq_canon _ _ _ (fun y => ⟨_, List.Mem.head _, View.mem_set_unit_zero hz2 inb_S512x128_S512x128_0_0 y⟩), View.canon_cons_unit_zero (S := S512x128) hz2]
  simp only [View.readAt_eq_ld]
  repeat' first | exact View.ld_unit_zero hz2 _ _ | exact View.readCov_unit_zero _ hz2 _ _ | congr 1

end Run

section Data
variable (V : (c : Dev nD) → (b : Ref sig .tc) → Buf (Elt F) ((c : Thread nD τ).loc b)) (c : Dev nD)

def iblkR6 (w : Fin cfg6.W) (t : Fin cfg6.N) : ((cfg6.win w).xblock (cfg6.grid.coords t)).Idx → Elt F (cfg6.win w).elt :=
  ((cfg6.win w).blk t).view.read (Elt F) (V c (Pipeline.arrRef spec6 w))

def accR6 : (n : ℕ) → n < cfg6.N → Vec F S512x128 .f32
  | 0, h => k6_pay2 (iblkR6 V c 0 ⟨0, h⟩) (iblkR6 V c 1 ⟨0, h⟩) (k6_pay1 (F := F))
  | n + 1, h => k6_pay2 (iblkR6 V c 0 ⟨n + 1, h⟩) (iblkR6 V c 1 ⟨n + 1, h⟩) (accR6 n (Nat.lt_of_succ_lt h))

theorem accR6_step (t : Fin cfg6.N) : accR6 V c t.val t.isLt = k6_pay2 (iblkR6 V c 0 t) (iblkR6 V c 1 t)
    (if t.val = 0 then k6_pay1 (F := F) else accR6 V c (t.val - 1) (Nat.lt_of_le_of_lt (Nat.sub_le _ _) t.isLt)) := by
  obtain ⟨_ | n, hn⟩ := t <;> rfl

abbrev scM6 : Memref sig .tc .vmem S512x128 .f32 := Memref.whole cc6_scratch0

abbrev heldR6 (P : sProp 𝕄) : sProp 𝕄 :=
  iprop(iprop(P ∗ Pipeline.scopedRestBut (Ix := Unit) (Name := ℕ) (U := UR sig nD τ) (Lvl := ℕ) (Val := Elt F) spec6 c [cc6_scratch0])
    ∗ (∃ r, prngReg c r))

theorem PhiA6_eq : (Pipeline.ΦA spec6 c : sProp 𝕄) = heldR6 c iprop(∃ d, owns (c : Thread nD τ) scM6 fullShare d) := by
  unfold Pipeline.ΦA; rw [scopedRest6_split]; simp only [heldR6, scM6, owns_whole]; try rfl

def PhiR6 : (n : ℕ) → n ≤ cfg6.N → sProp 𝕄
  | 0, _ => Pipeline.ΦA spec6 c
  | n + 1, hn => heldR6 c (owns (c : Thread nD τ) scM6 fullShare (accR6 V c n hn))

theorem PhiR6_step (n : ℕ) (h : n ≤ cfg6.N) : PhiR6 V c n h = if hz : n = 0 then Pipeline.ΦA spec6 c else
    heldR6 c (owns (c : Thread nD τ) scM6 fullShare (accR6 V c (n - 1) (by omega))) := by
  cases n <;> rfl

def datR6 : Dat τ (Elt F) Unit ℕ (UR sig nD τ) ℕ cfg6 c where
  A w := V c (Pipeline.arrRef spec6 w)
  after w t := match w with
    | ⟨0, _⟩ => iblkR6 V c 0 t
    | ⟨1, _⟩ => iblkR6 V c 1 t
    | ⟨2, _⟩ => iblkR6 V c 2 t
    | ⟨3, _⟩ => iblkR6 V c 3 t
    | ⟨4, _⟩ => iblkR6 V c 4 t
    | ⟨5, _⟩ => iblkR6 V c 5 t
    | ⟨6, _⟩ => iblkR6 V c 6 t
    | ⟨7, _⟩ => k6_pay3 (accR6 V c t.val t.isLt) (iblkR6 V c 2 t) (iblkR6 V c 3 t) (iblkR6 V c 4 t) (iblkR6 V c 5 t) (iblkR6 V c 6 t)
  Φ t := PhiR6 V c t.val (Nat.le_of_lt_succ t.isLt)
  q _ := fullShare
  owed _ := 0

theorem datR6_A (w : Fin cfg6.W) : (datR6 V c).A w = V c (Pipeline.arrRef spec6 w) := rfl

theorem afterR6_7 (t : Fin cfg6.N) : (datR6 V c).after 7 t
    = k6_pay3 (accR6 V c t.val t.isLt) (iblkR6 V c 2 t) (iblkR6 V c 3 t) (iblkR6 V c 4 t) (iblkR6 V c 5 t) (iblkR6 V c 6 t) := rfl

theorem afterR6 (t : Fin cfg6.N) :
    (datR6 V c).after 0 t = iblkR6 V c 0 t ∧ (datR6 V c).after 1 t = iblkR6 V c 1 t ∧ (datR6 V c).after 2 t = iblkR6 V c 2 t
    ∧ (datR6 V c).after 3 t = iblkR6 V c 3 t ∧ (datR6 V c).after 4 t = iblkR6 V c 4 t ∧ (datR6 V c).after 5 t = iblkR6 V c 5 t
    ∧ (datR6 V c).after 6 t = iblkR6 V c 6 t := ⟨rfl, rfl, rfl, rfl, rfl, rfl, rfl⟩

theorem beforeR6 (t : Fin cfg6.N) (w : Fin cfg6.W) (hw : w ≠ 7) (d) : (datR6 V c).before w t d = (datR6 V c).after w t := by
  fin_cases w <;> first
    | exact absurd rfl hw
    | (refine ((datR6 V c).before_in_eq_fetched _ ?_ ?_ ?_ ?_ t d).trans ?_ <;> intros <;> rfl)

theorem leavesR6 (t : Fin cfg6.N) (w : Fin cfg6.W) (hw : w ≠ 7) : (datR6 V c).leavesExact w t
    = owns (c : Thread nD τ) ((cfg6.win w).stage (cfg6.slots t w)) fullShare ((datR6 V c).after w t) := by
  fin_cases w <;> first | exact absurd rfl hw | rfl

set_option maxHeartbeats 4800000 in
theorem sound_bodyR6 (t : Fin cfg6.N) :
    iprop((datR6 V c).Φ t.castSucc ∗ (datR6 V c).owesAt () t.castSucc ∗ bigSep Finset.univ fun w =>
        iprop(∃ d, owns (c : Thread nD τ) ((cfg6.win w).stage (cfg6.slots t w)) fullShare ((datR6 V c).before w t d)))
      ⊢ wp frame (wpE (defs₀ (F := F)) Variants.none c none) Set.univ (bodyAt6 t) fun _ =>
        iprop((datR6 V c).Φ t.succ ∗ (datR6 V c).owesAt () t.succ ∗ bigSep Finset.univ fun w => (datR6 V c).leavesExact w t) := by
  rw [bigSep_W6, bigSep_W6]
  unfold bodyAt6
  simp (disch := decide) only [beforeR6 V c t, leavesR6 V c t, afterR6 V c t]
  rw [show (datR6 V c).owesAt () t.succ = (datR6 V c).owesAt () t.castSucc from rfl,
    show (datR6 V c).Φ t.succ = heldR6 c (owns (c : Thread nD τ) scM6 fullShare (accR6 V c t.val t.isLt)) from rfl,
    show (datR6 V c).Φ t.castSucc = PhiR6 V c t.val (Nat.le_of_lt t.isLt) from rfl]
  by_cases h19 : t.val = 19
  · have h0 : t.val ≠ 0 := by omega
    have hc0 : ¬cond6_0 (grid6.coords t) := fun h => h0 ((hcond6 t).1.mp h)
    have hc1 := (hcond6 t).2.mpr h19
    rw [show (datR6 V c).leavesExact 7 t = owns (c : Thread nD τ) (st6_7 t) fullShare ((datR6 V c).after 7 t) from by
      unfold Dat.leavesExact; rw [(idle6_7 t).2 hc1], afterR6_7, accR6_step V c t, if_neg h0, PhiR6_step V c, dif_neg h0]
    unfold heldR6
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runR6_last hc0 hc1 _ rfl Set.univ _)
    iframe H0 H1 H2 H3 H4 H5 H6 HS
    isplitl [H7]; · iexists _; iexact H7
    iintro ⟨⟨H0, H1, H2, H3, H4, H5, H6⟩, H7, HS⟩
    iframe
  · have hc1 : ¬cond6_1 (grid6.coords t) := fun h => h19 ((hcond6 t).2.mp h)
    rw [Dat.leavesExact_idle _ 7 t ((idle6_7 t).1 hc1).1 ((idle6_7 t).1 hc1).2]
    by_cases h0 : t.val = 0
    · rw [accR6_step V c t, if_pos h0, PhiR6_step V c, dif_pos h0, PhiA6_eq]
      unfold heldR6
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runR6_acc hc1 _ (if_pos ((hcond6 t).1.mpr h0)).symm Set.univ _)
      iframe H0 H1 HS
      iintro ⟨H0, H1, HS⟩
      iframe
      iexists _; iexact H7
    · rw [accR6_step V c t, if_neg h0, PhiR6_step V c, dif_neg h0]
      unfold heldR6
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runR6_acc hc1 _ (if_neg fun h => h0 ((hcond6 t).1.mp h)).symm Set.univ _)
      iframe H0 H1 HS
      iintro ⟨H0, H1, HS⟩
      iframe
      iexists _; iexact H7

theorem body_obligationR6 : BodyObligation (datR6 (F := F) V c) (defs₀ (F := F)) Variants.none () Set.univ := sound_bodyR6 V c

theorem hinR6 : Pipeline.ΦA spec6 c ⊢ (datR6 V c).Φ 0 := .rfl

theorem houtR6 : (datR6 V c).Φ (Fin.last cfg6.N) ⊢ Pipeline.ΦA spec6 c := by
  rw [show (datR6 V c).Φ (Fin.last cfg6.N) = PhiR6 V c cfg6.N le_rfl from rfl,
    PhiR6_step V c, dif_neg (by have : cfg6.N = 20 := N_6; omega), PhiA6_eq]
  unfold heldR6
  iintro ⟨⟨HS, Hr⟩, Hg⟩
  iframe Hr Hg
  iexists _; iexact HS

end Data

end Cert.KernelIdeal.Hand

end
-- ==== Proof.KI.DataFacts.lean ====
import proofs.«408502_j57071525429596_1_alg».proof.Proof.KI.Mlp0
import proofs.«408502_j57071525429596_1_alg».proof.Proof.KI.Bn1
import proofs.«408502_j57071525429596_1_alg».proof.Proof.KI.Mlp2
import proofs.«408502_j57071525429596_1_alg».proof.Proof.KI.Bn3
import proofs.«408502_j57071525429596_1_alg».proof.Proof.KI.Mlp4
import proofs.«408502_j57071525429596_1_alg».proof.Proof.KI.Bn5
import proofs.«408502_j57071525429596_1_alg».proof.Proof.KI.Pool6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem datR0_share (c : Dev nD) : ∀ w, (datR0 V c).share w = fullShare := (datR0 V c).share_full fun _ => rfl
theorem datR0_owed0 (c : Dev nD) : ∀ t, (datR0 V c).owed t = 0 := fun _ => rfl
theorem hinR0 (c : Dev nD) : Pipeline.ΦA spec0 c ⊢ (datR0 V c).Φ 0 := .rfl
theorem houtR0 (c : Dev nD) : (datR0 V c).Φ (Fin.last cfg0.N) ⊢ Pipeline.ΦA spec0 c := .rfl

theorem datR1_share (c : Dev nD) : ∀ w, (datR1 V c).share w = fullShare := (datR1 V c).share_full fun _ => rfl
theorem datR1_owed0 (c : Dev nD) : ∀ t, (datR1 V c).owed t = 0 := fun _ => rfl
theorem hinR1 (c : Dev nD) : Pipeline.ΦA spec1 c ⊢ (datR1 V c).Φ 0 := .rfl
theorem houtR1 (c : Dev nD) : (datR1 V c).Φ (Fin.last cfg1.N) ⊢ Pipeline.ΦA spec1 c := .rfl

theorem datR2_share (c : Dev nD) : ∀ w, (datR2 V c).share w = fullShare := (datR2 V c).share_full fun _ => rfl
theorem datR2_owed0 (c : Dev nD) : ∀ t, (datR2 V c).owed t = 0 := fun _ => rfl
theorem hinR2 (c : Dev nD) : Pipeline.ΦA spec2 c ⊢ (datR2 V c).Φ 0 := .rfl
theorem houtR2 (c : Dev nD) : (datR2 V c).Φ (Fin.last cfg2.N) ⊢ Pipeline.ΦA spec2 c := .rfl

theorem datR3_share (c : Dev nD) : ∀ w, (datR3 V c).share w = fullShare := (datR3 V c).share_full fun _ => rfl
theorem datR3_owed0 (c : Dev nD) : ∀ t, (datR3 V c).owed t = 0 := fun _ => rfl
theorem hinR3 (c : Dev nD) : Pipeline.ΦA spec3 c ⊢ (datR3 V c).Φ 0 := .rfl
theorem houtR3 (c : Dev nD) : (datR3 V c).Φ (Fin.last cfg3.N) ⊢ Pipeline.ΦA spec3 c := .rfl

theorem datR4_share (c : Dev nD) : ∀ w, (datR4 V c).share w = fullShare := (datR4 V c).share_full fun _ => rfl
theorem datR4_owed0 (c : Dev nD) : ∀ t, (datR4 V c).owed t = 0 := fun _ => rfl
theorem hinR4 (c : Dev nD) : Pipeline.ΦA spec4 c ⊢ (datR4 V c).Φ 0 := .rfl
theorem houtR4 (c : Dev nD) : (datR4 V c).Φ (Fin.last cfg4.N) ⊢ Pipeline.ΦA spec4 c := .rfl

theorem datR5_share (c : Dev nD) : ∀ w, (datR5 V c).share w = fullShare := (datR5 V c).share_full fun _ => rfl
theorem datR5_owed0 (c : Dev nD) : ∀ t, (datR5 V c).owed t = 0 := fun _ => rfl
theorem hinR5 (c : Dev nD) : Pipeline.ΦA spec5 c ⊢ (datR5 V c).Φ 0 := .rfl
theorem houtR5 (c : Dev nD) : (datR5 V c).Φ (Fin.last cfg5.N) ⊢ Pipeline.ΦA spec5 c := .rfl

theorem datR6_share (c : Dev nD) : ∀ w, (datR6 V c).share w = fullShare := (datR6 V c).share_full fun _ => rfl
theorem datR6_owed0 (c : Dev nD) : ∀ t, (datR6 V c).owed t = 0 := fun _ => rfl

end Cert.KernelIdeal.Hand

end
-- ==== Proof.KI.Chain.lean ====
import proofs.«408502_j57071525429596_1_alg».proof.Proof.Gen.KernelIdeal.Launch
import proofs.«408502_j57071525429596_1_alg».proof.Proof.Gen.KernelIdeal.Regions
import proofs.«408502_j57071525429596_1_alg».proof.Proof.KI.DataFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable {cfg : Cfg sig Λ₀} (D : (c : Dev nD) → Dat τ (Elt F) Unit ℕ (UR sig nD τ) ℕ cfg c)
  (W : Dev nD → Valuation τ sig (Elt F)) (c : Dev nD)

/-- The contents at a region's exit: the data's final arrays at the windows' references, the entry contents elsewhere. -/
def exitOf : Valuation τ sig (Elt F) := Pipeline.withArrays cfg.spec c (W c) fun w => (D c).arrAt w cfg.N

theorem exitOf_arr (hinj : Function.Injective (Pipeline.arrRef cfg.spec)) (w : Fin cfg.W) :
    exitOf D W c (Proc.devRef .tc (Pipeline.arrRef cfg.spec w)) = (D c).arrAt w cfg.N :=
  Pipeline.withArrays_arr cfg.spec hinj c _ _ w

theorem exitOf_rest : ∀ b, b ∉ Finset.univ.image (Pipeline.arrRef cfg.spec) →
    exitOf D W c (Proc.devRef .tc b) = W c (Proc.devRef .tc b) :=
  fun b hb => Pipeline.withArrays_of_ne cfg.spec c _ _ b fun w e => hb (Finset.mem_image.mpr ⟨w, Finset.mem_univ _, e⟩)

/-- A reference outside `outs`, which lists every output window's array, holds at the exit what it held at the entry. -/
theorem exitOf_keep (hinj : Function.Injective (Pipeline.arrRef cfg.spec))
    (hA : ∀ w, (D c).A w = W c (Proc.devRef .tc (Pipeline.arrRef cfg.spec w))) (outs : List (Ref sig .tc))
    (ho : ∀ w, (cfg.win w).isOut = true → Pipeline.arrRef cfg.spec w ∈ outs) (r : Ref sig .tc) (hr : r ∉ outs) :
    exitOf D W c (Proc.devRef .tc r) = W c (Proc.devRef .tc r) := by
  by_cases h : ∃ w, Pipeline.arrRef cfg.spec w = r
  · obtain ⟨w, rfl⟩ := h
    exact (exitOf_arr D W c hinj w).trans
      (((D c).arrAt_in w (eq_false_of_ne_true fun hb => hr (ho w hb)) _).trans (hA w))
  · exact Pipeline.withArrays_of_ne cfg.spec c _ _ r fun w e => h ⟨w, e⟩

/-- Contents indexed by device buffers, read at a core's own references. -/
abbrev rd : (c : Dev nD) → (b : Ref sig .tc) → Buf (Elt F) ((c : Thread nD τ).loc b) := fun c b => W c b
end

variable (m : (ℓ : Loc nD τ sig) → Buf (Elt F) ℓ) (c : Dev nD) (r : Ref sig .tc)

abbrev W0 : Dev nD → Valuation τ sig (Elt F) := fun c b => m (c, b)
abbrev outsOf : Fin 7 → List (Ref sig .tc)
  | 0 => [main_v25_0, main_v25_1, main_v25_2]
  | 1 => [main_v45]
  | 2 => [main_v67_0, main_v67_1, main_v67_2]
  | 3 => [main_v87]
  | 4 => [main_v109_0, main_v109_1, main_v109_2]
  | 5 => [main_v129]
  | 6 => [main_v142]

abbrev W1 : Dev nD → Valuation τ sig (Elt F) := fun c => StableHlo.after hostOps0 (W0 m c)
abbrev E1 := rd (W1 m)
def W2 : Dev nD → Valuation τ sig (Elt F) := exitOf (datR0 (E1 m)) (W1 m)
abbrev E2 := rd (W2 m)
theorem W2_arr (w : Fin cfg0.W) :
    W2 m c (Proc.devRef .tc (Pipeline.arrRef spec0 w)) = (datR0 (E1 m) c).arrAt w cfg0.N :=
  exitOf_arr _ _ c launch0.win.arr_inj w
theorem W1_of (h : r ∉ hostOps0_W) : W1 m c (Proc.devRef .tc r) = W0 m c (Proc.devRef .tc r) :=
  StableHlo.after_of_writes_sub hostOps0 _ hostOps0_writes h
theorem W2_keep (hr : r ∉ outsOf 0) : W2 m c (Proc.devRef .tc r) = W1 m c (Proc.devRef .tc r) :=
  exitOf_keep _ _ c launch0.win.arr_inj (datR0_A (E1 m) c) _ (by decide) r hr

abbrev W3 : Dev nD → Valuation τ sig (Elt F) := fun c => StableHlo.after hostOps1 (W2 m c)
abbrev E3 := rd (W3 m)
def W4 : Dev nD → Valuation τ sig (Elt F) := exitOf (datR1 (E3 m)) (W3 m)
abbrev E4 := rd (W4 m)
theorem W4_arr (w : Fin cfg1.W) :
    W4 m c (Proc.devRef .tc (Pipeline.arrRef spec1 w)) = (datR1 (E3 m) c).arrAt w cfg1.N :=
  exitOf_arr _ _ c launch1.win.arr_inj w
theorem W3_of (h : r ∉ hostOps1_W) : W3 m c (Proc.devRef .tc r) = W2 m c (Proc.devRef .tc r) :=
  StableHlo.after_of_writes_sub hostOps1 _ hostOps1_writes h
theorem W4_keep (hr : r ∉ outsOf 1) : W4 m c (Proc.devRef .tc r) = W3 m c (Proc.devRef .tc r) :=
  exitOf_keep _ _ c launch1.win.arr_inj (datR1_A (E3 m) c) _ (by decide) r hr

abbrev W5 : Dev nD → Valuation τ sig (Elt F) := fun c => StableHlo.after hostOps2 (W4 m c)
abbrev E5 := rd (W5 m)
def W6 : Dev nD → Valuation τ sig (Elt F) := exitOf (datR2 (E5 m)) (W5 m)
abbrev E6 := rd (W6 m)
theorem W6_arr (w : Fin cfg2.W) :
    W6 m c (Proc.devRef .tc (Pipeline.arrRef spec2 w)) = (datR2 (E5 m) c).arrAt w cfg2.N :=
  exitOf_arr _ _ c launch2.win.arr_inj w
theorem W5_of (h : r ∉ hostOps2_W) : W5 m c (Proc.devRef .tc r) = W4 m c (Proc.devRef .tc r) :=
  StableHlo.after_of_writes_sub hostOps2 _ hostOps2_writes h
theorem W6_keep (hr : r ∉ outsOf 2) : W6 m c (Proc.devRef .tc r) = W5 m c (Proc.devRef .tc r) :=
  exitOf_keep _ _ c launch2.win.arr_inj (datR2_A (E5 m) c) _ (by decide) r hr

abbrev W7 : Dev nD → Valuation τ sig (Elt F) := fun c => StableHlo.after hostOps3 (W6 m c)
abbrev E7 := rd (W7 m)
def W8 : Dev nD → Valuation τ sig (Elt F) := exitOf (datR3 (E7 m)) (W7 m)
abbrev E8 := rd (W8 m)
theorem W8_arr (w : Fin cfg3.W) :
    W8 m c (Proc.devRef .tc (Pipeline.arrRef spec3 w)) = (datR3 (E7 m) c).arrAt w cfg3.N :=
  exitOf_arr _ _ c launch3.win.arr_inj w
theorem W7_of (h : r ∉ hostOps3_W) : W7 m c (Proc.devRef .tc r) = W6 m c (Proc.devRef .tc r) :=
  StableHlo.after_of_writes_sub hostOps3 _ hostOps3_writes h
theorem W8_keep (hr : r ∉ outsOf 3) : W8 m c (Proc.devRef .tc r) = W7 m c (Proc.devRef .tc r) :=
  exitOf_keep _ _ c launch3.win.arr_inj (datR3_A (E7 m) c) _ (by decide) r hr

abbrev W9 : Dev nD → Valuation τ sig (Elt F) := fun c => StableHlo.after hostOps4 (W8 m c)
abbrev E9 := rd (W9 m)
def W10 : Dev nD → Valuation τ sig (Elt F) := exitOf (datR4 (E9 m)) (W9 m)
abbrev E10 := rd (W10 m)
theorem W10_arr (w : Fin cfg4.W) :
    W10 m c (Proc.devRef .tc (Pipeline.arrRef spec4 w)) = (datR4 (E9 m) c).arrAt w cfg4.N :=
  exitOf_arr _ _ c launch4.win.arr_inj w
theorem W9_of (h : r ∉ hostOps4_W) : W9 m c (Proc.devRef .tc r) = W8 m c (Proc.devRef .tc r) :=
  StableHlo.after_of_writes_sub hostOps4 _ hostOps4_writes h
theorem W10_keep (hr : r ∉ outsOf 4) : W10 m c (Proc.devRef .tc r) = W9 m c (Proc.devRef .tc r) :=
  exitOf_keep _ _ c launch4.win.arr_inj (datR4_A (E9 m) c) _ (by decide) r hr

abbrev W11 : Dev nD → Valuation τ sig (Elt F) := fun c => StableHlo.after hostOps5 (W10 m c)
abbrev E11 := rd (W11 m)
def W12 : Dev nD → Valuation τ sig (Elt F) := exitOf (datR5 (E11 m)) (W11 m)
abbrev E12 := rd (W12 m)
theorem W12_arr (w : Fin cfg5.W) :
    W12 m c (Proc.devRef .tc (Pipeline.arrRef spec5 w)) = (datR5 (E11 m) c).arrAt w cfg5.N :=
  exitOf_arr _ _ c launch5.win.arr_inj w
theorem W11_of (h : r ∉ hostOps5_W) : W11 m c (Proc.devRef .tc r) = W10 m c (Proc.devRef .tc r) :=
  StableHlo.after_of_writes_sub hostOps5 _ hostOps5_writes h
theorem W12_keep (hr : r ∉ outsOf 5) : W12 m c (Proc.devRef .tc r) = W11 m c (Proc.devRef .tc r) :=
  exitOf_keep _ _ c launch5.win.arr_inj (datR5_A (E11 m) c) _ (by decide) r hr

abbrev W13 : Dev nD → Valuation τ sig (Elt F) := fun c => StableHlo.after hostOps6 (W12 m c)
abbrev E13 := rd (W13 m)
def W14 : Dev nD → Valuation τ sig (Elt F) := exitOf (datR6 (E13 m)) (W13 m)
abbrev E14 := rd (W14 m)
theorem W14_arr (w : Fin cfg6.W) :
    W14 m c (Proc.devRef .tc (Pipeline.arrRef spec6 w)) = (datR6 (E13 m) c).arrAt w cfg6.N :=
  exitOf_arr _ _ c launch6.win.arr_inj w
theorem W13_of (h : r ∉ hostOps6_W) : W13 m c (Proc.devRef .tc r) = W12 m c (Proc.devRef .tc r) :=
  StableHlo.after_of_writes_sub hostOps6 _ hostOps6_writes h
theorem W14_keep (hr : r ∉ outsOf 6) : W14 m c (Proc.devRef .tc r) = W13 m c (Proc.devRef .tc r) :=
  exitOf_keep _ _ c launch6.win.arr_inj (datR6_A (E13 m) c) _ (by decide) r hr

/-- The fourteen steps chained: a reference outside every write list and every output list ends at its launch contents. -/
theorem W14_launch (ho : ∀ K : Fin 7, r ∉ outsOf K)
    (h0 : r ∉ hostOps0_W) (h1 : r ∉ hostOps1_W) (h2 : r ∉ hostOps2_W) (h3 : r ∉ hostOps3_W) (h4 : r ∉ hostOps4_W)
    (h5 : r ∉ hostOps5_W) (h6 : r ∉ hostOps6_W) : W14 m c (Proc.devRef .tc r) = m ((c : Thread nD τ).loc r) :=
  (W14_keep m c r (ho 6)).trans <| (W13_of m c r h6).trans <| (W12_keep m c r (ho 5)).trans <| (W11_of m c r h5).trans <|
  (W10_keep m c r (ho 4)).trans <| (W9_of m c r h4).trans <| (W8_keep m c r (ho 3)).trans <| (W7_of m c r h3).trans <|
  (W6_keep m c r (ho 2)).trans <| (W5_of m c r h2).trans <| (W4_keep m c r (ho 1)).trans <| (W3_of m c r h1).trans <|
  (W2_keep m c r (ho 0)).trans <| (W1_of m c r h0).trans rfl

end Cert.KernelIdeal.Hand

end
-- ==== Proof.KI.Regs.lean ====
import proofs.«408502_j57071525429596_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => datR0 (E1 m)
  | ⟨1, _⟩ => datR1 (E3 m)
  | ⟨2, _⟩ => datR2 (E5 m)
  | ⟨3, _⟩ => datR3 (E7 m)
  | ⟨4, _⟩ => datR4 (E9 m)
  | ⟨5, _⟩ => datR5 (E11 m)
  | ⟨6, _⟩ => datR6 (E13 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region `p` as a segment from the thread state at `Wi` to the one at its exit contents, from the facts of its data. -/
def mkReg {p : Fin 7} (lf : Pipeline.LaunchFacts (nD := nD) (τ := τ) cfgs p) (Wi : Dev nD → Valuation τ sig (Elt F))
    (hb : ∀ c, BodyObligation (pdats m p c) (defs₀ (F := F)) 𝒱₀ () Set.univ)
    (hw : ∀ c t, (pdats m p c).owed t = 0) (hs : ∀ c w, (pdats m p c).share w = fullShare)
    (hR : ∀ c x, x ∈ (pdats m p c).recorded 0)
    (hA : ∀ c w, (pdats m p c).A w = Wi c (Pipeline.arrRef (cfgs p).spec w))
    (hI : ∀ c, Pipeline.ΦA (cfgs p).spec c ⊢ (pdats m p c).Φ 0)
    (hO : ∀ c, (pdats m p c).Φ (Fin.last _) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wi c) ∗ R c)
  post c := iprop(StableHlo.held (c : Thread nD τ) (Pipeline.ucRefs τ sig) (exitOf (pdats m p) Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    fun b => Wi c b
  hentry c := by
    rw [Pipeline.ownSems0_none]
    have hsplit := Pipeline.arrays_of_unscopedBufs (p := p) (pcfgs (F := F)) adm (pdats m) lf.win lf.arr_whole c
      (hs c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hw]
      icases HO with ⟨%W, HO⟩; iexists W; isplitr; · ipureintro; exact fun x _ => Or.inl (hR c x)
      iexact HO
    isplitl [Hp]; · iexact Hp
    iexact Hrest
  hin c := by
    have h := hI c
    unfold Pipeline.ΦA at h
    iintro ⟨Hp, -, Hr⟩
    iapply h
    isplitl [Hr]; · iexact Hr
    iexact Hp
  hout c := by
    rw [Pipeline.ownSems0_none]
    have h := hO c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hs c) (fun b => Wi c b) (fun b => exitOf (pdats m p) Wi c b) ((pdats m p c).arrAt · (cfgs p).N)
      (fun w => (exitOf_arr (pdats m p) Wi c lf.win.arr_inj w).symm) (exitOf_rest (pdats m p) Wi c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw]
    icases HO with ⟨%W, -, HO⟩; iexists W; iexact HO

def reg0 := mkReg m launch0 (W1 m) (body_obligationR0 (E1 m)) (datR0_owed0 (E1 m)) (datR0_share (E1 m))
  (fun _ _ => trivial) (datR0_A (E1 m)) (hinR0 (E1 m)) (houtR0 (E1 m))

def reg1 := mkReg m launch1 (W3 m) (body_obligationR1 (E3 m)) (datR1_owed0 (E3 m)) (datR1_share (E3 m))
  (fun _ _ => trivial) (datR1_A (E3 m)) (hinR1 (E3 m)) (houtR1 (E3 m))

def reg2 := mkReg m launch2 (W5 m) (body_obligationR2 (E5 m)) (datR2_owed0 (E5 m)) (datR2_share (E5 m))
  (fun _ _ => trivial) (datR2_A (E5 m)) (hinR2 (E5 m)) (houtR2 (E5 m))

def reg3 := mkReg m launch3 (W7 m) (body_obligationR3 (E7 m)) (datR3_owed0 (E7 m)) (datR3_share (E7 m))
  (fun _ _ => trivial) (datR3_A (E7 m)) (hinR3 (E7 m)) (houtR3 (E7 m))

def reg4 := mkReg m launch4 (W9 m) (body_obligationR4 (E9 m)) (datR4_owed0 (E9 m)) (datR4_share (E9 m))
  (fun _ _ => trivial) (datR4_A (E9 m)) (hinR4 (E9 m)) (houtR4 (E9 m))

def reg5 := mkReg m launch5 (W11 m) (body_obligationR5 (E11 m)) (datR5_owed0 (E11 m)) (datR5_share (E11 m))
  (fun _ _ => trivial) (datR5_A (E11 m)) (hinR5 (E11 m)) (houtR5 (E11 m))

def reg6 := mkReg m launch6 (W13 m) (body_obligationR6 (E13 m)) (datR6_owed0 (E13 m)) (datR6_share (E13 m))
  (fun _ _ => trivial) (datR6_A (E13 m)) (hinR6 (E13 m)) (houtR6 (E13 m))

end Cert.KernelIdeal.Hand

end
-- ==== Proof.KI.Run.lean ====
import proofs.«408502_j57071525429596_1_alg».proof.Proof.KI.Regs
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m),
    .host (hseg hostOps5 hostOps5_sub hostOps5_fresh (W10 m)), .region (reg5 m),
    .host (hseg hostOps6 hostOps6_sub hostOps6_fresh (W12 m)), .region (reg6 m) ]

-- No region puts out, and no host stretch writes, an argument of @main.
theorem args_kept : List.Forall (fun r : Ref sig .tc => ¬ (Proc.devRef .tc r : DevRef τ sig).isScoped ∧ (∀ K : Fin 7, r ∉ outsOf K) ∧ r ∉ hostOps0_W
    ∧ r ∉ hostOps1_W ∧ r ∉ hostOps2_W ∧ r ∉ hostOps3_W ∧ r ∉ hostOps4_W ∧ r ∉ hostOps5_W ∧ r ∉ hostOps6_W)
    [main_arg0, main_arg1, main_arg2, main_arg3, main_arg4, main_arg5, main_arg6, main_arg7, main_arg8, main_arg9, main_arg10, main_arg11,
      main_arg12] := by decide

set_option backward.isDefEq.respectTransparency.types false in
theorem run : θ_run defs (onTc (τ := τ) (main (F := F))) ⟨m, fun _ => 0, ρ⟩ (fun r => ∀ c : Dev nD,
      r.2.mem ((c.tc : Thread nD τ).loc main_v142) = W14 m c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [show main (F := F) c = Pipeline.Seg.run (segs m) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl); iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W14 m c) ∗ ∃ r, prngReg c r))
    (hch := by repeat' first | exact fun _ => .rfl | exact fun _ => BI.sep_assoc' | apply And.intro)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all _ (fun b => ((c : Thread nD τ).1, b)) _ s')
      isplitl [Hh] <;> iassumption)
    (hQ := fun s h c => ⟨h c _ (mem_uc main_v142 (by decide)), args_kept.imp
      (q := fun r => s.mem ((c.tc : Thread nD τ).loc r) = m ((c.tc : Thread nD τ).loc r)) fun r ⟨hs, ho, h0, h1, h2, h3, h4, h5, h6⟩ =>
      (h c _ (mem_uc r hs)).trans (W14_launch m c r ho h0 h1 h2 h3 h4 h5 h6)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.KernelIdeal.Hand

end
-- ==== Proof.Ref.Part0.lean ====
import proofs.«408502_j57071525429596_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v4 main_v5 rfl shapeCasts_S1x128x128_S128x128,
    StableHlo.unary main_arg4 main_v6 ((extractStridedSlice S1x128 ![0, 0] · slices_S3x128_S1x128_0_0) : (⟨S3x128, .f32⟩ : BufTy).Contents (Elt F) → (⟨S1x128, .f32⟩ : BufTy).Contents (Elt F)),
    StableHlo.reshape main_v6 main_v7 rfl shapeCasts_S1x128_S128,
    StableHlo.unary main_arg5 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v8 main_v9 rfl shapeCasts_S1x128x128_S128x128,
    StableHlo.unary main_arg6 main_v10 ((extractStridedSlice S1x128 ![0, 0] · slices_S3x128_S1x128_0_0) : (⟨S3x128, .f32⟩ : BufTy).Contents (Elt F) → (⟨S1x128, .f32⟩ : BufTy).Contents (Elt F)),
    StableHlo.reshape main_v10 main_v11 rfl shapeCasts_S1x128_S128,
    StableHlo.unary main_arg7 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128,
    StableHlo.unary main_arg8 main_v14 ((extractStridedSlice S1x128 ![0, 0] · slices_S3x128_S1x128_0_0) : (⟨S3x128, .f32⟩ : BufTy).Contents (Elt F) → (⟨S1x128, .f32⟩ : BufTy).Contents (Elt F)),
    StableHlo.reshape main_v14 main_v15 rfl shapeCasts_S1x128_S128,
    StableHlo.nullary main_c (constantI S_ 32 0#32),
    StableHlo.unary main_c main_v16 (broadcastInDim S1600000 ![] bcast_S_S1600000 : (⟨S_, .i32⟩ : BufTy).Contents (Elt F) → (⟨S1600000, .i32⟩ : BufTy).Contents (Elt F)),
    StableHlo.binary main_v1 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v18 (broadcastInDim S1600000 ![] bcast_S_S1600000 : (⟨S_, .i32⟩ : BufTy).Contents (Elt F) → (⟨S1600000, .i32⟩ : BufTy).Contents (Elt F)),
    StableHlo.binary main_v1 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_arg0 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v23 (broadcastInDim S100000x128 ![] bcast_S_S100000x128 : (⟨S_, .f32⟩ : BufTy).Contents (Elt F) → (⟨S100000x128, .f32⟩ : BufTy).Contents (Elt F)),
    StableHlo.unary main_v3 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v25 main_v26 (addf : (⟨S100000x128, .f32⟩ : BufTy).Contents (Elt F) → (⟨S100000x128, .f32⟩ : BufTy).Contents (Elt F) → (⟨S100000x128, .f32⟩ : BufTy).Contents (Elt F)),
    StableHlo.binary main_v26 main_v5 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v30 : TRef sig ⟨S100000x128, .f32⟩) main_call0.v0 main_call0.v1 maximumf,
    StableHlo.binary main_v31 main_v9 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v35 : TRef sig ⟨S100000x128, .f32⟩) main_call1.v0 main_call1.v1 maximumf,
    StableHlo.nullary main_cst_1 (constant S_ .f32 0x00000000#32),
    StableHlo.binary main_v36 main_cst_1 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v36 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v36 : TRef sig ⟨S100000x128, .f32⟩) main_call2.v4 main_call2.v5 subf,
    StableHlo.TRef.binary main_call2.v5 main_call2.v5 main_call2.v6 mulf,
    StableHlo.TRef.unary (.of main_c_3 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)),
    StableHlo.unary main_v13 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v43 main_v46 (mulf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v47 (broadcastInDim S128 ![] bcast_S_S128 : (⟨S_, .f32⟩ : BufTy).Contents (Elt F) → (⟨S128, .f32⟩ : BufTy).Contents (Elt F)),
    StableHlo.binary main_v40 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v51 main_v52 (mulf : (⟨S100000x128, .f32⟩ : BufTy).Contents (Elt F) → (⟨S100000x128, .f32⟩ : BufTy).Contents (Elt F) → (⟨S100000x128, .f32⟩ : BufTy).Contents (Elt F)) ]

theorem main_part0_eq (c : Dev nD) : main_part0 (F := F) c = seq ops0 := by
  simp only [main_part0, fn_relu.body, fn_relu_0.body, fn_var.body, fn_where.body, seq, bind_assoc, pure_bind]
  rfl

theorem ops0_sub : (ops0 : List (HloOp τ sig (Elt F))).Forall fun op => op.bufs ⊆ tcRefs τ sig := by
  and_intros <;> simp only [List.Forall, unary_bufs_sub, binary_bufs_sub, nullary_bufs_sub, reshape_bufs_sub, ternary_bufs_sub]

theorem ops0_fresh : (ops0 : List (HloOp τ sig (Elt F))).Forall fun op => op.fresh = ∅ := by
  and_intros <;> rfl

abbrev ops0_W : List (Ref sig .tc) :=
  [main_v0, main_v1, main_v2, main_v3, main_v4, main_v5, main_v6, main_v7,
    main_v8, main_v9, main_v10, main_v11, main_v12, main_v13, main_v14, main_v15,
    main_c, main_v16, main_v17, main_c_0, main_v18, main_v19, main_v20, main_v21,
    main_v22, main_cst, main_v23, main_v24, main_v25, main_v26, main_v27, main_v28,
    main_v29, main_v30, main_call0.cst.ref, main_call0.v0.ref, main_call0.v1.ref, main_v32, main_v33, main_v34,
    main_v35, main_call1.cst.ref, main_call1.v0.ref, main_call1.v1.ref, main_cst_1, main_v37, main_cst_2, main_v38,
    main_v39, main_c_3, main_call2.cst.ref, main_call2.v0.ref, main_call2.v1.ref, main_call2.cst_0.ref, main_call2.v2.ref, main_call2.v3.ref,
    main_call2.v4.ref, main_call2.v5.ref, main_call2.v6.ref, main_call2.v7.ref, main_call2.cst_1.ref, main_call2.v8.ref, main_call2.cst_2.ref, main_call2.v9.ref,
    main_call2.v10.ref, main_call2.v11.ref, main_call2.cst_3.ref, main_call2.v12.ref, main_call2.cst_4.ref, main_call2.call0.v0.ref, main_call2.call0.v1.ref, main_call2.call0.v2.ref,
    main_v41, main_v42, main_v43, main_v44, main_v45, main_v46, main_cst_4, main_v47,
    main_v48, main_v49, main_v50, main_v51, main_v52]

theorem ops0_writes : (ops0 : List (HloOp τ sig (Elt F))).Forall fun op =>
    op.writes ⊆ (ops0_W.map (Proc.devRef (τ := τ) .tc)).toFinset := by
  and_intros <;> exact Finset.singleton_subset_iff.mpr (List.mem_toFinset.mpr (List.mem_map_of_mem (by decide)))

theorem keep0 (V : Valuation τ sig (Elt F)) (r : Ref sig .tc) (h : r ∉ ops0_W) :
    after ops0 V (Proc.devRef .tc r) = V (Proc.devRef .tc r) :=
  after_of_writes_sub ops0 V ops0_writes h

end Cert.ReferenceIdeal.RefValue

end
-- ==== Proof.Ref.Part1.lean ====
import proofs.«408502_j57071525429596_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ StableHlo.unary main_v15 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.unary main_arg3 main_v56 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.unary main_arg4 main_v58 ((extractStridedSlice S1x128 ![1, 0] · slices_S3x128_S1x128_1_0) : (⟨S3x128, .f32⟩ : BufTy).Contents (Elt F) → (⟨S1x128, .f32⟩ : BufTy).Contents (Elt F)),
    StableHlo.reshape main_v58 main_v59 rfl shapeCasts_S1x128_S128,
    StableHlo.unary main_arg5 main_v60 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v60 main_v61 rfl shapeCasts_S1x128x128_S128x128,
    StableHlo.unary main_arg6 main_v62 ((extractStridedSlice S1x128 ![1, 0] · slices_S3x128_S1x128_1_0) : (⟨S3x128, .f32⟩ : BufTy).Contents (Elt F) → (⟨S1x128, .f32⟩ : BufTy).Contents (Elt F)),
    StableHlo.reshape main_v62 main_v63 rfl shapeCasts_S1x128_S128,
    StableHlo.unary main_arg7 main_v64 ((extractStridedSlice S1x128 ![1, 0] · slices_S3x128_S1x128_1_0) : (⟨S3x128, .f32⟩ : BufTy).Contents (Elt F) → (⟨S1x128, .f32⟩ : BufTy).Contents (Elt F)),
    StableHlo.reshape main_v64 main_v65 rfl shapeCasts_S1x128_S128,
    StableHlo.unary main_arg8 main_v66 ((extractStridedSlice S1x128 ![1, 0] · slices_S3x128_S1x128_1_0) : (⟨S3x128, .f32⟩ : BufTy).Contents (Elt F) → (⟨S1x128, .f32⟩ : BufTy).Contents (Elt F)),
    StableHlo.reshape main_v66 main_v67 rfl shapeCasts_S1x128_S128,
    StableHlo.nullary main_c_5 (constantI S_ 32 0#32),
    StableHlo.unary main_c_5 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v55 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v75 (broadcastInDim S100000x128 ![] bcast_S_S100000x128 : (⟨S_, .f32⟩ : BufTy).Contents (Elt F) → (⟨S100000x128, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v55 main_v77 main_v78 (addf : (⟨S100000x128, .f32⟩ : BufTy).Contents (Elt F) → (⟨S100000x128, .f32⟩ : BufTy).Contents (Elt F) → (⟨S100000x128, .f32⟩ : BufTy).Contents (Elt F)),
    StableHlo.binary main_v78 main_v57 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v59 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v82 : TRef sig ⟨S100000x128, .f32⟩) main_call3.v0 main_call3.v1 maximumf,
    StableHlo.binary main_v83 main_v61 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v63 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v86 main_v87 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v87 : TRef sig ⟨S100000x128, .f32⟩) main_call4.v0 main_call4.v1 maximumf,
    StableHlo.nullary main_cst_8 (constant S_ .f32 0x00000000#32),
    StableHlo.binary main_v88 main_cst_8 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call5.cst (constant S_ .f32 0x00000000#32),
    StableHlo.TRef.binary (.of main_v88 : TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v88 : TRef sig ⟨S100000x128, .f32⟩) main_call5.v4 main_call5.v5 subf,
    StableHlo.TRef.binary main_call5.v5 main_call5.v5 main_call5.v6 mulf,
    StableHlo.TRef.unary (.of main_c_10 : TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v91 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v94 main_v95 (subf : (⟨S100000x128, .f32⟩ : BufTy).Contents (Elt F) → (⟨S100000x128, .f32⟩ : BufTy).Contents (Elt F) → (⟨S100000x128, .f32⟩ : BufTy).Contents (Elt F)),
    StableHlo.unary main_v65 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v95 main_v98 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v99 (broadcastInDim S128 ![] bcast_S_S128 : (⟨S_, .f32⟩ : BufTy).Contents (Elt F) → (⟨S128, .f32⟩ : BufTy).Contents (Elt F)),
    StableHlo.binary main_v92 main_v99 main_v100 (addf : (⟨S128, .f32⟩ : BufTy).Contents (Elt F) → (⟨S128, .f32⟩ : BufTy).Contents (Elt F) → (⟨S128, .f32⟩ : BufTy).Contents (Elt F)),
    StableHlo.unary main_v100 main_v101 (Host.rsqrt : (⟨S128, .f32⟩ : BufTy).Contents (Elt F) → (⟨S128, .f32⟩ : BufTy).Contents (Elt F)),
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_v67 main_v105 (broadcastInDim S1x128 ![1] bcast_S128_S1x128_1 : (⟨S128, .f32⟩ : BufTy).Contents (Elt F) → (⟨S1x128, .f32⟩ : BufTy).Contents (Elt F)) ]

theorem main_part1_eq (c : Dev nD) : main_part1 (F := F) c = seq ops1 := by
  simp only [main_part1, fn_relu.body, fn_relu_0.body, fn_var.body, fn_where.body, seq, bind_assoc, pure_bind]
  rfl

theorem ops1_sub : (ops1 : List (HloOp τ sig (Elt F))).Forall fun op => op.bufs ⊆ tcRefs τ sig := by
  and_intros <;> simp only [List.Forall, unary_bufs_sub, binary_bufs_sub, nullary_bufs_sub, reshape_bufs_sub, ternary_bufs_sub]

theorem ops1_fresh : (ops1 : List (HloOp τ sig (Elt F))).Forall fun op => op.fresh = ∅ := by
  and_intros <;> rfl

abbrev ops1_W : List (Ref sig .tc) :=
  [main_v53, main_v54, main_v55, main_v56, main_v57, main_v58, main_v59, main_v60,
    main_v61, main_v62, main_v63, main_v64, main_v65, main_v66, main_v67, main_c_5,
    main_v68, main_v69, main_c_6, main_v70, main_v71, main_v72, main_v73, main_v74,
    main_cst_7, main_v75, main_v76, main_v77, main_v78, main_v79, main_v80, main_v81,
    main_v82, main_call3.cst.ref, main_call3.v0.ref, main_call3.v1.ref, main_v84, main_v85, main_v86, main_v87,
    main_call4.cst.ref, main_call4.v0.ref, main_call4.v1.ref, main_cst_8, main_v89, main_cst_9, main_v90, main_v91,
    main_c_10, main_call5.cst.ref, main_call5.v0.ref, main_call5.v1.ref, main_call5.cst_0.ref, main_call5.v2.ref, main_call5.v3.ref, main_call5.v4.ref,
    main_call5.v5.ref, main_call5.v6.ref, main_call5.v7.ref, main_call5.cst_1.ref, main_call5.v8.ref, main_call5.cst_2.ref, main_call5.v9.ref, main_call5.v10.ref,
    main_call5.v11.ref, main_call5.cst_3.ref, main_call5.v12.ref, main_call5.cst_4.ref, main_call5.call0.v0.ref, main_call5.call0.v1.ref, main_call5.call0.v2.ref, main_v93,
    main_v94, main_v95, main_v96, main_v97, main_v98, main_cst_11, main_v99, main_v100,
    main_v101, main_v102, main_v103, main_v104, main_v105]

theorem ops1_writes : (ops1 : List (HloOp τ sig (Elt F))).Forall fun op =>
    op.writes ⊆ (ops1_W.map (Proc.devRef (τ := τ) .tc)).toFinset := by
  and_intros <;> exact Finset.singleton_subset_iff.mpr (List.mem_toFinset.mpr (List.mem_map_of_mem (by decide)))

theorem keep1 (V : Valuation τ sig (Elt F)) (r : Ref sig .tc) (h : r ∉ ops1_W) :
    after ops1 V (Proc.devRef .tc r) = V (Proc.devRef .tc r) :=
  after_of_writes_sub ops1 V ops1_writes h

end Cert.ReferenceIdeal.RefValue

end
-- ==== Proof.Ref.Part2.lean ====
import proofs.«408502_j57071525429596_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (addf : (⟨S100000x128, .f32⟩ : BufTy).Contents (Elt F) → (⟨S100000x128, .f32⟩ : BufTy).Contents (Elt F) → (⟨S100000x128, .f32⟩ : BufTy).Contents (Elt F)),
    StableHlo.unary main_arg3 main_v108 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v108 main_v109 rfl shapeCasts_S1x128x128_S128x128,
    StableHlo.unary main_arg4 main_v110 ((extractStridedSlice S1x128 ![2, 0] · slices_S3x128_S1x128_2_0) : (⟨S3x128, .f32⟩ : BufTy).Contents (Elt F) → (⟨S1x128, .f32⟩ : BufTy).Contents (Elt F)),
    StableHlo.reshape main_v110 main_v111 rfl shapeCasts_S1x128_S128,
    StableHlo.unary main_arg5 main_v112 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v112 main_v113 rfl shapeCasts_S1x128x128_S128x128,
    StableHlo.unary main_arg6 main_v114 ((extractStridedSlice S1x128 ![2, 0] · slices_S3x128_S1x128_2_0) : (⟨S3x128, .f32⟩ : BufTy).Contents (Elt F) → (⟨S1x128, .f32⟩ : BufTy).Contents (Elt F)),
    StableHlo.reshape main_v114 main_v115 rfl shapeCasts_S1x128_S128,
    StableHlo.unary main_arg7 main_v116 ((extractStridedSlice S1x128 ![2, 0] · slices_S3x128_S1x128_2_0) : (⟨S3x128, .f32⟩ : BufTy).Contents (Elt F) → (⟨S1x128, .f32⟩ : BufTy).Contents (Elt F)),
    StableHlo.reshape main_v116 main_v117 rfl shapeCasts_S1x128_S128,
    StableHlo.unary main_arg8 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.nullary main_c_12 (constantI S_ 32 0#32),
    StableHlo.unary main_c_12 main_v120 (broadcastInDim S1600000 ![] bcast_S_S1600000 : (⟨S_, .i32⟩ : BufTy).Contents (Elt F) → (⟨S1600000, .i32⟩ : BufTy).Contents (Elt F)),
    StableHlo.binary main_v1 main_v120 main_v121 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v122 (broadcastInDim S1600000 ![] bcast_S_S1600000 : (⟨S_, .i32⟩ : BufTy).Contents (Elt F) → (⟨S1600000, .i32⟩ : BufTy).Contents (Elt F)),
    StableHlo.binary main_v1 main_v122 main_v123 (addi : (⟨S1600000, .i32⟩ : BufTy).Contents (Elt F) → (⟨S1600000, .i32⟩ : BufTy).Contents (Elt F) → (⟨S1600000, .i32⟩ : BufTy).Contents (Elt F)),
    StableHlo.ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v124 main_v125 (broadcastInDim S1600000x1 ![0] bcast_S1600000_S1600000x1_0 : (⟨S1600000, .i32⟩ : BufTy).Contents (Elt F) → (⟨S1600000x1, .i32⟩ : BufTy).Contents (Elt F)),
    StableHlo.binary main_v107 main_v125 main_v126 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v127 (broadcastInDim S100000x128 ![] bcast_S_S100000x128 : (⟨S_, .f32⟩ : BufTy).Contents (Elt F) → (⟨S100000x128, .f32⟩ : BufTy).Contents (Elt F)),
    StableHlo.unary main_v3 main_v128 (broadcastInDim S1600000x1 ![0] bcast_S1600000_S1600000x1_0 : (⟨S1600000, .i32⟩ : BufTy).Contents (Elt F) → (⟨S1600000x1, .i32⟩ : BufTy).Contents (Elt F)),
    StableHlo.ternary main_v127 main_v128 main_v126 main_v129 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v107 main_v129 main_v130 (addf : (⟨S100000x128, .f32⟩ : BufTy).Contents (Elt F) → (⟨S100000x128, .f32⟩ : BufTy).Contents (Elt F) → (⟨S100000x128, .f32⟩ : BufTy).Contents (Elt F)),
    StableHlo.binary main_v130 main_v109 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v111 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v134 : TRef sig ⟨S100000x128, .f32⟩) main_call6.v0 main_call6.v1 maximumf,
    StableHlo.binary main_v135 main_v113 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v115 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v138 main_v139 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v139 : TRef sig ⟨S100000x128, .f32⟩) main_call7.v0 main_call7.v1 maximumf,
    StableHlo.nullary main_cst_15 (constant S_ .f32 0x00000000#32),
    StableHlo.binary main_v140 main_cst_15 main_v141 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v142 (broadcastInDim S128 ![] bcast_S_S128 : (⟨S_, .f32⟩ : BufTy).Contents (Elt F) → (⟨S128, .f32⟩ : BufTy).Contents (Elt F)),
    StableHlo.binary main_v141 main_v142 main_v143 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call8.cst (constant S_ .f32 0x00000000#32),
    StableHlo.TRef.binary (.of main_v140 : TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v140 : TRef sig ⟨S100000x128, .f32⟩) main_call8.v4 main_call8.v5 subf,
    StableHlo.TRef.binary main_call8.v5 main_call8.v5 main_call8.v6 mulf,
    StableHlo.TRef.unary (.of main_c_17 : TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v143 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v146 main_v147 (subf : (⟨S100000x128, .f32⟩ : BufTy).Contents (Elt F) → (⟨S100000x128, .f32⟩ : BufTy).Contents (Elt F) → (⟨S100000x128, .f32⟩ : BufTy).Contents (Elt F)),
    StableHlo.unary main_v117 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v147 main_v150 (mulf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v151 (broadcastInDim S128 ![] bcast_S_S128 : (⟨S_, .f32⟩ : BufTy).Contents (Elt F) → (⟨S128, .f32⟩ : BufTy).Contents (Elt F)),
    StableHlo.binary main_v144 main_v151 main_v152 (addf : (⟨S128, .f32⟩ : BufTy).Contents (Elt F) → (⟨S128, .f32⟩ : BufTy).Contents (Elt F) → (⟨S128, .f32⟩ : BufTy).Contents (Elt F)),
    StableHlo.unary main_v152 main_v153 (Host.rsqrt : (⟨S128, .f32⟩ : BufTy).Contents (Elt F) → (⟨S128, .f32⟩ : BufTy).Contents (Elt F)),
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v155 main_v156 (mulf : (⟨S100000x128, .f32⟩ : BufTy).Contents (Elt F) → (⟨S100000x128, .f32⟩ : BufTy).Contents (Elt F) → (⟨S100000x128, .f32⟩ : BufTy).Contents (Elt F)),
    StableHlo.unary main_v119 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S100000x128 ![0, 1] bcast_S1x128_S100000x128_0_1 : (⟨S1x128, .f32⟩ : BufTy).Contents (Elt F) → (⟨S100000x128, .f32⟩ : BufTy).Contents (Elt F)) ]

theorem main_part2_eq (c : Dev nD) : main_part2 (F := F) c = seq ops2 := by
  simp only [main_part2, fn_relu.body, fn_relu_0.body, fn_var.body, fn_where.body, seq, bind_assoc, pure_bind]
  rfl

theorem ops2_sub : (ops2 : List (HloOp τ sig (Elt F))).Forall fun op => op.bufs ⊆ tcRefs τ sig := by
  and_intros <;> simp only [List.Forall, unary_bufs_sub, binary_bufs_sub, nullary_bufs_sub, reshape_bufs_sub, ternary_bufs_sub]

theorem ops2_fresh : (ops2 : List (HloOp τ sig (Elt F))).Forall fun op => op.fresh = ∅ := by
  and_intros <;> rfl

abbrev ops2_W : List (Ref sig .tc) :=
  [main_v106, main_v107, main_v108, main_v109, main_v110, main_v111, main_v112, main_v113,
    main_v114, main_v115, main_v116, main_v117, main_v118, main_v119, main_c_12, main_v120,
    main_v121, main_c_13, main_v122, main_v123, main_v124, main_v125, main_v126, main_cst_14,
    main_v127, main_v128, main_v129, main_v130, main_v131, main_v132, main_v133, main_v134,
    main_call6.cst.ref, main_call6.v0.ref, main_call6.v1.ref, main_v136, main_v137, main_v138, main_v139, main_call7.cst.ref,
    main_call7.v0.ref, main_call7.v1.ref, main_cst_15, main_v141, main_cst_16, main_v142, main_v143, main_c_17,
    main_call8.cst.ref, main_call8.v0.ref, main_call8.v1.ref, main_call8.cst_0.ref, main_call8.v2.ref, main_call8.v3.ref, main_call8.v4.ref, main_call8.v5.ref,
    main_call8.v6.ref, main_call8.v7.ref, main_call8.cst_1.ref, main_call8.v8.ref, main_call8.cst_2.ref, main_call8.v9.ref, main_call8.v10.ref, main_call8.v11.ref,
    main_call8.cst_3.ref, main_call8.v12.ref, main_call8.cst_4.ref, main_call8.call0.v0.ref, main_call8.call0.v1.ref, main_call8.call0.v2.ref, main_v145, main_v146,
    main_v147, main_v148, main_v149, main_v150, main_cst_18, main_v151, main_v152, main_v153,
    main_v154, main_v155, main_v156, main_v157, main_v158]

theorem ops2_writes : (ops2 : List (HloOp τ sig (Elt F))).Forall fun op =>
    op.writes ⊆ (ops2_W.map (Proc.devRef (τ := τ) .tc)).toFinset := by
  and_intros <;> exact Finset.singleton_subset_iff.mpr (List.mem_toFinset.mpr (List.mem_map_of_mem (by decide)))

theorem keep2 (V : Valuation τ sig (Elt F)) (r : Ref sig .tc) (h : r ∉ ops2_W) :
    after ops2 V (Proc.devRef .tc r) = V (Proc.devRef .tc r) :=
  after_of_writes_sub ops2 V ops2_writes h

end Cert.ReferenceIdeal.RefValue

end
-- ==== Proof.Ref.Part3.lean ====
import proofs.«408502_j57071525429596_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ StableHlo.binary main_v156 main_v158 main_v159 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v160 (broadcastInDim S512x128 ![] bcast_S_S512x128 : (⟨S_, .f32⟩ : BufTy).Contents (Elt F) → (⟨S512x128, .f32⟩ : BufTy).Contents (Elt F)),
    StableHlo.unary main_arg2 main_v161 (broadcastInDim S100000x1 ![0] bcast_S100000_S100000x1_0 : (⟨S100000, .i32⟩ : BufTy).Contents (Elt F) → (⟨S100000x1, .i32⟩ : BufTy).Contents (Elt F)),
    StableHlo.ternary main_v160 main_v161 main_v159 main_v162 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_20 (constant S_ .f32 0x3F800000#32),
    StableHlo.unary main_cst_20 main_v163 (broadcastInDim S100000 ![] bcast_S_S100000 : (⟨S_, .f32⟩ : BufTy).Contents (Elt F) → (⟨S100000, .f32⟩ : BufTy).Contents (Elt F)),
    StableHlo.nullary main_cst_21 (constant S_ .f32 0x00000000#32),
    StableHlo.unary main_cst_21 main_v164 (broadcastInDim S512 ![] bcast_S_S512 : (⟨S_, .f32⟩ : BufTy).Contents (Elt F) → (⟨S512, .f32⟩ : BufTy).Contents (Elt F)),
    StableHlo.unary main_arg2 main_v165 (broadcastInDim S100000x1 ![0] bcast_S100000_S100000x1_0 : (⟨S100000, .i32⟩ : BufTy).Contents (Elt F) → (⟨S100000x1, .i32⟩ : BufTy).Contents (Elt F)),
    StableHlo.ternary main_v164 main_v165 main_v163 main_v166 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_22 (constant S_ .f32 0x3F800000#32),
    StableHlo.unary main_cst_22 main_v167 (broadcastInDim S512 ![] bcast_S_S512 : (⟨S_, .f32⟩ : BufTy).Contents (Elt F) → (⟨S512, .f32⟩ : BufTy).Contents (Elt F)),
    StableHlo.binary main_v166 main_v167 main_v168 (maximumf : (⟨S512, .f32⟩ : BufTy).Contents (Elt F) → (⟨S512, .f32⟩ : BufTy).Contents (Elt F) → (⟨S512, .f32⟩ : BufTy).Contents (Elt F)),
    StableHlo.unary main_v168 main_v169 (broadcastInDim S512x1 ![0] bcast_S512_S512x1_0 : (⟨S512, .f32⟩ : BufTy).Contents (Elt F) → (⟨S512x1, .f32⟩ : BufTy).Contents (Elt F)),
    StableHlo.unary main_v169 main_v170 (broadcastInDim S512x128 ![0, 1] bcast_S512x1_S512x128_0_1 : (⟨S512x1, .f32⟩ : BufTy).Contents (Elt F) → (⟨S512x128, .f32⟩ : BufTy).Contents (Elt F)),
    StableHlo.binary main_v162 main_v170 main_v171 (Host.divf : (⟨S512x128, .f32⟩ : BufTy).Contents (Elt F) → (⟨S512x128, .f32⟩ : BufTy).Contents (Elt F) → (⟨S512x128, .f32⟩ : BufTy).Contents (Elt F)),
    StableHlo.binary main_v171 main_arg9 main_v172 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg10 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S512x128 ![0, 1] bcast_S1x128_S512x128_0_1 : (⟨S1x128, .f32⟩ : BufTy).Contents (Elt F) → (⟨S512x128, .f32⟩ : BufTy).Contents (Elt F)),
    StableHlo.binary main_v172 main_v174 main_v175 (addf : (⟨S512x128, .f32⟩ : BufTy).Contents (Elt F) → (⟨S512x128, .f32⟩ : BufTy).Contents (Elt F) → (⟨S512x128, .f32⟩ : BufTy).Contents (Elt F)),
    StableHlo.TRef.nullary main_call9.cst (constant S_ .f32 0x00000000#32),
    StableHlo.TRef.unary main_call9.cst main_call9.v0 (broadcastInDim S512x128 ![] bcast_S_S512x128),
    StableHlo.TRef.binary (.of main_v175 : TRef sig ⟨S512x128, .f32⟩) main_call9.v0 main_call9.v1 maximumf,
    StableHlo.binary main_v176 main_arg11 main_v177 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg12 main_v178 (broadcastInDim S1x10 ![1] bcast_S10_S1x10_1 : (⟨S10, .f32⟩ : BufTy).Contents (Elt F) → (⟨S1x10, .f32⟩ : BufTy).Contents (Elt F)),
    StableHlo.unary main_v178 main_v179 (broadcastInDim S512x10 ![0, 1] bcast_S1x10_S512x10_0_1 : (⟨S1x10, .f32⟩ : BufTy).Contents (Elt F) → (⟨S512x10, .f32⟩ : BufTy).Contents (Elt F)),
    StableHlo.binary main_v177 main_v179 main_v180 (addf : (⟨S512x10, .f32⟩ : BufTy).Contents (Elt F) → (⟨S512x10, .f32⟩ : BufTy).Contents (Elt F) → (⟨S512x10, .f32⟩ : BufTy).Contents (Elt F)) ]

theorem main_part3_eq (c : Dev nD) : main_part3 (F := F) c = seq ops3 := by
  simp only [main_part3, fn_relu.body, fn_relu_0.body, fn_var.body, fn_where.body, seq, bind_assoc, pure_bind]

theorem ops3_sub : (ops3 : List (HloOp τ sig (Elt F))).Forall fun op => op.bufs ⊆ tcRefs τ sig := by
  and_intros <;> simp only [List.Forall, unary_bufs_sub, binary_bufs_sub, nullary_bufs_sub, ternary_bufs_sub]

theorem ops3_fresh : (ops3 : List (HloOp τ sig (Elt F))).Forall fun op => op.fresh = ∅ := by
  and_intros <;> rfl

abbrev ops3_W : List (Ref sig .tc) :=
  [main_v159, main_cst_19, main_v160, main_v161, main_v162, main_cst_20, main_v163, main_cst_21,
    main_v164, main_v165, main_v166, main_cst_22, main_v167, main_v168, main_v169, main_v170,
    main_v171, main_v172, main_v173, main_v174, main_v175, main_call9.cst.ref, main_call9.v0.ref, main_call9.v1.ref,
    main_v177, main_v178, main_v179, main_v180]

theorem ops3_writes : (ops3 : List (HloOp τ sig (Elt F))).Forall fun op =>
    op.writes ⊆ (ops3_W.map (Proc.devRef (τ := τ) .tc)).toFinset := by
  and_intros <;> exact Finset.singleton_subset_iff.mpr (List.mem_toFinset.mpr (List.mem_map_of_mem (by decide)))

theorem keep3 (V : Valuation τ sig (Elt F)) (r : Ref sig .tc) (h : r ∉ ops3_W) :
    after ops3 V (Proc.devRef .tc r) = V (Proc.devRef .tc r) :=
  after_of_writes_sub ops3 V ops3_writes h

end Cert.ReferenceIdeal.RefValue

end
-- ==== Proof.RefRun.lean ====
import proofs.«408502_j57071525429596_1_alg».proof.Proof.Ref.Part0
import proofs.«408502_j57071525429596_1_alg».proof.Proof.Ref.Part1
import proofs.«408502_j57071525429596_1_alg».proof.Proof.Ref.Part2
import proofs.«408502_j57071525429596_1_alg».proof.Proof.Ref.Part3
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ ops3))

-- Two straight lines run in order are their concatenation run as one.
theorem main_eq (c : Dev nD) : main (F := F) c = seq ops := by
  simp only [ops, seq_append, ← main_part0_eq c, ← main_part1_eq c, ← main_part2_eq c, ← main_part3_eq c]
  rfl

theorem ops_sub : (ops : List (HloOp τ sig (Elt F))).Forall fun op => op.bufs ⊆ tcRefs τ sig :=
  List.forall_append.2 ⟨ops0_sub, List.forall_append.2 ⟨ops1_sub, List.forall_append.2 ⟨ops2_sub, ops3_sub⟩⟩⟩

theorem ops_fresh : ∀ op ∈ (ops : List (HloOp τ sig (Elt F))), op.fresh = ∅ :=
  List.forall_iff_forall_mem.mp (List.forall_append.2
    ⟨ops0_fresh, List.forall_append.2 ⟨ops1_fresh, List.forall_append.2 ⟨ops2_fresh, ops3_fresh⟩⟩⟩)

theorem after_ops (V : Valuation τ sig (Elt F)) :
    after ops V = after ops3 (after ops2 (after ops1 (after ops0 V))) := by
  simp only [ops, after_append]

-- A reference no window writes keeps its contents through the whole run.
private theorem arg_keep (V : Valuation τ sig (Elt F)) (r : Ref sig .tc)
    (h : r ∉ ops0_W ∧ r ∉ ops1_W ∧ r ∉ ops2_W ∧ r ∉ ops3_W := by decide) :
    after ops V (Proc.devRef .tc r) = V (Proc.devRef .tc r) := by
  rw [after_ops, keep3 _ r h.2.2.2, keep2 _ r h.2.2.1, keep1 _ r h.2.1, keep0 _ r h.1]

-- No buffer or semaphore is scoped, so the run ends with every buffer at the fold of the operations.
theorem run_result (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v180) = after ops (fun b => m (c, b)) (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => by
      refine ⟨h c _, ?_, ?_, ?_, ?_, ?_, ?_, ?_, ?_, ?_, ?_, ?_, ?_, ?_⟩ <;> exact (h c _).trans (arg_keep _ _))
    (run_seq (by decide) (by decide) defs main (fun _ => ops) main_eq (fun _ => ops_sub) m g (fun _ => ops_fresh))

theorem frame_ref (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_result m g)

end Cert.ReferenceIdeal.RefValue

end
-- ==== Proof.KI.BnCommon.lean ====
import proofs.«408502_j57071525429596_1_alg».proof.Proof.Gen.KernelIdeal
import Idealize.ShloMosaic.Lib.ValueIdx
import Idealize.ShloMosaic.Lib.ValueLayout
import Idealize.ShloMosaic.Lib.IdealHost

noncomputable section

namespace Cert.KernelIdeal.Hand

open Cert.KernelIdeal Cert.KernelIdeal.Gen
open Idealize.ShloMosaic Idealize.ShloMosaic.TcCoe Idealize.SL.Sem
open Idealize.ShloMosaic.ValueIdx

theorem hostRsqrt_apply {s : Shape} {φ : FTy} (a : FVec Ideal s φ) (i : s.Idx) :
    Host.rsqrt a i = Ideal.rsqrt (a i) := rfl

abbrev rowOver (w : BitVec 32) (S : FVec Ideal S1x128 .f32) : FVec Ideal S128 .f32 :=
  Host.divf (shapeCast S128 S shapeCasts_S1x128_S128)
    (broadcastInDim S128 ![] bcast_S_S128 (constant (F := Ideal) S_ .f32 w))

-- A one-row matrix over a literal: column d is the row's entry over the literal.
theorem rowOver_apply (w : BitVec 32) (S : FVec Ideal S1x128 .f32) (d : Fin 128) :
    rowOver w S (ix1 d) = Ideal.div (S (ix2 0 d)) (Ideal.ofBits .f32 w) := by
  unfold rowOver
  rw [hostDivf_apply, shapeCast_1a_a_apply, broadcastInDim_scalar_apply, constant_apply]

abbrev meanTerm (S : FVec Ideal S1x128 .f32) : FVec Ideal S1x128 .f32 :=
  shapeCast S1x128 (rowOver 0x47C35000#32 S) shapeCasts_S128_S1x128

theorem meanTerm_apply (S : FVec Ideal S1x128 .f32) (d : Fin 128) :
    meanTerm S (ix2 0 d) = Ideal.div (S (ix2 0 d)) (Ideal.ofBits .f32 0x47C35000#32) := by
  unfold meanTerm
  rw [shapeCast_a_1a_apply, rowOver_apply]

abbrev invTerm (S Q : FVec Ideal S1x128 .f32) : FVec Ideal S1x128 .f32 :=
  shapeCast S1x128
    (Host.rsqrt
      (addf (subf (rowOver 0x47C35000#32 Q) (mulf (rowOver 0x47C35000#32 S) (rowOver 0x47C35000#32 S)))
        (broadcastInDim S128 ![] bcast_S_S128 (constant (F := Ideal) S_ .f32 0x3727C5AC#32))))
    shapeCasts_S128_S1x128

theorem invTerm_apply (S Q : FVec Ideal S1x128 .f32) (d : Fin 128) :
    invTerm S Q (ix2 0 d)
      = Ideal.rsqrt ((Ideal.div (Q (ix2 0 d)) (Ideal.ofBits .f32 0x47C35000#32)
            - Ideal.div (S (ix2 0 d)) (Ideal.ofBits .f32 0x47C35000#32)
              * Ideal.div (S (ix2 0 d)) (Ideal.ofBits .f32 0x47C35000#32))
          + Ideal.ofBits .f32 0x3727C5AC#32) := by
  unfold invTerm
  rw [shapeCast_a_1a_apply, hostRsqrt_apply, addf_apply, subf_apply, mulf_apply, rowOver_apply, rowOver_apply,
    broadcastInDim_scalar_apply, constant_apply]

abbrev rowTerm (o : ℕ) (P : FVec Ideal S3x128 .f32) (h : S3x128.Slices ![o, 0] S1x128) : FVec Ideal S1x128 .f32 :=
  shapeCast S1x128 (shapeCast S128 (extractStridedSlice S1x128 ![o, 0] P h) shapeCasts_S1x128_S128) shapeCasts_S128_S1x128

-- Row k of a three-row array, cut out and recast, keeps its entries.
theorem rowTerm_apply (k : Fin 3) (P : FVec Ideal S3x128 .f32) (h : S3x128.Slices ![k.val, 0] S1x128) (d : Fin 128) :
    rowTerm k.val P h (ix2 0 d) = P (ix2 k d) := by
  unfold rowTerm
  rw [shapeCast_a_1a_apply, shapeCast_1a_a_apply]
  exact slice2_axis0_apply k.val P h (0 : Fin 1) d k rfl

-- The normalisation's payload at row p, column q: a row broadcast over the block reads the row at the column.
theorem bnPay_apply (x0 : FVec Ideal S5000x128 .f32) (x1 x2 x3 x4 : FVec Ideal S1x128 .f32) (p : Fin 5000) (q : Fin 128) :
    addf (mulf (mulf (broadcastTo S5000x128 x3 broadcasts_S1x128_S5000x128)
          (subf x0 (broadcastTo S5000x128 x1 broadcasts_S1x128_S5000x128)))
        (broadcastTo S5000x128 x2 broadcasts_S1x128_S5000x128))
      (broadcastTo S5000x128 x4 broadcasts_S1x128_S5000x128) (ix2 p q)
      = x3 (ix2 0 q) * (x0 (ix2 p q) - x1 (ix2 0 q)) * x2 (ix2 0 q) + x4 (ix2 0 q) := by
  rw [addf_apply, mulf_apply, mulf_apply, subf_apply]
  simp only [broadcastTo_1b_ab_apply]

end Cert.KernelIdeal.Hand

end
-- ==== Proof.KI.Bn1Val.lean ====
import proofs.«408502_j57071525429596_1_alg».proof.Proof.KI.Bn1
import proofs.«408502_j57071525429596_1_alg».proof.Proof.KI.BnCommon
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- Decided over the grid's points; every read of a block below is located by these.
theorem idxR1 : ∀ t : Fin cfg1.N,
    (∀ a, (cfg1.win 5).index t a = (cfg1.win 0).index t a)
    ∧ ((cfg1.win 5).index t (0 : Fin 2) = t.val ∧ (cfg1.win 5).index t (1 : Fin 2) = 0)
    ∧ (∀ a, (cfg1.win 1).index t a = 0) ∧ (∀ a, (cfg1.win 2).index t a = 0)
    ∧ (∀ a, (cfg1.win 3).index t a = 0) ∧ ∀ a, (cfg1.win 4).index t a = 0 :=
  (by decide +kernel : ∀ t : Fin grid1.N, _)

variable (V : (c : Dev nD) → (b : Ref sig .tc) → Buf (Elt Ideal) ((c : Thread nD τ).loc b)) (c : Dev nD) (t : Fin cfg1.N)

abbrev actR1 : S100000x128.Idx → EReal := V c (Pipeline.arrRef spec1 0)
abbrev meanR1 : S1x128.Idx → EReal := V c (Pipeline.arrRef spec1 1)
abbrev invR1 : S1x128.Idx → EReal := V c (Pipeline.arrRef spec1 2)
abbrev scaleR1 : S1x128.Idx → EReal := V c (Pipeline.arrRef spec1 3)
abbrev shiftR1 : S1x128.Idx → EReal := V c (Pipeline.arrRef spec1 4)

-- On each axis the place is the block index times the block's size plus the local coordinate.
theorem emb_outR1 (p : Fin 5000) (q : Fin 128) (n : Fin 100000) (hn : n.val = 5000 * t.val + p.val) :
    (((cfg1.win 5).blk t).view.emb (ix2 p q) : S100000x128.Idx) = ix2 n q := by
  obtain ⟨-, ⟨e0, e1⟩, -⟩ := idxR1 t
  funext a; apply Fin.ext
  match a with
  | ⟨0, _⟩ => show (cfg1.win 5).index t (0 : Fin 2) * 5000 + 1 * p.val = n.val; rw [e0, hn]; omega
  | ⟨1, _⟩ => show (cfg1.win 5).index t (1 : Fin 2) * 128 + 1 * q.val = q.val; rw [e1]; omega

-- The activations' window has the output window's block index, so its block sits at the same place.
theorem iblkR1_0_eq : iblkR1 V c 0 t = fun y => actR1 V c (((cfg1.win 5).blk t).view.emb y) :=
  funext fun y => congrArg (actR1 V c) (funext fun a => Fin.ext (congrArg (· * _ + _) ((idxR1 t).1 a))).symm

-- A zero block index on every axis puts the block at its own coordinates: each row's block is the row.
theorem iblkR1_1_eq : iblkR1 V c 1 t = meanR1 V c :=
  funext fun y => congrArg (meanR1 V c) (funext fun a => Fin.ext ((cfg1.win 1).rect_emb_val_of_index_zero t a ((idxR1 t).2.2.1 a) y))
theorem iblkR1_2_eq : iblkR1 V c 2 t = invR1 V c :=
  funext fun y => congrArg (invR1 V c) (funext fun a => Fin.ext ((cfg1.win 2).rect_emb_val_of_index_zero t a ((idxR1 t).2.2.2.1 a) y))
theorem iblkR1_3_eq : iblkR1 V c 3 t = scaleR1 V c :=
  funext fun y => congrArg (scaleR1 V c) (funext fun a => Fin.ext ((cfg1.win 3).rect_emb_val_of_index_zero t a ((idxR1 t).2.2.2.2.1 a) y))
theorem iblkR1_4_eq : iblkR1 V c 4 t = shiftR1 V c :=
  funext fun y => congrArg (shiftR1 V c) (funext fun a => Fin.ext ((cfg1.win 4).rect_emb_val_of_index_zero t a ((idxR1 t).2.2.2.2.2 a) y))

def bnArrR1 : S100000x128.Idx → EReal := fun i =>
  scaleR1 V c (ix2 0 (i 1)) * (actR1 V c (ix2 (i 0) (i 1)) - meanR1 V c (ix2 0 (i 1))) * invR1 V c (ix2 0 (i 1))
    + shiftR1 V c (ix2 0 (i 1))

-- Every point writes back its block of ONE array, which is what the cover argument asks.
theorem flushedR1_eq : (datR1 V c).flushed 5 t = ((cfg1.win 5).blk t).view.read (Elt Ideal) (bnArrR1 V c) := by
  show (cfg1.win 5).cut (grid1.coords t) ((datR1 V c).after 5 t) = _
  rw [datR1_after5, iblkR1_0_eq, iblkR1_1_eq, iblkR1_2_eq, iblkR1_3_eq, iblkR1_4_eq]
  funext j
  obtain ⟨p, q, rfl⟩ : ∃ (p : Fin 5000) (q : Fin 128), j = ix2 p q := ⟨j 0, j 1, eq_ix2 j⟩
  have hlt : 5000 * t.val + p.val < 100000 := by
    have ht : t.val < 20 := (N_1 : cfg1.N = 20) ▸ t.isLt
    have := p.isLt
    omega
  show (k1_pay1 (F := Ideal) _ _ _ _ _ : S5000x128.Idx → EReal) (ix2 p q) = bnArrR1 V c (((cfg1.win 5).blk t).view.emb (ix2 p q))
  unfold k1_pay1
  simp only [shapeCast_self]
  refine (bnPay_apply _ _ _ _ _ p q).trans ?_
  rw [emb_outR1 t p q ⟨_, hlt⟩ rfl]
  rfl

-- Row n lies in the block of point n / 5000, at local row n % 5000.
theorem cover_outR1 (i : S100000x128.Idx) :
    ∃ t : Fin cfg1.N, (cfg1.win 5).flush t = true ∧ i ∈ ((cfg1.win 5).blk t).view.set := by
  have h0 : (i 0).val < 100000 := (i 0).isLt
  have hq : (i 0).val / 5000 < cfg1.N := by rw [show cfg1.N = 20 from N_1]; omega
  obtain ⟨p, hp⟩ : ∃ p : Fin 5000, (i 0).val = 5000 * ((i 0).val / 5000) + p.val :=
    ⟨⟨_, Nat.mod_lt _ (by decide)⟩, (Nat.div_add_mod _ _).symm⟩
  have h := ((cfg1.win 5).blk ⟨_, hq⟩).view.emb_mem_set (ix2 p (i 1))
  rw [emb_outR1 ⟨_, hq⟩ p (i 1) (i 0) hp] at h
  exact ⟨_, flush1_5 _, (congrArg (· ∈ _) (eq_ix2 i)).mpr h⟩

theorem bnR1_value (n : Fin 100000) (d : Fin 128) :
    ((datR1 V c).arrAt 5 cfg1.N : S100000x128.Idx → EReal) (ix2 n d)
      = scaleR1 V c (ix2 0 d) * (actR1 V c (ix2 n d) - meanR1 V c (ix2 0 d)) * invR1 V c (ix2 0 d) + shiftR1 V c (ix2 0 d) :=
  congrFun ((datR1 V c).arrAt_eq_of_cover 5 (bnArrR1 V c) (fun t _ => flushedR1_eq V c t) cover_outR1) _

end Cert.KernelIdeal.Hand

end
-- ==== Proof.KI.MlpCommon.lean ====
import proofs.«408502_j57071525429596_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- Into the zero block, the product at a row and column is the row's inner product with the matrix's column.
theorem matmul_ix2 (a : FVec Ideal S5000x128 .bf16) (b : FVec Ideal S128x128 .bf16) (r : Fin 5000) (d : Fin 128) :
    matmul (F := Ideal) dot_S5000x128_S128x128_S5000x128_1_0_0_1_n_n none a b (constant (F := Ideal) S5000x128 .f32 0x00000000#32) (ix2 r d)
      = ∑ k : Fin 128, a (ix2 r k) * b (ix2 k d) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  congr 1
  · exact congrArg a (Shape.idx_ext₂ rfl ((DotDims.lhsIdx_val_of_single (d := dot_S5000x128_S128x128_S5000x128_1_0_0_1_n_n) (cl := 1) rfl _ _).trans hk))
  · exact congrArg b (Shape.idx_ext₂ ((DotDims.rhsIdx_val_of_single (d := dot_S5000x128_S128x128_S5000x128_1_0_0_1_n_n) (cr := 0) rfl _ _).trans hk) rfl)

theorem zero_f32 : (FloatOps.ofBits (F := Ideal) .f32 0x00000000#32 : EReal) = 0 := Ideal.ofBits_zero_f32

-- A row plus the column sums of a block, read at a column.
theorem colsum_apply (s : Vec Ideal S1x128 .f32) (v : FVec Ideal S5000x128 .f32) (d : Fin 128) :
    addf (shapeCast S1x128 s shapeCasts_S1x128_S1x128)
      (shapeCast S1x128 (multiReduction .add [0] S128 v 0x00000000#32 reduces_S5000x128_S128 (.inl rfl) rfl)
        shapeCasts_S128_S1x128) (ix2 0 d)
      = s (ix2 0 d) + ∑ r : Fin 5000, v (ix2 r d) := by
  rw [addf_apply, shapeCast_self, shapeCast_a_1a_apply]
  refine congrArg (s (ix2 0 d) + ·) ?_
  refine (Ideal.multiReduction_add_single _ _ _ _ _ (ix1 d)).trans ?_
  exact Finset.sum_congr rfl fun r _ => congrArg v (Shape.idx_ext₂ rfl rfl)

-- A property of every rank-2 index follows from the indices (r, d); in a one-row shape, from (0, d).
theorem forall_ix2 {m n : ℕ} {P : (⟨2, ![m, n]⟩ : Shape).Idx → Prop} (h : ∀ r d, P (ix2 r d)) (j) : P j := by
  rw [eq_ix2 j]
  exact h _ _
theorem forall_row {n : ℕ} {P : (⟨2, ![1, n]⟩ : Shape).Idx → Prop} (h : ∀ d, P (ix2 0 d)) : ∀ j, P j :=
  forall_ix2 fun r d => by rw [show r = 0 from Subsingleton.elim _ _]; exact h d

-- Twenty blocks of 5000 rows partition the 100000 rows.
theorem sum_rows {N : ℕ} (hN : N = 20) (row : Fin N → Fin 5000 → Fin 100000)
    (hrow : ∀ t r, (row t r).val = 5000 * t.val + r.val) (g : Fin 100000 → EReal) :
    ∑ t ∈ Finset.range 20, (if h : t < N then ∑ r : Fin 5000, g (row ⟨t, h⟩ r) else 0) = ∑ n : Fin 100000, g n := by
  subst hN
  let e : Fin 20 × Fin 5000 ≃ Fin 100000 := finProdFinEquiv.trans (finCongr (by norm_num))
  have he : ∀ (i : Fin 20) (r : Fin 5000), (e (i, r)).val = r.val + 5000 * i.val := fun i r => rfl
  rw [Finset.sum_range, ← Equiv.sum_comp e g, Fintype.sum_prod_type]
  refine Finset.sum_congr rfl fun i _ => ?_
  rw [dif_pos i.isLt]
  exact Finset.sum_congr rfl fun r _ => congrArg g (Fin.ext (by rw [he, hrow]; exact Nat.add_comm _ _))

end Cert.KernelIdeal.Hand

end
-- ==== Proof.Spec.lean ====
import Idealize.ShloMosaic.PureOps.Ideal
import Mathlib.Data.EReal.Inv
import Mathlib.Algebra.BigOperators.Group.Finset.Basic
import Mathlib.Algebra.Order.BigOperators.Group.Finset

noncomputable section

namespace Cert.Spec

open Idealize.ShloMosaic
open scoped BigOperators

variable {ι κ α δ : Type}

def IsReal (x : EReal) : Prop := ∃ r : ℝ, x = (r : EReal)

def IsPosReal (x : EReal) : Prop := ∃ r : ℝ, 0 < r ∧ x = (r : EReal)

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (Max.max x y) := by
  obtain ⟨a, rfl⟩ := hx
  obtain ⟨b, rfl⟩ := hy
  exact ⟨Max.max a b, (EReal.coe_strictMono.monotone.map_max).symm⟩

theorem IsReal.relu {x : EReal} (hx : IsReal x) : IsReal (Max.max x 0) := hx.max isReal_zero

theorem IsReal.div {x y : EReal} (hx : IsReal x) (hy : IsReal y) : IsReal (x / y) := by
  obtain ⟨a, rfl⟩ := hx
  obtain ⟨b, rfl⟩ := hy
  exact ⟨a / b, (EReal.coe_div a b).symm⟩

theorem coe_sum (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

-- Reals are closed under addition and contain zero, so under finite sums.
theorem isReal_sum (s : Finset ι) (f : ι → EReal) (h : ∀ i ∈ s, IsReal (f i)) :
    IsReal (∑ i ∈ s, f i) :=
  Finset.sum_induction f IsReal (fun _ _ => IsReal.add) isReal_zero h

theorem isReal_sum_univ [Fintype ι] (f : ι → EReal) (h : ∀ i, IsReal (f i)) : IsReal (∑ i, f i) :=
  isReal_sum _ f fun i _ => h i

theorem exists_real_family (f : ι → EReal) (h : ∀ i, IsReal (f i)) :
    ∃ g : ι → ℝ, f = fun i => ((g i : ℝ) : EReal) :=
  ⟨fun i => (f i).toReal,
    funext fun i => (EReal.coe_toReal (isReal_iff.1 (h i)).1 (isReal_iff.1 (h i)).2).symm⟩

theorem IsReal.mul_self_nonneg {x : EReal} (hx : IsReal x) : 0 ≤ x * x := by
  obtain ⟨a, rfl⟩ := hx
  rw [← EReal.coe_mul]
  exact EReal.coe_nonneg.2 (_root_.mul_self_nonneg a)

theorem sum_univ_nonneg [Fintype ι] (f : ι → EReal) (h : ∀ i, 0 ≤ f i) : 0 ≤ ∑ i, f i :=
  Finset.sum_nonneg fun i _ => h i

theorem isReal_sum_one (s : Finset ι) : IsReal (∑ _i ∈ s, (1 : EReal)) :=
  isReal_sum s _ fun _ _ => isReal_one

theorem IsPosReal.isReal {x : EReal} (hx : IsPosReal x) : IsReal x := by
  obtain ⟨r, _, rfl⟩ := hx
  exact ⟨r, rfl⟩

theorem IsPosReal.pos {x : EReal} (hx : IsPosReal x) : 0 < x := by
  obtain ⟨r, hr, rfl⟩ := hx
  exact EReal.coe_pos.2 hr

theorem IsPosReal.ne_zero {x : EReal} (hx : IsPosReal x) : x ≠ 0 := hx.pos.ne'

theorem isPosReal_coe {r : ℝ} (hr : 0 < r) : IsPosReal (r : EReal) := ⟨r, hr, rfl⟩

theorem IsReal.isPosReal {x : EReal} (hx : IsReal x) (h : 0 < x) : IsPosReal x := by
  obtain ⟨r, rfl⟩ := hx
  exact ⟨r, EReal.coe_pos.1 h, rfl⟩

theorem IsReal.add_isPosReal {x e : EReal} (hx : IsReal x) (h0 : 0 ≤ x) (he : IsPosReal e) :
    IsPosReal (x + e) := by
  obtain ⟨a, rfl⟩ := hx
  obtain ⟨b, hb, rfl⟩ := he
  exact ⟨a + b, add_pos_of_nonneg_of_pos (EReal.coe_nonneg.1 h0) hb, (EReal.coe_add a b).symm⟩

theorem max_one_ne_zero (x : EReal) : Max.max x 1 ≠ 0 :=
  (lt_of_lt_of_le one_pos (le_max_right x 1)).ne'

theorem IsReal.max_one_isPosReal {x : EReal} (hx : IsReal x) : IsPosReal (Max.max x 1) :=
  (hx.max isReal_one).isPosReal (lt_of_lt_of_le one_pos (le_max_right x 1))

-- At a positive real r the reciprocal square root is 1/√r, again a positive real.
theorem IsPosReal.rsqrt {x : EReal} (hx : IsPosReal x) : IsPosReal (Ideal.rsqrt x) := by
  obtain ⟨r, hr, rfl⟩ := hx
  exact ⟨(Real.sqrt r)⁻¹, inv_pos.2 (Real.sqrt_pos.2 hr), by
    rw [Ideal.rsqrt_coe, if_neg (not_lt.2 hr.le), if_neg hr.ne']⟩

theorem idiv_eq_div {x y : EReal} (hy : y ≠ 0) : Ideal.div x y = x / y := by
  rw [Ideal.div, if_neg hy, div_eq_mul_inv]

theorem idiv_eq_mul_inv {x y : EReal} (hy : y ≠ 0) : Ideal.div x y = x * y⁻¹ := by
  rw [Ideal.div, if_neg hy]

section Layer
variable [Fintype ι] [Fintype κ] [Fintype α]

def mlp (X : ι → α → EReal) (W1 : α → κ → EReal) (b1 : κ → EReal) (W2 : κ → δ → EReal)
    (b2 : δ → EReal) (n : ι) (d : δ) : EReal :=
  Max.max ((∑ k, Max.max ((∑ j, X n j * W1 j k) + b1 k) 0 * W2 k d) + b2 d) 0

def mean (H : ι → δ → EReal) (c : EReal) (d : δ) : EReal := (∑ n, H n d) / c

def meanSq (H : ι → δ → EReal) (c : EReal) (d : δ) : EReal := (∑ n, H n d * H n d) / c

def varK (H : ι → δ → EReal) (c : EReal) (d : δ) : EReal :=
  meanSq H c d - mean H c d * mean H c d

def varR (H : ι → δ → EReal) (c : EReal) (d : δ) : EReal :=
  (∑ n, (H n d - mean H c d) * (H n d - mean H c d)) / (c - 0)

def bnK (H : ι → δ → EReal) (γ β : δ → EReal) (c ε : EReal) (n : ι) (d : δ) : EReal :=
  γ d * (H n d - mean H c d) * Ideal.rsqrt (varK H c d + ε) + β d

def bnR (H : ι → δ → EReal) (γ β : δ → EReal) (c ε : EReal) (n : ι) (d : δ) : EReal :=
  γ d * (H n d - mean H c d) * Ideal.rsqrt (varR H c d + ε) + β d

end Layer

end Cert.Spec

end
-- ==== Proof.KI.Mlp0Val.lean ====
import proofs.«408502_j57071525429596_1_alg».proof.Proof.KI.Mlp0
import proofs.«408502_j57071525429596_1_alg».proof.Proof.KI.MlpCommon
import proofs.«408502_j57071525429596_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem pay23R0_apply (i : S1x128.Idx) : k0_pay2 (F := Ideal) i = 0 ∧ k0_pay3 (F := Ideal) i = 0 := ⟨zero_f32, zero_f32⟩

section Region
variable (V : (c : Dev nD) → (b : Ref sig .tc) → Buf (Elt Ideal) ((c : Thread nD τ).loc b)) (c : Dev nD) (t : Fin cfg0.N)

abbrev xR0 : Vec Ideal S100000x128 .f32 := V c (Pipeline.arrRef spec0 0)
abbrev w1R0 : Vec Ideal S128x128 .f32 := V c (Pipeline.arrRef spec0 1)
abbrev b1R0 : Vec Ideal S1x128 .f32 := V c (Pipeline.arrRef spec0 2)
abbrev w2R0 : Vec Ideal S128x128 .f32 := V c (Pipeline.arrRef spec0 3)
abbrev b2R0 : Vec Ideal S1x128 .f32 := V c (Pipeline.arrRef spec0 4)

-- The perceptron of the region's five arrays.
abbrev hR0 : Fin 100000 → Fin 128 → EReal :=
  Spec.mlp (fun n j => xR0 V c (ix2 n j)) (fun j k => w1R0 V c (ix2 j k)) (fun k => b1R0 V c (ix2 0 k))
    (fun k d => w2R0 V c (ix2 k d)) (fun d => b2R0 V c (ix2 0 d))

theorem idxR0 : ∀ t : Fin cfg0.N,
    ((cfg0.win 0).index t (0 : Fin 2) = t.val ∧ (cfg0.win 0).index t (1 : Fin 2) = 0)
    ∧ (∀ a : Fin 2, (cfg0.win 1).index t a = 0) ∧ (∀ a : Fin 2, (cfg0.win 2).index t a = 0)
    ∧ (∀ a : Fin 2, (cfg0.win 3).index t a = 0) ∧ (∀ a : Fin 2, (cfg0.win 4).index t a = 0)
    ∧ ((cfg0.win 5).index t (0 : Fin 2) = t.val ∧ (cfg0.win 5).index t (1 : Fin 2) = 0)
    ∧ (∀ a : Fin 2, (cfg0.win 6).index t a = 0) ∧ (∀ a : Fin 2, (cfg0.win 7).index t a = 0) :=
  (by decide +kernel : ∀ t : Fin grid0.N, _)

def rowR0 (r : Fin 5000) : Fin 100000 :=
  ⟨5000 * t.val + r.val, by have := lt_of_lt_of_eq t.isLt (show cfg0.N = 20 from N_0); have := r.isLt; omega⟩

theorem iblk0R0_apply (r : Fin 5000) (j : Fin 128) :
    (iblkR0 V c 0 t : Vec Ideal S5000x128 .f32) (ix2 r j) = xR0 V c (ix2 (rowR0 t r) j) := by
  obtain ⟨⟨e0, e1⟩, -⟩ := idxR0 t
  refine congrArg (xR0 V c) (funext fun a => Fin.ext ?_)
  match a with
  | ⟨0, _⟩ => show (cfg0.win 0).index t (0 : Fin 2) * 5000 + 1 * r.val = 5000 * t.val + r.val; omega
  | ⟨1, _⟩ => show (cfg0.win 0).index t (1 : Fin 2) * 128 + 1 * j.val = j.val; omega

-- At block index zero on both axes a block's index is its array's index.
theorem iblk1R0_apply (j k : Fin 128) : (iblkR0 V c 1 t : Vec Ideal S128x128 .f32) (ix2 j k) = w1R0 V c (ix2 j k) :=
  congrArg (w1R0 V c) (funext fun a => Fin.ext ((cfg0.win 1).rect_emb_val_of_index_zero t a ((idxR0 t).2.1 a) _))
theorem iblk2R0_apply (u : Fin 1) (k : Fin 128) : (iblkR0 V c 2 t : Vec Ideal S1x128 .f32) (ix2 u k) = b1R0 V c (ix2 u k) :=
  congrArg (b1R0 V c) (funext fun a => Fin.ext ((cfg0.win 2).rect_emb_val_of_index_zero t a ((idxR0 t).2.2.1 a) _))
theorem iblk3R0_apply (j k : Fin 128) : (iblkR0 V c 3 t : Vec Ideal S128x128 .f32) (ix2 j k) = w2R0 V c (ix2 j k) :=
  congrArg (w2R0 V c) (funext fun a => Fin.ext ((cfg0.win 3).rect_emb_val_of_index_zero t a ((idxR0 t).2.2.2.1 a) _))
theorem iblk4R0_apply (u : Fin 1) (k : Fin 128) : (iblkR0 V c 4 t : Vec Ideal S1x128 .f32) (ix2 u k) = b2R0 V c (ix2 u k) :=
  congrArg (b2R0 V c) (funext fun a => Fin.ext ((cfg0.win 4).rect_emb_val_of_index_zero t a ((idxR0 t).2.2.2.2.1 a) _))

-- The payload at a point is the two rectified layers of the arrays at the block's rows.
theorem blockR0_apply (r : Fin 5000) (d : Fin 128) :
    k0_pay4 (F := Ideal) (iblkR0 V c 0 t) (iblkR0 V c 1 t) (iblkR0 V c 2 t) (iblkR0 V c 3 t) (iblkR0 V c 4 t) (ix2 r d)
      = hR0 V c (rowR0 t r) d := by
  unfold k0_pay4 hR0 Spec.mlp
  simp only [maximumf_apply, addf_apply, broadcast_apply, matmul_ix2, broadcastTo_1b_ab_apply, shapeCast_self,
    truncf_apply, zero_f32, iblk0R0_apply, iblk1R0_apply, iblk2R0_apply, iblk3R0_apply, iblk4R0_apply]

-- The blocks of 5000 rows cover the rows (row n is in block n / 5000), and on block t the perceptron is the payload at t.
theorem mlpR0_value5 (n : Fin 100000) (d : Fin 128) : (datR0 V c).arrAt 5 cfg0.N (ix2 n d) = hR0 V c n d := by
  refine congrFun ((datR0 V c).arrAt_eq_of_cover 5 (fun i => hR0 V c (i 0) (i 1) : Vec Ideal S100000x128 .f32)
    (fun t _ => ?_) fun i => ?_) (ix2 n d)
  · obtain ⟨-, -, -, -, -, ⟨e0, e1⟩, -⟩ := idxR0 t
    refine funext (forall_ix2 (m := 5000) (n := 128) fun r d => ?_)
    refine (blockR0_apply V c t r d).trans ?_
    have h0 : (((cfg0.win 5).blk t).view.emb (ix2 r d)) 0 = rowR0 t r :=
      Fin.ext (by show (cfg0.win 5).index t (0 : Fin 2) * 5000 + 1 * r.val = 5000 * t.val + r.val; omega)
    have h1 : (((cfg0.win 5).blk t).view.emb (ix2 r d)) 1 = d :=
      Fin.ext ((cfg0.win 5).rect_emb_val_of_index_zero t (1 : Fin 2) e1 _)
    exact (congrArg₂ (hR0 V c) h0 h1).symm
  · have hi0 := idx2_lt0 i
    have hi1 := idx2_lt1 i
    obtain ⟨t, ht⟩ : ∃ t : Fin cfg0.N, t.val = (i 0).val / 5000 := ⟨⟨_, by rw [show cfg0.N = 20 from N_0]; omega⟩, rfl⟩
    refine ⟨t, flush0_5 t, ?_⟩
    obtain ⟨-, -, -, -, -, ⟨e0, e1⟩, -⟩ := idxR0 t
    show i ∈ ((View.whole (Pipeline.arrRef spec0 5)).slice ((cfg0.win 5).rect t)).set
    rw [View.set_slice_whole, Rect.mem_set_unit]
    intro a
    match a with
    | ⟨0, _⟩ =>
      show (cfg0.win 5).index t (0 : Fin 2) * 5000 ≤ (i 0).val ∧ (i 0).val < (cfg0.win 5).index t (0 : Fin 2) * 5000 + 5000
      omega
    | ⟨1, _⟩ =>
      show (cfg0.win 5).index t (1 : Fin 2) * 128 ≤ (i 1).val ∧ (i 1).val < (cfg0.win 5).index t (1 : Fin 2) * 128 + 128
      omega

-- The column sum over block `t`'s rows of `g` of the perceptron (zero past the grid).
def blkR0 (g : EReal → EReal) (t : ℕ) (d : Fin 128) : EReal :=
  if h : t < cfg0.N then ∑ r : Fin 5000, g (hR0 V c (rowR0 ⟨t, h⟩ r) d) else 0

-- At point `t` each running row gains block `t`'s sum.
theorem stepR0 (s : Vec Ideal S1x128 .f32) (d : Fin 128) :
    k0_pay5 (F := Ideal) (iblkR0 V c 0 t) (iblkR0 V c 1 t) (iblkR0 V c 2 t) (iblkR0 V c 3 t) (iblkR0 V c 4 t) s (ix2 0 d) = s (ix2 0 d) + blkR0 V c (fun y => y) t.val d
    ∧ k0_pay1 (F := Ideal) (k0_pay4 (iblkR0 V c 0 t) (iblkR0 V c 1 t) (iblkR0 V c 2 t) (iblkR0 V c 3 t) (iblkR0 V c 4 t)) s (ix2 0 d) = s (ix2 0 d) + blkR0 V c (fun y => y * y) t.val d := by
  unfold blkR0
  rw [dif_pos t.isLt, dif_pos t.isLt]
  refine ⟨(colsum_apply s _ d).trans ?_, (colsum_apply s _ d).trans ?_⟩
  · exact congrArg (s (ix2 0 d) + ·) (Finset.sum_congr rfl fun r _ => blockR0_apply V c t r d)
  · exact congrArg (s (ix2 0 d) + ·) (Finset.sum_congr rfl fun r _ => congrArg (fun y => y * y) (blockR0_apply V c t r d))

-- After point `n` the running rows hold the sums of blocks 0 to `n`: the first is added to the zero row.
theorem accR0_apply : ∀ (n : ℕ) (h : n < cfg0.N) (d : Fin 128),
    (accR0 V c n h).1 (ix2 0 d) = ∑ t ∈ Finset.range (n + 1), blkR0 V c (fun y => y) t d
    ∧ (accR0 V c n h).2 (ix2 0 d) = ∑ t ∈ Finset.range (n + 1), blkR0 V c (fun y => y * y) t d
  | 0, h, d => ⟨(stepR0 V c ⟨0, h⟩ _ d).1.trans (by rw [(pay23R0_apply _).1, zero_add, Finset.sum_range_one]),
      (stepR0 V c ⟨0, h⟩ _ d).2.trans (by rw [(pay23R0_apply _).2, zero_add, Finset.sum_range_one])⟩
  | n + 1, h, d =>
    ⟨(stepR0 V c ⟨n + 1, h⟩ _ d).1.trans (by rw [(accR0_apply n _ d).1, Finset.sum_range_succ _ (n + 1)]),
      (stepR0 V c ⟨n + 1, h⟩ _ d).2.trans (by rw [(accR0_apply n _ d).2, Finset.sum_range_succ _ (n + 1)])⟩

-- At the last point the running rows hold the sums over all rows.
theorem lastR0 (h : t.val % 20 = 19) (d : Fin 128) :
    (accR0 V c t.val t.isLt).1 (ix2 0 d) = ∑ n : Fin 100000, hR0 V c n d
    ∧ (accR0 V c t.val t.isLt).2 (ix2 0 d) = ∑ n : Fin 100000, hR0 V c n d * hR0 V c n d := by
  have h19 : t.val + 1 = 20 := by have := lt_of_lt_of_eq t.isLt (show cfg0.N = 20 from N_0); omega
  rw [(accR0_apply V c _ _ d).1, (accR0_apply V c _ _ d).2, h19]
  exact ⟨sum_rows (N := cfg0.N) N_0 rowR0 (fun _ _ => rfl) fun n => hR0 V c n d,
    sum_rows (N := cfg0.N) N_0 rowR0 (fun _ _ => rfl) fun n => hR0 V c n d * hR0 V c n d⟩

theorem t19R0 : ∃ t : Fin cfg0.N, t.val = 19 := ⟨⟨19, by rw [show cfg0.N = 20 from N_0]; omega⟩, rfl⟩

-- The column sums over all rows of `g` of the perceptron, as a one-row array.
abbrev totR0 (g : EReal → EReal) : Vec Ideal S1x128 .f32 := fun i => ∑ n : Fin 100000, g (hR0 V c n (i 1))

theorem mlpR0_value6 (d : Fin 128) : (datR0 V c).arrAt 6 cfg0.N (ix2 0 d) = ∑ n : Fin 100000, hR0 V c n d := by
  refine congrFun ((datR0 V c).arrAt_eq_of_cover 6 (totR0 V c fun y => y) (fun t hf => ?_) fun i => ?_) (ix2 0 d)
  · refine funext (forall_row (n := 128) fun d => ?_)
    rw [View.read_apply, cast_eq]
    refine (lastR0 V c t ((flush0_6 t).mp hf) d).1.trans ?_
    exact (congrArg (fun k => ∑ n : Fin 100000, hR0 V c n k)
      (Fin.ext ((cfg0.win 6).rect_emb_val_of_index_zero t (1 : Fin 2) ((idxR0 t).2.2.2.2.2.2.1 1) (ix2 0 d)))).symm
  · obtain ⟨t, ht⟩ := t19R0
    refine ⟨t, (flush0_6 t).mpr (by omega), ?_⟩
    show i ∈ ((View.whole (Pipeline.arrRef spec0 6)).slice ((cfg0.win 6).rect t)).set
    rw [View.set_slice_whole, Rect.mem_set_unit]
    intro a
    simp only [(idxR0 t).2.2.2.2.2.2.1, Nat.zero_mul, Nat.zero_add]
    exact ⟨Nat.zero_le _, (i a).isLt⟩

theorem mlpR0_value7 (d : Fin 128) : (datR0 V c).arrAt 7 cfg0.N (ix2 0 d) = ∑ n : Fin 100000, hR0 V c n d * hR0 V c n d := by
  refine congrFun ((datR0 V c).arrAt_eq_of_cover 7 (totR0 V c fun y => y * y) (fun t hf => ?_) fun i => ?_) (ix2 0 d)
  · refine funext (forall_row (n := 128) fun d => ?_)
    rw [View.read_apply, cast_eq]
    refine (lastR0 V c t ((flush0_7 t).mp hf) d).2.trans ?_
    exact (congrArg (fun k => ∑ n : Fin 100000, hR0 V c n k * hR0 V c n k)
      (Fin.ext ((cfg0.win 7).rect_emb_val_of_index_zero t (1 : Fin 2) ((idxR0 t).2.2.2.2.2.2.2 1) (ix2 0 d)))).symm
  · obtain ⟨t, ht⟩ := t19R0
    refine ⟨t, (flush0_7 t).mpr (by omega), ?_⟩
    show i ∈ ((View.whole (Pipeline.arrRef spec0 7)).slice ((cfg0.win 7).rect t)).set
    rw [View.set_slice_whole, Rect.mem_set_unit]
    intro a
    simp only [(idxR0 t).2.2.2.2.2.2.2, Nat.zero_mul, Nat.zero_add]
    exact ⟨Nat.zero_le _, (i a).isLt⟩

end Region

end Cert.KernelIdeal.Hand

end
-- ==== Proof.KI.HostStat1.lean ====
import proofs.«408502_j57071525429596_1_alg».proof.Proof.KI.Chain
import proofs.«408502_j57071525429596_1_alg».proof.Proof.KI.BnCommon
import Idealize.ShloMosaic.Lib.ValueIdx
import Idealize.ShloMosaic.Lib.ValueLayout
import Idealize.ShloMosaic.Lib.IdealHost
import Idealize.ShloMosaic.Lib.StableHlo.Run

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (c₀ : Dev nD)

-- A reference outside every earlier stretch's writes and every region's outputs keeps its launch contents.
theorem stat1_launch (r : Ref sig .tc) (ho : ∀ K : Fin 7, r ∉ outsOf K := by decide)
    (h0 : r ∉ hostOps0_W := by decide) (h1 : r ∉ hostOps1_W := by decide) (h2 : r ∉ hostOps2_W := by decide)
    (h3 : r ∉ hostOps3_W := by decide) (h4 : r ∉ hostOps4_W := by decide) :
    W2 m c₀ (Proc.devRef .tc r) = m ((c₀ : Thread nD τ).loc r) :=
  (W2_keep m c₀ r (ho 0)).trans <| (W1_of m c₀ r h0).trans rfl

theorem hostStat1_mu (d : Fin 128) :
    (W3 m c₀ (Proc.devRef .tc main_v41) : S1x128.Idx → EReal) (ix2 0 d)
      = Ideal.div ((W2 m c₀ (Proc.devRef .tc main_v25_1) : S1x128.Idx → EReal) (ix2 0 d))
          (Ideal.ofBits .f32 0x47C35000#32) := by
  after_results
  exact meanTerm_apply _ d

theorem hostStat1_inv (d : Fin 128) :
    (W3 m c₀ (Proc.devRef .tc main_v42) : S1x128.Idx → EReal) (ix2 0 d)
      = Ideal.rsqrt
          ((Ideal.div ((W2 m c₀ (Proc.devRef .tc main_v25_2) : S1x128.Idx → EReal) (ix2 0 d))
                (Ideal.ofBits .f32 0x47C35000#32)
              - Ideal.div ((W2 m c₀ (Proc.devRef .tc main_v25_1) : S1x128.Idx → EReal) (ix2 0 d))
                  (Ideal.ofBits .f32 0x47C35000#32)
                * Ideal.div ((W2 m c₀ (Proc.devRef .tc main_v25_1) : S1x128.Idx → EReal) (ix2 0 d))
                    (Ideal.ofBits .f32 0x47C35000#32))
            + Ideal.ofBits .f32 0x3727C5AC#32) := by
  after_results
  exact invTerm_apply _ _ d

theorem hostStat1_gamma (d : Fin 128) :
    (W3 m c₀ (Proc.devRef .tc main_v43) : S1x128.Idx → EReal) (ix2 0 d)
      = (m ((c₀ : Thread nD τ).loc main_arg7) : S3x128.Idx → EReal) (ix2 (0 : Fin 3) d) := by
  after_results
  exact (rowTerm_apply (0 : Fin 3) _ slices_S3x128_S1x128_0_0 d).trans (congrFun (stat1_launch m c₀ main_arg7) _)

theorem hostStat1_beta (d : Fin 128) :
    (W3 m c₀ (Proc.devRef .tc main_v44) : S1x128.Idx → EReal) (ix2 0 d)
      = (m ((c₀ : Thread nD τ).loc main_arg8) : S3x128.Idx → EReal) (ix2 (0 : Fin 3) d) := by
  after_results
  exact (rowTerm_apply (0 : Fin 3) _ slices_S3x128_S1x128_0_0 d).trans (congrFun (stat1_launch m c₀ main_arg8) _)

theorem hostStat1_h : W3 m c₀ (Proc.devRef .tc main_v25_0) = W2 m c₀ (Proc.devRef .tc main_v25_0) :=
  W3_of m c₀ main_v25_0 (by decide)

end Cert.KernelIdeal.Hand

end
-- ==== Proof.SpecLaws.lean ====
import proofs.«408502_j57071525429596_1_alg».proof.Proof.Spec
import Mathlib.Algebra.BigOperators.Ring.Finset
import Mathlib.Tactic.FieldSimp
import Mathlib.Tactic.Ring
import Mathlib.Tactic.NormNum
import Mathlib.Tactic.Positivity

noncomputable section

namespace Cert.Spec

open Idealize.ShloMosaic
open scoped BigOperators

variable {ι κ α δ : Type}

theorem real_var_law [Fintype ι] (h : ι → ℝ) (N : ℝ) (hN : (Fintype.card ι : ℝ) = N) (hN0 : N ≠ 0) :
    (∑ i, h i * h i) / N - (∑ i, h i) / N * ((∑ i, h i) / N)
      = (∑ i, (h i - (∑ j, h j) / N) * (h i - (∑ j, h j) / N)) / N := by
  have e : ∀ i, (h i - (∑ j, h j) / N) * (h i - (∑ j, h j) / N)
      = h i * h i - 2 * ((∑ j, h j) / N) * h i + (∑ j, h j) / N * ((∑ j, h j) / N) :=
    fun i => by ring
  simp only [e, Finset.sum_add_distrib, Finset.sum_sub_distrib, ← Finset.mul_sum, Finset.sum_const,
    Finset.card_univ, nsmul_eq_mul, hN]
  field_simp
  ring

theorem var_law [Fintype ι] (H : ι → EReal) (hH : ∀ i, IsReal (H i)) {c : EReal} {N : ℝ}
    (hc : c = (N : EReal)) (hN : (Fintype.card ι : ℝ) = N) (hN0 : N ≠ 0) :
    (∑ n, H n * H n) / c - (∑ n, H n) / c * ((∑ n, H n) / c)
      = (∑ n, (H n - (∑ m, H m) / c) * (H n - (∑ m, H m) / c)) / (c - 0) := by
  obtain ⟨h, rfl⟩ := exists_real_family H hH
  subst hc
  simp only [sub_zero, ← EReal.coe_mul, coe_sum, ← EReal.coe_div, ← EReal.coe_sub]
  exact congrArg _ (real_var_law h N hN hN0)

theorem card_100000 : (Fintype.card (Fin 100000) : ℝ) = 100000 := by
  rw [Fintype.card_fin]; norm_num

section Column
variable [Fintype ι]

theorem count_isPosReal {c : EReal} {N : ℝ} (hc : c = (N : EReal)) (hN : (Fintype.card ι : ℝ) = N)
    (hN0 : N ≠ 0) : IsPosReal c :=
  hc ▸ isPosReal_coe (lt_of_le_of_ne (hN ▸ Nat.cast_nonneg _) hN0.symm)

variable (H : ι → δ → EReal) (hH : ∀ n d, IsReal (H n d)) {c : EReal}
include hH

theorem mean_isReal (hc : IsReal c) (d : δ) : IsReal (mean H c d) :=
  (isReal_sum_univ _ fun n => hH n d).div hc

theorem varR_isReal (hc : IsReal c) (d : δ) : IsReal (varR H c d) :=
  (isReal_sum_univ _ fun n =>
    ((hH n d).sub (mean_isReal H hH hc d)).mul ((hH n d).sub (mean_isReal H hH hc d))).div (hc.sub isReal_zero)

theorem varR_nonneg (hc : IsPosReal c) (d : δ) : 0 ≤ varR H c d := by
  unfold varR
  rw [sub_zero]
  exact EReal.div_nonneg (sum_univ_nonneg _ fun n =>
    ((hH n d).sub (mean_isReal H hH hc.isReal d)).mul_self_nonneg) hc.pos.le

variable {N : ℝ} (hc : c = (N : EReal)) (hN : (Fintype.card ι : ℝ) = N) (hN0 : N ≠ 0)
include hc hN hN0

theorem varK_eq_varR (d : δ) : varK H c d = varR H c d :=
  var_law (fun n => H n d) (fun n => hH n d) hc hN hN0

/-- The variance is the mean squared deviation, a nonnegative real; a positive real added keeps the root defined. -/
theorem rsqrt_varK_isPosReal {ε : EReal} (hε : IsPosReal ε) (d : δ) :
    IsPosReal (Ideal.rsqrt (varK H c d + ε)) := by
  have hp := count_isPosReal hc hN hN0
  rw [varK_eq_varR H hH hc hN hN0 d]
  exact ((varR_isReal H hH hp.isReal d).add_isPosReal (varR_nonneg H hH hp d) hε).rsqrt

end Column

theorem bnK_eq_bnR [Fintype ι] (H : ι → δ → EReal) (hH : ∀ n d, IsReal (H n d)) (γ β : δ → EReal) {c : EReal}
    {N : ℝ} (hc : c = (N : EReal)) (hN : (Fintype.card ι : ℝ) = N) (hN0 : N ≠ 0) (ε : EReal) :
    bnK H γ β c ε = bnR H γ β c ε := by
  funext n d
  unfold bnK bnR
  rw [varK_eq_varR H hH hc hN hN0 d]

theorem bnK_isReal [Fintype ι] (H : ι → δ → EReal) (hH : ∀ n d, IsReal (H n d)) {γ β : δ → EReal}
    (hγ : ∀ d, IsReal (γ d)) (hβ : ∀ d, IsReal (β d)) {c : EReal} {N : ℝ} (hc : c = (N : EReal))
    (hN : (Fintype.card ι : ℝ) = N) (hN0 : N ≠ 0) {ε : EReal} (hε : IsPosReal ε) (n : ι) (d : δ) :
    IsReal (bnK H γ β c ε n d) :=
  (((hγ d).mul ((hH n d).sub (mean_isReal H hH (count_isPosReal hc hN hN0).isReal d))).mul
    (rsqrt_varK_isPosReal H hH hc hN hN0 hε d).isReal).add (hβ d)

theorem mlp_isReal [Fintype κ] [Fintype α] {X : ι → α → EReal} {W1 : α → κ → EReal} {b1 : κ → EReal}
    {W2 : κ → δ → EReal} {b2 : δ → EReal} (hX : ∀ n j, IsReal (X n j)) (hW1 : ∀ j k, IsReal (W1 j k))
    (hb1 : ∀ k, IsReal (b1 k)) (hW2 : ∀ k d, IsReal (W2 k d)) (hb2 : ∀ d, IsReal (b2 d))
    (n : ι) (d : δ) : IsReal (mlp X W1 b1 W2 b2 n d) :=
  ((isReal_sum_univ _ fun k =>
      (((isReal_sum_univ _ fun j => (hX n j).mul (hW1 j k)).add (hb1 k)).relu).mul (hW2 k d)).add
    (hb2 d)).relu

theorem idiv_max_one (a x : EReal) :
    Ideal.div a (Max.max x 1) = a * Ideal.div 1 (Max.max x 1) := by
  rw [idiv_eq_mul_inv (max_one_ne_zero x), idiv_eq_mul_inv (max_one_ne_zero x), one_mul]

theorem bnK_of_idiv [Fintype ι] (H : ι → δ → EReal) (γ β : δ → EReal) {c : EReal} (h0 : c ≠ 0)
    (ε : EReal) (n : ι) (d : δ) :
    γ d * (H n d - Ideal.div (∑ m, H m d) c)
        * Ideal.rsqrt ((Ideal.div (∑ m, H m d * H m d) c
            - Ideal.div (∑ m, H m d) c * Ideal.div (∑ m, H m d) c) + ε) + β d
      = bnK H γ β c ε n d := by
  simp only [idiv_eq_div h0]
  rfl

theorem bnR_of_idiv [Fintype ι] (H : ι → δ → EReal) (γ β : δ → EReal) {c : EReal} (h0 : c ≠ 0)
    (ε : EReal) (n : ι) (d : δ) :
    γ d * (H n d - Ideal.div (∑ m, H m d) c)
        * Ideal.rsqrt (Ideal.div (∑ m, (H m d - Ideal.div (∑ l, H l d) c)
            * (H m d - Ideal.div (∑ l, H l d) c)) (c - 0) + ε) + β d
      = bnR H γ β c ε n d := by
  have h0' : c - 0 ≠ 0 := by rwa [sub_zero]
  simp only [idiv_eq_div h0, idiv_eq_div h0']
  rfl

theorem sitofp_zero : ((((0#32 : BitVec 32).toInt : ℤ) : ℝ) : EReal) = 0 := by simp

theorem cmp_ogt_of_lt {x y : EReal} (h : y < x) : Ideal.cmp .ogt x y = 1#1 := by
  simp [Ideal.cmp, h]

theorem IsPosReal.sub_zero_pos {c : EReal} (hc : IsPosReal c) : 0 < c - 0 := by
  rw [sub_zero]; exact hc.pos

theorem ofBits_100000 : Ideal.ofBits .f32 0x47C35000#32 = ((100000 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem ofBits_eps_isPosReal : IsPosReal (Ideal.ofBits .f32 0x3727C5AC#32) := by
  rw [ofBits_eps]
  exact isPosReal_coe (by positivity)

theorem ofBits_100000_isPosReal : IsPosReal (Ideal.ofBits .f32 0x47C35000#32) := by
  rw [ofBits_100000]
  exact isPosReal_coe (by norm_num)

theorem ofBits_inf : Ideal.ofBits .f32 0x7F800000#32 = ⊤ := by
  simp [Ideal.ofBits, Ideal.ieee]

theorem lt_of_cmp_olt {x y : EReal} (h : Ideal.cmp .olt x y = 1#1) : x < y := by
  by_contra hn
  simp [Ideal.cmp, hn] at h

theorem isReal_of_abs_lt_top {x : EReal} (h : Max.max x (-x) < ⊤) : IsReal x := by
  obtain ⟨h1, h2⟩ := max_lt_iff.1 h
  refine isReal_iff.2 ⟨h1.ne, fun e => ?_⟩
  rw [e, EReal.neg_bot] at h2
  exact lt_irrefl _ h2

theorem ofBits_100000_ne_zero : Ideal.ofBits .f32 0x47C35000#32 ≠ 0 :=
  ofBits_100000_isPosReal.ne_zero

end Cert.Spec

end
-- ==== Proof.SpecNet.lean ====
import proofs.«408502_j57071525429596_1_alg».proof.Proof.Spec
import proofs.«408502_j57071525429596_1_alg».proof.Proof.SpecLaws

noncomputable section

namespace Cert.Spec

open Idealize.ShloMosaic
open scoped BigOperators

section Net

variable (sIdx dIdx : Fin 1600000 → BitVec 32) (bW : Fin 100000 → BitVec 32)

def agg (X : Fin 100000 → Fin 128 → EReal) (n : Fin 100000) (k : Fin 128) : EReal :=
  ∑ e ∈ Finset.univ.filter (fun e : Fin 1600000 => (dIdx e).toInt = (n.val : ℤ)),
    X ⟨min (sIdx e).toInt.toNat (100000 - 1), by omega⟩ k

def layerIn (X : Fin 100000 → Fin 128 → EReal) (n : Fin 100000) (k : Fin 128) : EReal :=
  X n k + agg sIdx dIdx X n k

def layerK (W1 : Fin 128 → Fin 128 → EReal) (b1 : Fin 128 → EReal) (W2 : Fin 128 → Fin 128 → EReal)
    (b2 : Fin 128 → EReal) (γ β : Fin 128 → EReal) (c ε : EReal)
    (X : Fin 100000 → Fin 128 → EReal) : Fin 100000 → Fin 128 → EReal :=
  bnK (mlp (layerIn sIdx dIdx X) W1 b1 W2 b2) γ β c ε

def layerR (W1 : Fin 128 → Fin 128 → EReal) (b1 : Fin 128 → EReal) (W2 : Fin 128 → Fin 128 → EReal)
    (b2 : Fin 128 → EReal) (γ β : Fin 128 → EReal) (c ε : EReal)
    (X : Fin 100000 → Fin 128 → EReal) : Fin 100000 → Fin 128 → EReal :=
  bnR (mlp (layerIn sIdx dIdx X) W1 b1 W2 b2) γ β c ε

def poolSum (X : Fin 100000 → Fin 128 → EReal) (g : Fin 512) (d : Fin 128) : EReal :=
  ∑ n ∈ Finset.univ.filter (fun n : Fin 100000 => (bW n).toInt = (g.val : ℤ)), X n d

def counts (g : Fin 512) : EReal :=
  ∑ _n ∈ Finset.univ.filter (fun n : Fin 100000 => (bW n).toInt = (g.val : ℤ)), (1 : EReal)

def headK (P : Fin 512 → Fin 128 → EReal) (L1 : Fin 128 → Fin 128 → EReal) (l1 : Fin 128 → EReal)
    (L2 : Fin 128 → Fin 10 → EReal) (l2 : Fin 10 → EReal) (g : Fin 512) (k : Fin 10) : EReal :=
  (∑ j, max ((∑ d, (P g d * Ideal.div 1 (max (counts bW g) 1)) * L1 d j) + l1 j) 0 * L2 j k) + l2 k

def headR (P : Fin 512 → Fin 128 → EReal) (L1 : Fin 128 → Fin 128 → EReal) (l1 : Fin 128 → EReal)
    (L2 : Fin 128 → Fin 10 → EReal) (l2 : Fin 10 → EReal) (g : Fin 512) (k : Fin 10) : EReal :=
  (∑ j, max ((∑ d, Ideal.div (P g d) (max (counts bW g) 1) * L1 d j) + l1 j) 0 * L2 j k) + l2 k

def netK (X0 : Fin 100000 → Fin 128 → EReal) (W1s : Fin 3 → Fin 128 → Fin 128 → EReal)
    (b1s : Fin 3 → Fin 128 → EReal) (W2s : Fin 3 → Fin 128 → Fin 128 → EReal)
    (b2s : Fin 3 → Fin 128 → EReal) (γs βs : Fin 3 → Fin 128 → EReal) (c ε : EReal)
    (L1 : Fin 128 → Fin 128 → EReal) (l1 : Fin 128 → EReal) (L2 : Fin 128 → Fin 10 → EReal)
    (l2 : Fin 10 → EReal) : Fin 512 → Fin 10 → EReal :=
  headK bW (poolSum bW
    (layerK sIdx dIdx (W1s 2) (b1s 2) (W2s 2) (b2s 2) (γs 2) (βs 2) c ε
      (layerK sIdx dIdx (W1s 1) (b1s 1) (W2s 1) (b2s 1) (γs 1) (βs 1) c ε
        (layerK sIdx dIdx (W1s 0) (b1s 0) (W2s 0) (b2s 0) (γs 0) (βs 0) c ε X0)))) L1 l1 L2 l2

def netR (X0 : Fin 100000 → Fin 128 → EReal) (W1s : Fin 3 → Fin 128 → Fin 128 → EReal)
    (b1s : Fin 3 → Fin 128 → EReal) (W2s : Fin 3 → Fin 128 → Fin 128 → EReal)
    (b2s : Fin 3 → Fin 128 → EReal) (γs βs : Fin 3 → Fin 128 → EReal) (c ε : EReal)
    (L1 : Fin 128 → Fin 128 → EReal) (l1 : Fin 128 → EReal) (L2 : Fin 128 → Fin 10 → EReal)
    (l2 : Fin 10 → EReal) : Fin 512 → Fin 10 → EReal :=
  headR bW (poolSum bW
    (layerR sIdx dIdx (W1s 2) (b1s 2) (W2s 2) (b2s 2) (γs 2) (βs 2) c ε
      (layerR sIdx dIdx (W1s 1) (b1s 1) (W2s 1) (b2s 1) (γs 1) (βs 1) c ε
        (layerR sIdx dIdx (W1s 0) (b1s 0) (W2s 0) (b2s 0) (γs 0) (βs 0) c ε X0)))) L1 l1 L2 l2

section Layer

variable {X : Fin 100000 → Fin 128 → EReal} {W1 W2 : Fin 128 → Fin 128 → EReal} {b1 b2 : Fin 128 → EReal}
  {c : EReal} (hc : c = ((100000 : ℝ) : EReal)) (hX : ∀ n k, IsReal (X n k)) (hW1 : ∀ j k, IsReal (W1 j k))
  (hb1 : ∀ k, IsReal (b1 k)) (hW2 : ∀ k d, IsReal (W2 k d)) (hb2 : ∀ d, IsReal (b2 d))
include hX hW1 hb1 hW2 hb2

-- A finite matrix plus a finite sum of its rows is finite, and the perceptron of finite data is finite.
theorem mlp_layerIn_isReal (n : Fin 100000) (d : Fin 128) :
    IsReal (mlp (layerIn sIdx dIdx X) W1 b1 W2 b2 n d) :=
  mlp_isReal (X := layerIn sIdx dIdx X) (fun n k => (hX n k).add (isReal_sum _ _ fun _ _ => hX _ k))
    hW1 hb1 hW2 hb2 n d

include hc

-- On finite data the two variances agree (the variance law), so the two layers are one function.
theorem layerK_eq_layerR (γ β : Fin 128 → EReal) (ε : EReal) :
    layerK sIdx dIdx W1 b1 W2 b2 γ β c ε X = layerR sIdx dIdx W1 b1 W2 b2 γ β c ε X :=
  bnK_eq_bnR _ (mlp_layerIn_isReal sIdx dIdx hX hW1 hb1 hW2 hb2) γ β hc card_100000 (by norm_num) ε

theorem layerK_isReal {γ β : Fin 128 → EReal} {ε : EReal} (hε : IsPosReal ε) (hγ : ∀ d, IsReal (γ d))
    (hβ : ∀ d, IsReal (β d)) (n : Fin 100000) (d : Fin 128) :
    IsReal (layerK sIdx dIdx W1 b1 W2 b2 γ β c ε X n d) :=
  bnK_isReal _ (mlp_layerIn_isReal sIdx dIdx hX hW1 hb1 hW2 hb2) hγ hβ hc card_100000 (by norm_num) hε n d

end Layer

-- Dividing by the larger of the count and one is multiplying by its reciprocal.
theorem headK_eq_headR (P : Fin 512 → Fin 128 → EReal) (L1 : Fin 128 → Fin 128 → EReal)
    (l1 : Fin 128 → EReal) (L2 : Fin 128 → Fin 10 → EReal) (l2 : Fin 10 → EReal) :
    headK bW P L1 l1 L2 l2 = headR bW P L1 l1 L2 l2 := by
  funext g k
  simp only [headK, headR, ← idiv_max_one]

-- Layer by layer the two spellings agree and stay finite; the heads agree everywhere.
theorem netK_eq_netR {X0 : Fin 100000 → Fin 128 → EReal} {W1s W2s : Fin 3 → Fin 128 → Fin 128 → EReal}
    {b1s b2s γs βs : Fin 3 → Fin 128 → EReal} {c ε : EReal} (hc : c = ((100000 : ℝ) : EReal))
    (hε : IsPosReal ε) (hX0 : ∀ n k, IsReal (X0 n k)) (hW1 : ∀ l j k, IsReal (W1s l j k))
    (hb1 : ∀ l k, IsReal (b1s l k)) (hW2 : ∀ l k d, IsReal (W2s l k d))
    (hb2 : ∀ l d, IsReal (b2s l d)) (hγ : ∀ l d, IsReal (γs l d)) (hβ : ∀ l d, IsReal (βs l d))
    (L1 : Fin 128 → Fin 128 → EReal) (l1 : Fin 128 → EReal) (L2 : Fin 128 → Fin 10 → EReal)
    (l2 : Fin 10 → EReal) :
    netK sIdx dIdx bW X0 W1s b1s W2s b2s γs βs c ε L1 l1 L2 l2
      = netR sIdx dIdx bW X0 W1s b1s W2s b2s γs βs c ε L1 l1 L2 l2 := by
  have f0 := layerK_isReal sIdx dIdx hc hX0 (hW1 0) (hb1 0) (hW2 0) (hb2 0) hε (hγ 0) (hβ 0)
  have f1 := layerK_isReal sIdx dIdx hc f0 (hW1 1) (hb1 1) (hW2 1) (hb2 1) hε (hγ 1) (hβ 1)
  unfold netK netR
  rw [← layerK_eq_layerR sIdx dIdx hc hX0 (hW1 0) (hb1 0) (hW2 0) (hb2 0) (γs 0) (βs 0) ε,
    ← layerK_eq_layerR sIdx dIdx hc f0 (hW1 1) (hb1 1) (hW2 1) (hb2 1) (γs 1) (βs 1) ε,
    ← layerK_eq_layerR sIdx dIdx hc f1 (hW1 2) (hb1 2) (hW2 2) (hb2 2) (γs 2) (βs 2) ε, headK_eq_headR]

end Net

end Cert.Spec

end
-- ==== Proof.LibIndexedRows.lean ====
import Idealize.ShloMosaic.Lib.ValueIdx
import Idealize.ShloMosaic.PureOps.Contract

noncomputable section

open scoped BigOperators

namespace Idealize.ShloMosaic.IndexedRows

open Idealize.ShloMosaic Idealize.ShloMosaic.ValueIdx

theorem kept_zero (f : Fin 2 → Nat) : Shape.kept ⟨2, f⟩ [0] = [1] := by
  show (List.finRange 2).filter (· ∉ ([0] : List (Fin 2))) = [1]
  decide

theorem kept_one (f : Fin 2 → Nat) : Shape.kept ⟨2, f⟩ [1] = [0] := by
  show (List.finRange 2).filter (· ∉ ([1] : List (Fin 2))) = [0]
  decide

/-- The landing index is i exactly when each coordinate of i is the signed start plus the window offset. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq, funext_iff]
    refine forall_congr' fun a => Fin.ext_iff.trans ?_
    have := (h a).1
    show (d.start j idx a + (d.window j a : ℤ)).toNat = (i a).val ↔ _
    omega
  · rename_i h
    refine ⟨fun hf => absurd hf (by simp), fun hf => (h fun a => ?_).elim⟩
    have h1 := hf a
    have h2 := (i a).isLt
    omega

section ScatterRows
variable {N D E w : Nat} (d : ScatterDims ⟨2, ![N, D]⟩ ⟨2, ![E, 1]⟩ ⟨2, ![E, D]⟩)
  (huw : d.updateWindowDims = [1]) (hiw : d.insertedWindowDims = [0])
  (hsd : d.scatterDimsToOperandDims = [0]) (hivd : d.indexVectorDim = 1)
include huw hiw hsd hivd

section
variable (j : (⟨2, ![E, D]⟩ : Shape).Idx) (idx : IVec ⟨2, ![E, 1]⟩ w)

theorem siIdx_rows (c : Fin d.scatterDimsToOperandDims.length) (hc : c.val = 0) : d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; exact kept_one _
    exact congrArg (fun a => (j a).val) (by simp [hus])
  | ⟨1, _⟩ =>
    unfold ScatterDims.siIdx
    rw [dif_pos (by rw [hivd])]
    apply Fin.ext
    exact hc

theorem start_row : d.start j idx 0 = (idx (ix2 (j 0) 0)).toInt := by
  have hm : (0 : Fin 2) ∈ d.scatterDimsToOperandDims := by rw [hsd]; exact List.mem_singleton.mpr rfl
  unfold ScatterDims.start
  rw [dif_pos hm, siIdx_rows d huw hiw hsd hivd j _ (by simp [hsd])]
  rfl

theorem start_col : d.start j idx 1 = 0 := by
  have hm : (1 : Fin 2) ∉ d.scatterDimsToOperandDims := by
    rw [hsd]; show (1 : Fin 2) ∉ ([0] : List (Fin 2)); decide
  unfold ScatterDims.start
  rw [dif_neg hm]

theorem window_row : d.window j 0 = 0 := by
  have hm : (0 : Fin 2) ∉ d.sKept := by
    show (0 : Fin 2) ∉ Shape.kept _ d.insertedWindowDims
    rw [hiw, kept_zero]; show (0 : Fin 2) ∉ ([1] : List (Fin 2)); decide
  unfold ScatterDims.window
  rw [dif_neg hm]

theorem window_col : d.window j 1 = (j 1).val := by
  have hm : (1 : Fin 2) ∈ d.sKept := by
    show (1 : Fin 2) ∈ Shape.kept _ d.insertedWindowDims
    rw [hiw, kept_zero]; exact List.mem_singleton.mpr rfl
  unfold ScatterDims.window
  rw [dif_pos hm]
  exact congrArg (fun a => (j a).val) (by simp [huw])

theorem resultIdx?_rows (n : Fin N) (k : Fin D) :
    d.resultIdx? j idx = some (ix2 n k) ↔ (idx (ix2 (j 0) 0)).toInt = (n.val : ℤ) ∧ (j 1).val = k.val := by
  rw [resultIdx?_eq_some_iff, Fin.forall_fin_two, start_row d huw hiw hsd hivd, start_col d huw hiw hsd hivd,
    window_row d huw hiw hsd hivd, window_col d huw hiw hsd hivd]
  show (idx (ix2 (j 0) 0)).toInt + ((0 : ℕ) : ℤ) = (n.val : ℤ) ∧ (0 : ℤ) + (((j 1).val : ℕ) : ℤ) = (k.val : ℤ) ↔ _
  omega

end

/-- The updates landing on (n, k) are those of column k whose row index word reads n: re-index their sum by the row. -/
theorem host_scatterAdd_rows {φ : FTy} (x : FVec Ideal ⟨2, ![N, D]⟩ φ) (idx : IVec ⟨2, ![E, 1]⟩ w)
    (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e 0)).toInt = (n.val : ℤ)), upd (ix2 e k) := by
  have hP := fun j => resultIdx?_rows d huw hiw hsd hivd j idx n k
  have h2 : ∀ j, d.resultIdx? j idx = some (ix2 n k) → ix2 (j 0) k = j := fun j hj => by
    rw [← Fin.ext ((hP j).1 hj).2]; exact (eq_ix2 j).symm
  show Ideal.hostScatterAdd d x idx upd (ix2 n k) = _
  unfold Ideal.hostScatterAdd
  exact congrArg (x (ix2 n k) + ·) (Finset.sum_bij' (fun j _ => j 0) (fun e _ => ix2 e k)
    (fun j hj => Finset.mem_filter.2 ⟨Finset.mem_univ _, ((hP j).1 (Finset.mem_filter.1 hj).2).1⟩)
    (fun e he => Finset.mem_filter.2 ⟨Finset.mem_univ _, (hP _).2 ⟨(Finset.mem_filter.1 he).2, rfl⟩⟩)
    (fun j hj => h2 j (Finset.mem_filter.1 hj).2) (fun e _ => rfl)
    (fun j hj => congrArg upd (h2 j (Finset.mem_filter.1 hj).2).symm))

end ScatterRows

section ScatterVec
variable {N E w : Nat} (d : ScatterDims ⟨1, ![N]⟩ ⟨2, ![E, 1]⟩ ⟨1, ![E]⟩)
  (hiw : d.insertedWindowDims = [0]) (hsd : d.scatterDimsToOperandDims = [0]) (hivd : d.indexVectorDim = 1)
include hiw hsd hivd

section
variable (j : (⟨1, ![E]⟩ : Shape).Idx) (idx : IVec ⟨2, ![E, 1]⟩ w)

theorem siIdx_vec (c : Fin d.scatterDimsToOperandDims.length) (hc : c.val = 0) : d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    exact congrArg (fun a => (j a).val) (Subsingleton.elim _ _)
  | ⟨1, _⟩ =>
    unfold ScatterDims.siIdx
    rw [dif_pos (by rw [hivd])]
    apply Fin.ext
    exact hc

theorem start_vec : d.start j idx 0 = (idx (ix2 (j 0) 0)).toInt := by
  have hm : (0 : Fin 1) ∈ d.scatterDimsToOperandDims := by rw [hsd]; exact List.mem_singleton.mpr rfl
  unfold ScatterDims.start
  rw [dif_pos hm, siIdx_vec d hiw hsd hivd j _ (by simp [hsd])]
  rfl

theorem window_vec : d.window j 0 = 0 := by
  have hm : (0 : Fin 1) ∉ d.sKept := by
    show (0 : Fin 1) ∉ Shape.kept _ d.insertedWindowDims
    rw [hiw, show Shape.kept ⟨1, _⟩ [0] = [] from by
      show (List.finRange 1).filter (· ∉ ([0] : List (Fin 1))) = []
      decide]
    exact List.not_mem_nil
  unfold ScatterDims.window
  rw [dif_neg hm]

theorem resultIdx?_vec (n : Fin N) :
    d.resultIdx? j idx = some (ix1 n) ↔ (idx (ix2 (j 0) 0)).toInt = (n.val : ℤ) := by
  rw [resultIdx?_eq_some_iff, Fin.forall_fin_one, start_vec d hiw hsd hivd, window_vec d hiw hsd hivd]
  show (idx (ix2 (j 0) 0)).toInt + ((0 : ℕ) : ℤ) = (n.val : ℤ) ↔ _
  omega

end

/-- The rank-one case: entry n gains the updates whose index word reads n. -/
theorem host_scatterAdd_vec {φ : FTy} (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) := by
  have hP := fun j => resultIdx?_vec d hiw hsd hivd j idx n
  show Ideal.hostScatterAdd d x idx upd (ix1 n) = _
  unfold Ideal.hostScatterAdd
  exact congrArg (x (ix1 n) + ·) (Finset.sum_bij' (fun j _ => j 0) (fun e _ => ix1 e)
    (fun j hj => Finset.mem_filter.2 ⟨Finset.mem_univ _, (hP j).1 (Finset.mem_filter.1 hj).2⟩)
    (fun e he => Finset.mem_filter.2 ⟨Finset.mem_univ _, (hP _).2 (Finset.mem_filter.1 he).2⟩)
    (fun j _ => (eq_ix1 j).symm) (fun e _ => rfl) (fun j _ => congrArg upd (eq_ix1 j)))

end ScatterVec

section GatherRows
variable {α : Type} {N D E w : Nat} (d : GatherDims ⟨2, ![N, D]⟩ ⟨2, ![E, 1]⟩ ⟨2, ![E, D]⟩)

theorem gather_siIdx_rows (hoff : d.offsetDims = [1]) (hivd : d.indexVectorDim = 1)
    (j : (⟨2, ![E, D]⟩ : Shape).Idx) (c : Fin d.startIndexMap.length) (hc : c.val = 0) :
    d.siIdx j c = ix2 (j 0) 0 := by
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; exact kept_one _
    exact congrArg (fun a => (j a).val) (by simp [hbd])
  | ⟨1, _⟩ =>
    unfold GatherDims.siIdx
    rw [dif_pos (by rw [hivd])]
    apply Fin.ext
    exact hc

/-- The gathered entry (e, k) is the table at the clamped signed row index of e, column k. -/
theorem gather_rows (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![E, 1]⟩ w) (e : Fin E) (k : Fin D) (hN : 0 < N) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, gather_siIdx_rows d hoff hivd _ _ (by simp [hsim])]
    show min (idx (ix2 e 0)).toInt.toNat (N - d.sliceSizes 0) = min (idx (ix2 e 0)).toInt.toNat (N - 1)
    rw [hsl]
  | ⟨1, _⟩ =>
    apply Fin.ext
    have hk : (1 : Fin 2) ∈ d.sKept := by
      rw [GatherDims.mem_sKept, hcoll, hob]
      exact ⟨by show (1 : Fin 2) ∉ ([0] : List (Fin 2)); decide, List.not_mem_nil⟩
    have hm : (1 : Fin 2) ∉ d.startIndexMap := by
      rw [hsim]; show (1 : Fin 2) ∉ ([0] : List (Fin 2)); decide
    show d.start (ix2 e k) idx 1 + d.batchCoord (ix2 e k) 1 + d.offCoord (ix2 e k) 1 = k.val
    rw [GatherDims.batchCoord_eq_zero _ _ _ (hb 1)]
    unfold GatherDims.start GatherDims.offCoord
    rw [dif_neg hm, dif_pos hk]
    simp only [Nat.zero_add]
    show (ix2 e k _).val = (ix2 e k 1).val
    exact congrArg (fun a => (ix2 e k a).val) (by simp [hoff])

end GatherRows

end Idealize.ShloMosaic.IndexedRows

end
-- ==== Proof.KI.HostAgg0.lean ====
import proofs.«408502_j57071525429596_1_alg».proof.Proof.KI.Chain
import proofs.«408502_j57071525429596_1_alg».proof.Proof.Spec
import proofs.«408502_j57071525429596_1_alg».proof.Proof.SpecLaws
import proofs.«408502_j57071525429596_1_alg».proof.Proof.SpecNet
import proofs.«408502_j57071525429596_1_alg».proof.Proof.LibIndexedRows
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

def srcRow (a1 : IVec S2x1600000 32) : IVec S1600000 32 :=
  shapeCast S1600000 (extractStridedSlice S1x1600000 ![0, 0] a1 slices_S2x1600000_S1x1600000_0_0) shapeCasts_S1x1600000_S1600000

def dstRow (a1 : IVec S2x1600000 32) : IVec S1600000 32 :=
  shapeCast S1600000 (extractStridedSlice S1x1600000 ![1, 0] a1 slices_S2x1600000_S1x1600000_1_0) shapeCasts_S1x1600000_S1600000

def fixNeg (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

def srcCol (a1 : IVec S2x1600000 32) : IVec S1600000x1 32 :=
  broadcastInDim S1600000x1 ![0] bcast_S1600000_S1600000x1_0 (fixNeg (srcRow a1))

def dstCol (a1 : IVec S2x1600000 32) : IVec S1600000x1 32 :=
  broadcastInDim S1600000x1 ![0] bcast_S1600000_S1600000x1_0 (dstRow a1)

def srcW (a1 : IVec S2x1600000 32) (e : Fin 1600000) : BitVec 32 := srcCol a1 (ix2 e 0)

def dstW (a1 : IVec S2x1600000 32) (e : Fin 1600000) : BitVec 32 := dstCol a1 (ix2 e 0)

theorem aggregate_apply (X : FVec Ideal S100000x128 .f32) (a1 : IVec S2x1600000 32) (n : Fin 100000) (k : Fin 128) :
    addf X (Host.scatterAdd scatter_S100000x128_S1600000x1_S1600000x128_1_0_0_1
        (broadcastInDim S100000x128 ![] bcast_S_S100000x128 (constant (F := Ideal) S_ .f32 0x00000000#32))
        (dstCol a1)
        (Host.gather gather_S100000x128_S1600000x1_S1600000x128_1_0_n_n_0_1_1128 X (srcCol a1))) (ix2 n k)
      = Spec.layerIn (srcW a1) (dstW a1) (fun n k => X (ix2 n k)) n k := by
  rw [addf_apply, IndexedRows.host_scatterAdd_rows _ rfl rfl rfl rfl, broadcastInDim_scalar_apply, constant_apply,
    Ideal.ofBits_zero_f32, zero_add]
  unfold Spec.layerIn Spec.agg
  refine congrArg (X (ix2 n k) + ·) (Finset.sum_congr rfl fun e _ => ?_)
  exact IndexedRows.gather_rows _ rfl rfl rfl rfl rfl X (srcCol a1) e k (by norm_num)

theorem layerMat_apply (o : Nat) (A : S3x128x128.Idx → EReal) (h : S3x128x128.Slices ![o, 0, 0] S1x128x128)
    (l : Fin 3) (hl : l.val = o) (j k : Fin 128) :
    shapeCast S128x128 (extractStridedSlice S1x128x128 ![o, 0, 0] A h) shapeCasts_S1x128x128_S128x128 (ix2 j k)
      = A (ix3 l j k) := by
  rw [shapeCast_1ab_ab_apply]
  refine extractStridedSlice_apply _ _ _ _ _ fun ax => ?_
  match ax with
  | ⟨0, _⟩ => exact hl
  | ⟨1, _⟩ | ⟨2, _⟩ => exact (Nat.zero_add _).symm

theorem layerRow_apply (o : Nat) (B : S3x128.Idx → EReal) (h : S3x128.Slices ![o, 0] S1x128)
    (l : Fin 3) (hl : l.val = o) (u : Fin 1) (k : Fin 128) :
    shapeCast S1x128 (shapeCast S128 (extractStridedSlice S1x128 ![o, 0] B h) shapeCasts_S1x128_S128) shapeCasts_S128_S1x128 (ix2 u k)
      = B (ix2 l k) := by
  rw [shapeCast_a_1a_apply, shapeCast_1a_a_apply]
  exact slice2_axis0_apply o B h 0 k l (by rw [hl]; rfl)

variable (m : (ℓ : Loc nD τ sig) → Buf (Elt Ideal) ℓ)

theorem hostAgg0_in (c : Dev nD) (n : Fin 100000) (k : Fin 128) :
    (W1 m c (Proc.devRef .tc main_v14) : S100000x128.Idx → EReal) (ix2 n k)
      = Spec.layerIn (srcW (m (c, Proc.devRef .tc main_arg1))) (dstW (m (c, Proc.devRef .tc main_arg1)))
          (fun n k => (m (c, Proc.devRef .tc main_arg0) : S100000x128.Idx → EReal) (ix2 n k)) n k := by
  after_results_simp
  exact aggregate_apply _ _ n k

theorem hostAgg0_W1 (c : Dev nD) (j k : Fin 128) :
    (W1 m c (Proc.devRef .tc main_v16) : S128x128.Idx → EReal) (ix2 j k)
      = (m (c, Proc.devRef .tc main_arg3) : S3x128x128.Idx → EReal) (ix3 0 j k) := by
  after_results_simp
  exact layerMat_apply 0 _ _ 0 rfl j k

theorem hostAgg0_b1 (c : Dev nD) (u : Fin 1) (k : Fin 128) :
    (W1 m c (Proc.devRef .tc main_v23) : S1x128.Idx → EReal) (ix2 u k)
      = (m (c, Proc.devRef .tc main_arg4) : S3x128.Idx → EReal) (ix2 0 k) := by
  after_results_simp
  exact layerRow_apply 0 _ _ 0 rfl u k

theorem hostAgg0_W2 (c : Dev nD) (j k : Fin 128) :
    (W1 m c (Proc.devRef .tc main_v20) : S128x128.Idx → EReal) (ix2 j k)
      = (m (c, Proc.devRef .tc main_arg5) : S3x128x128.Idx → EReal) (ix3 0 j k) := by
  after_results_simp
  exact layerMat_apply 0 _ _ 0 rfl j k

theorem hostAgg0_b2 (c : Dev nD) (u : Fin 1) (k : Fin 128) :
    (W1 m c (Proc.devRef .tc main_v24) : S1x128.Idx → EReal) (ix2 u k)
      = (m (c, Proc.devRef .tc main_arg6) : S3x128.Idx → EReal) (ix2 0 k) := by
  after_results_simp
  exact layerRow_apply 0 _ _ 0 rfl u k

theorem W4_v1 (c : Dev nD) :
    (W4 m c (Proc.devRef .tc main_v1) : S1600000.Idx → BitVec 32) = srcRow (m (c, Proc.devRef .tc main_arg1)) :=
  (W4_keep m c main_v1 (by decide)).trans <| (W3_of m c main_v1 (by decide)).trans <|
  (W2_keep m c main_v1 (by decide)).trans (by after_results_simp <;> rfl)

theorem W4_v3 (c : Dev nD) :
    (W4 m c (Proc.devRef .tc main_v3) : S1600000.Idx → BitVec 32) = dstRow (m (c, Proc.devRef .tc main_arg1)) :=
  (W4_keep m c main_v3 (by decide)).trans <| (W3_of m c main_v3 (by decide)).trans <|
  (W2_keep m c main_v3 (by decide)).trans (by after_results_simp <;> rfl)

theorem W8_v1 (c : Dev nD) :
    (W8 m c (Proc.devRef .tc main_v1) : S1600000.Idx → BitVec 32) = srcRow (m (c, Proc.devRef .tc main_arg1)) :=
  (W8_keep m c main_v1 (by decide)).trans <| (W7_of m c main_v1 (by decide)).trans <|
  (W6_keep m c main_v1 (by decide)).trans <| (W5_of m c main_v1 (by decide)).trans (W4_v1 m c)

theorem W8_v3 (c : Dev nD) :
    (W8 m c (Proc.devRef .tc main_v3) : S1600000.Idx → BitVec 32) = dstRow (m (c, Proc.devRef .tc main_arg1)) :=
  (W8_keep m c main_v3 (by decide)).trans <| (W7_of m c main_v3 (by decide)).trans <|
  (W6_keep m c main_v3 (by decide)).trans <| (W5_of m c main_v3 (by decide)).trans (W4_v3 m c)

abbrev writtenBefore4 : List (Ref sig .tc) := hostOps0_W ++ outsOf 0 ++ hostOps1_W ++ outsOf 1

abbrev writtenBefore8 : List (Ref sig .tc) := writtenBefore4 ++ hostOps2_W ++ outsOf 2 ++ hostOps3_W ++ outsOf 3

theorem W4_launch (c : Dev nD) (r : Ref sig .tc) (h : r ∉ writtenBefore4) :
    W4 m c (Proc.devRef .tc r) = m (c, Proc.devRef .tc r) := by
  simp only [writtenBefore4, List.mem_append, not_or] at h
  exact (W4_keep m c r h.2).trans <| (W3_of m c r h.1.2).trans <| (W2_keep m c r h.1.1.2).trans <| (W1_of m c r h.1.1.1).trans rfl

theorem W8_launch (c : Dev nD) (r : Ref sig .tc) (h : r ∉ writtenBefore8) :
    W8 m c (Proc.devRef .tc r) = m (c, Proc.devRef .tc r) := by
  simp only [writtenBefore8, List.mem_append, not_or] at h
  exact (W8_keep m c r h.2).trans <| (W7_of m c r h.1.2).trans <| (W6_keep m c r h.1.1.2).trans <| (W5_of m c r h.1.1.1.2).trans
    (W4_launch m c r (by simp only [writtenBefore4, List.mem_append, not_or]; exact h.1.1.1.1))

end Cert.KernelIdeal.Hand

end
-- ==== Proof.KI.LayerVal1.lean ====
import proofs.«408502_j57071525429596_1_alg».proof.Proof.KI.Bn1Val
import proofs.«408502_j57071525429596_1_alg».proof.Proof.KI.Mlp0Val
import proofs.«408502_j57071525429596_1_alg».proof.Proof.KI.HostStat1
import proofs.«408502_j57071525429596_1_alg».proof.Proof.KI.HostAgg0
import proofs.«408502_j57071525429596_1_alg».proof.Proof.SpecLaws
import proofs.«408502_j57071525429596_1_alg».proof.Proof.SpecNet

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

-- The factors are read back one by one to the specification's, whose variance is spelt over the two column sums.
theorem layerVal1 (c : Dev nD) (n : Fin 100000) (d : Fin 128) :
    (W4 m c (Proc.devRef .tc main_v45) : S100000x128.Idx → EReal) (ix2 n d)
      = Spec.layerK (srcW (m (c, Proc.devRef .tc main_arg1))) (dstW (m (c, Proc.devRef .tc main_arg1)))
          (fun j k => (m ((c : Thread nD τ).loc main_arg3) : S3x128x128.Idx → EReal) (ix3 (0 : Fin 3) j k))
          (fun k => (m ((c : Thread nD τ).loc main_arg4) : S3x128.Idx → EReal) (ix2 (0 : Fin 3) k))
          (fun k d => (m ((c : Thread nD τ).loc main_arg5) : S3x128x128.Idx → EReal) (ix3 (0 : Fin 3) k d))
          (fun d => (m ((c : Thread nD τ).loc main_arg6) : S3x128.Idx → EReal) (ix2 (0 : Fin 3) d))
          (fun d => (m ((c : Thread nD τ).loc main_arg7) : S3x128.Idx → EReal) (ix2 (0 : Fin 3) d))
          (fun d => (m ((c : Thread nD τ).loc main_arg8) : S3x128.Idx → EReal) (ix2 (0 : Fin 3) d))
          (Ideal.ofBits .f32 0x47C35000#32) (Ideal.ofBits .f32 0x3727C5AC#32)
          (fun n k => (m ((c : Thread nD τ).loc main_arg0) : S100000x128.Idx → EReal) (ix2 n k)) n d := by
  unfold Spec.layerK
  refine Eq.trans ?_ (congrArg (fun H => Spec.bnK H _ _ _ _ n d) (show hR0 (E1 m) c = _ by
    unfold hR0
    exact congr (congr (congr (congr (congrArg _ (funext₂ (hostAgg0_in m c))) (funext₂ (hostAgg0_W1 m c)))
      (funext (hostAgg0_b1 m c 0))) (funext₂ (hostAgg0_W2 m c))) (funext (hostAgg0_b2 m c 0))))
  rw [← Spec.bnK_of_idiv _ _ _ Spec.ofBits_100000_ne_zero _ n d,
    ← mlpR0_value7 (E1 m) c d, ← mlpR0_value6 (E1 m) c d, ← mlpR0_value5 (E1 m) c n d,
    ← W2_arr m c 7, ← W2_arr m c 6, ← W2_arr m c 5,
    ← hostStat1_inv m c d, ← hostStat1_mu m c d, ← hostStat1_gamma m c d, ← hostStat1_beta m c d, ← hostStat1_h m c,
    W4_arr m c 5, bnR1_value]

end Cert.KernelIdeal.Hand

end
-- ==== Proof.KI.Bn3Val.lean ====
import proofs.«408502_j57071525429596_1_alg».proof.Proof.KI.Bn3
import proofs.«408502_j57071525429596_1_alg».proof.Proof.KI.BnCommon
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- Decided over the grid's points; every read of a block below is located by these.
theorem idxR3 : ∀ t : Fin cfg3.N,
    (∀ a, (cfg3.win 5).index t a = (cfg3.win 0).index t a)
    ∧ ((cfg3.win 5).index t (0 : Fin 2) = t.val ∧ (cfg3.win 5).index t (1 : Fin 2) = 0)
    ∧ (∀ a, (cfg3.win 1).index t a = 0) ∧ (∀ a, (cfg3.win 2).index t a = 0)
    ∧ (∀ a, (cfg3.win 3).index t a = 0) ∧ ∀ a, (cfg3.win 4).index t a = 0 :=
  (by decide +kernel : ∀ t : Fin grid3.N, _)

variable (V : (c : Dev nD) → (b : Ref sig .tc) → Buf (Elt Ideal) ((c : Thread nD τ).loc b)) (c : Dev nD) (t : Fin cfg3.N)

abbrev actR3 : S100000x128.Idx → EReal := V c (Pipeline.arrRef spec3 0)
abbrev meanR3 : S1x128.Idx → EReal := V c (Pipeline.arrRef spec3 1)
abbrev invR3 : S1x128.Idx → EReal := V c (Pipeline.arrRef spec3 2)
abbrev scaleR3 : S1x128.Idx → EReal := V c (Pipeline.arrRef spec3 3)
abbrev shiftR3 : S1x128.Idx → EReal := V c (Pipeline.arrRef spec3 4)

-- On each axis the place is the block index times the block's size plus the local coordinate.
theorem emb_outR3 (p : Fin 5000) (q : Fin 128) (n : Fin 100000) (hn : n.val = 5000 * t.val + p.val) :
    (((cfg3.win 5).blk t).view.emb (ix2 p q) : S100000x128.Idx) = ix2 n q := by
  obtain ⟨-, ⟨e0, e1⟩, -⟩ := idxR3 t
  funext a; apply Fin.ext
  match a with
  | ⟨0, _⟩ => show (cfg3.win 5).index t (0 : Fin 2) * 5000 + 1 * p.val = n.val; rw [e0, hn]; omega
  | ⟨1, _⟩ => show (cfg3.win 5).index t (1 : Fin 2) * 128 + 1 * q.val = q.val; rw [e1]; omega

-- The activations' window has the output window's block index, so its block sits at the same place.
theorem iblkR3_0_eq : iblkR3 V c 0 t = fun y => actR3 V c (((cfg3.win 5).blk t).view.emb y) :=
  funext fun y => congrArg (actR3 V c) (funext fun a => Fin.ext (congrArg (· * _ + _) ((idxR3 t).1 a))).symm

-- A zero block index on every axis puts the block at its own coordinates: each row's block is the row.
theorem iblkR3_1_eq : iblkR3 V c 1 t = meanR3 V c :=
  funext fun y => congrArg (meanR3 V c) (funext fun a => Fin.ext ((cfg3.win 1).rect_emb_val_of_index_zero t a ((idxR3 t).2.2.1 a) y))
theorem iblkR3_2_eq : iblkR3 V c 2 t = invR3 V c :=
  funext fun y => congrArg (invR3 V c) (funext fun a => Fin.ext ((cfg3.win 2).rect_emb_val_of_index_zero t a ((idxR3 t).2.2.2.1 a) y))
theorem iblkR3_3_eq : iblkR3 V c 3 t = scaleR3 V c :=
  funext fun y => congrArg (scaleR3 V c) (funext fun a => Fin.ext ((cfg3.win 3).rect_emb_val_of_index_zero t a ((idxR3 t).2.2.2.2.1 a) y))
theorem iblkR3_4_eq : iblkR3 V c 4 t = shiftR3 V c :=
  funext fun y => congrArg (shiftR3 V c) (funext fun a => Fin.ext ((cfg3.win 4).rect_emb_val_of_index_zero t a ((idxR3 t).2.2.2.2.2 a) y))

def bnArrR3 : S100000x128.Idx → EReal := fun i =>
  scaleR3 V c (ix2 0 (i 1)) * (actR3 V c (ix2 (i 0) (i 1)) - meanR3 V c (ix2 0 (i 1))) * invR3 V c (ix2 0 (i 1))
    + shiftR3 V c (ix2 0 (i 1))

-- Every point writes back its block of ONE array, which is what the cover argument asks.
theorem flushedR3_eq : (datR3 V c).flushed 5 t = ((cfg3.win 5).blk t).view.read (Elt Ideal) (bnArrR3 V c) := by
  show (cfg3.win 5).cut (grid3.coords t) ((datR3 V c).after 5 t) = _
  rw [datR3_after5, iblkR3_0_eq, iblkR3_1_eq, iblkR3_2_eq, iblkR3_3_eq, iblkR3_4_eq]
  funext j
  obtain ⟨p, q, rfl⟩ : ∃ (p : Fin 5000) (q : Fin 128), j = ix2 p q := ⟨j 0, j 1, eq_ix2 j⟩
  have hlt : 5000 * t.val + p.val < 100000 := by
    have ht : t.val < 20 := (N_3 : cfg3.N = 20) ▸ t.isLt
    have := p.isLt
    omega
  show (k3_pay1 (F := Ideal) _ _ _ _ _ : S5000x128.Idx → EReal) (ix2 p q) = bnArrR3 V c (((cfg3.win 5).blk t).view.emb (ix2 p q))
  unfold k3_pay1
  simp only [shapeCast_self]
  refine (bnPay_apply _ _ _ _ _ p q).trans ?_
  rw [emb_outR3 t p q ⟨_, hlt⟩ rfl]
  rfl

-- Row n lies in the block of point n / 5000, at local row n % 5000.
theorem cover_outR3 (i : S100000x128.Idx) :
    ∃ t : Fin cfg3.N, (cfg3.win 5).flush t = true ∧ i ∈ ((cfg3.win 5).blk t).view.set := by
  have h0 : (i 0).val < 100000 := (i 0).isLt
  have hq : (i 0).val / 5000 < cfg3.N := by rw [show cfg3.N = 20 from N_3]; omega
  obtain ⟨p, hp⟩ : ∃ p : Fin 5000, (i 0).val = 5000 * ((i 0).val / 5000) + p.val :=
    ⟨⟨_, Nat.mod_lt _ (by decide)⟩, (Nat.div_add_mod _ _).symm⟩
  have h := ((cfg3.win 5).blk ⟨_, hq⟩).view.emb_mem_set (ix2 p (i 1))
  rw [emb_outR3 ⟨_, hq⟩ p (i 1) (i 0) hp] at h
  exact ⟨_, flush3_5 _, (congrArg (· ∈ _) (eq_ix2 i)).mpr h⟩

theorem bnR3_value (n : Fin 100000) (d : Fin 128) :
    ((datR3 V c).arrAt 5 cfg3.N : S100000x128.Idx → EReal) (ix2 n d)
      = scaleR3 V c (ix2 0 d) * (actR3 V c (ix2 n d) - meanR3 V c (ix2 0 d)) * invR3 V c (ix2 0 d) + shiftR3 V c (ix2 0 d) :=
  congrFun ((datR3 V c).arrAt_eq_of_cover 5 (bnArrR3 V c) (fun t _ => flushedR3_eq V c t) cover_outR3) _

end Cert.KernelIdeal.Hand

end
-- ==== Proof.KI.Mlp2Val.lean ====
import proofs.«408502_j57071525429596_1_alg».proof.Proof.KI.Mlp2
import proofs.«408502_j57071525429596_1_alg».proof.Proof.KI.MlpCommon
import proofs.«408502_j57071525429596_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem pay23R2_apply (i : S1x128.Idx) : k2_pay2 (F := Ideal) i = 0 ∧ k2_pay3 (F := Ideal) i = 0 := ⟨zero_f32, zero_f32⟩

section Region
variable (V : (c : Dev nD) → (b : Ref sig .tc) → Buf (Elt Ideal) ((c : Thread nD τ).loc b)) (c : Dev nD) (t : Fin cfg2.N)

abbrev xR2 : Vec Ideal S100000x128 .f32 := V c (Pipeline.arrRef spec2 0)
abbrev w1R2 : Vec Ideal S128x128 .f32 := V c (Pipeline.arrRef spec2 1)
abbrev b1R2 : Vec Ideal S1x128 .f32 := V c (Pipeline.arrRef spec2 2)
abbrev w2R2 : Vec Ideal S128x128 .f32 := V c (Pipeline.arrRef spec2 3)
abbrev b2R2 : Vec Ideal S1x128 .f32 := V c (Pipeline.arrRef spec2 4)

-- The perceptron of the region's five arrays.
abbrev hR2 : Fin 100000 → Fin 128 → EReal :=
  Spec.mlp (fun n j => xR2 V c (ix2 n j)) (fun j k => w1R2 V c (ix2 j k)) (fun k => b1R2 V c (ix2 0 k))
    (fun k d => w2R2 V c (ix2 k d)) (fun d => b2R2 V c (ix2 0 d))

theorem idxR2 : ∀ t : Fin cfg2.N,
    ((cfg2.win 0).index t (0 : Fin 2) = t.val ∧ (cfg2.win 0).index t (1 : Fin 2) = 0)
    ∧ (∀ a : Fin 2, (cfg2.win 1).index t a = 0) ∧ (∀ a : Fin 2, (cfg2.win 2).index t a = 0)
    ∧ (∀ a : Fin 2, (cfg2.win 3).index t a = 0) ∧ (∀ a : Fin 2, (cfg2.win 4).index t a = 0)
    ∧ ((cfg2.win 5).index t (0 : Fin 2) = t.val ∧ (cfg2.win 5).index t (1 : Fin 2) = 0)
    ∧ (∀ a : Fin 2, (cfg2.win 6).index t a = 0) ∧ (∀ a : Fin 2, (cfg2.win 7).index t a = 0) :=
  (by decide +kernel : ∀ t : Fin grid2.N, _)

def rowR2 (r : Fin 5000) : Fin 100000 :=
  ⟨5000 * t.val + r.val, by have := lt_of_lt_of_eq t.isLt (show cfg2.N = 20 from N_2); have := r.isLt; omega⟩

theorem iblk0R2_apply (r : Fin 5000) (j : Fin 128) :
    (iblkR2 V c 0 t : Vec Ideal S5000x128 .f32) (ix2 r j) = xR2 V c (ix2 (rowR2 t r) j) := by
  obtain ⟨⟨e0, e1⟩, -⟩ := idxR2 t
  refine congrArg (xR2 V c) (funext fun a => Fin.ext ?_)
  match a with
  | ⟨0, _⟩ => show (cfg2.win 0).index t (0 : Fin 2) * 5000 + 1 * r.val = 5000 * t.val + r.val; omega
  | ⟨1, _⟩ => show (cfg2.win 0).index t (1 : Fin 2) * 128 + 1 * j.val = j.val; omega

-- At block index zero on both axes a block's index is its array's index.
theorem iblk1R2_apply (j k : Fin 128) : (iblkR2 V c 1 t : Vec Ideal S128x128 .f32) (ix2 j k) = w1R2 V c (ix2 j k) :=
  congrArg (w1R2 V c) (funext fun a => Fin.ext ((cfg2.win 1).rect_emb_val_of_index_zero t a ((idxR2 t).2.1 a) _))
theorem iblk2R2_apply (u : Fin 1) (k : Fin 128) : (iblkR2 V c 2 t : Vec Ideal S1x128 .f32) (ix2 u k) = b1R2 V c (ix2 u k) :=
  congrArg (b1R2 V c) (funext fun a => Fin.ext ((cfg2.win 2).rect_emb_val_of_index_zero t a ((idxR2 t).2.2.1 a) _))
theorem iblk3R2_apply (j k : Fin 128) : (iblkR2 V c 3 t : Vec Ideal S128x128 .f32) (ix2 j k) = w2R2 V c (ix2 j k) :=
  congrArg (w2R2 V c) (funext fun a => Fin.ext ((cfg2.win 3).rect_emb_val_of_index_zero t a ((idxR2 t).2.2.2.1 a) _))
theorem iblk4R2_apply (u : Fin 1) (k : Fin 128) : (iblkR2 V c 4 t : Vec Ideal S1x128 .f32) (ix2 u k) = b2R2 V c (ix2 u k) :=
  congrArg (b2R2 V c) (funext fun a => Fin.ext ((cfg2.win 4).rect_emb_val_of_index_zero t a ((idxR2 t).2.2.2.2.1 a) _))

-- The payload at a point is the two rectified layers of the arrays at the block's rows.
theorem blockR2_apply (r : Fin 5000) (d : Fin 128) :
    k2_pay4 (F := Ideal) (iblkR2 V c 0 t) (iblkR2 V c 1 t) (iblkR2 V c 2 t) (iblkR2 V c 3 t) (iblkR2 V c 4 t) (ix2 r d)
      = hR2 V c (rowR2 t r) d := by
  unfold k2_pay4 hR2 Spec.mlp
  simp only [maximumf_apply, addf_apply, broadcast_apply, matmul_ix2, broadcastTo_1b_ab_apply, shapeCast_self,
    truncf_apply, zero_f32, iblk0R2_apply, iblk1R2_apply, iblk2R2_apply, iblk3R2_apply, iblk4R2_apply]

-- The blocks of 5000 rows cover the rows (row n is in block n / 5000), and on block t the perceptron is the payload at t.
theorem mlpR2_value5 (n : Fin 100000) (d : Fin 128) : (datR2 V c).arrAt 5 cfg2.N (ix2 n d) = hR2 V c n d := by
  refine congrFun ((datR2 V c).arrAt_eq_of_cover 5 (fun i => hR2 V c (i 0) (i 1) : Vec Ideal S100000x128 .f32)
    (fun t _ => ?_) fun i => ?_) (ix2 n d)
  · obtain ⟨-, -, -, -, -, ⟨e0, e1⟩, -⟩ := idxR2 t
    refine funext (forall_ix2 (m := 5000) (n := 128) fun r d => ?_)
    refine (blockR2_apply V c t r d).trans ?_
    have h0 : (((cfg2.win 5).blk t).view.emb (ix2 r d)) 0 = rowR2 t r :=
      Fin.ext (by show (cfg2.win 5).index t (0 : Fin 2) * 5000 + 1 * r.val = 5000 * t.val + r.val; omega)
    have h1 : (((cfg2.win 5).blk t).view.emb (ix2 r d)) 1 = d :=
      Fin.ext ((cfg2.win 5).rect_emb_val_of_index_zero t (1 : Fin 2) e1 _)
    exact (congrArg₂ (hR2 V c) h0 h1).symm
  · have hi0 := idx2_lt0 i
    have hi1 := idx2_lt1 i
    obtain ⟨t, ht⟩ : ∃ t : Fin cfg2.N, t.val = (i 0).val / 5000 := ⟨⟨_, by rw [show cfg2.N = 20 from N_2]; omega⟩, rfl⟩
    refine ⟨t, flush2_5 t, ?_⟩
    obtain ⟨-, -, -, -, -, ⟨e0, e1⟩, -⟩ := idxR2 t
    show i ∈ ((View.whole (Pipeline.arrRef spec2 5)).slice ((cfg2.win 5).rect t)).set
    rw [View.set_slice_whole, Rect.mem_set_unit]
    intro a
    match a with
    | ⟨0, _⟩ =>
      show (cfg2.win 5).index t (0 : Fin 2) * 5000 ≤ (i 0).val ∧ (i 0).val < (cfg2.win 5).index t (0 : Fin 2) * 5000 + 5000
      omega
    | ⟨1, _⟩ =>
      show (cfg2.win 5).index t (1 : Fin 2) * 128 ≤ (i 1).val ∧ (i 1).val < (cfg2.win 5).index t (1 : Fin 2) * 128 + 128
      omega

-- The column sum over block `t`'s rows of `g` of the perceptron (zero past the grid).
def blkR2 (g : EReal → EReal) (t : ℕ) (d : Fin 128) : EReal :=
  if h : t < cfg2.N then ∑ r : Fin 5000, g (hR2 V c (rowR2 ⟨t, h⟩ r) d) else 0

-- At point `t` each running row gains block `t`'s sum.
theorem stepR2 (s : Vec Ideal S1x128 .f32) (d : Fin 128) :
    k2_pay5 (F := Ideal) (iblkR2 V c 0 t) (iblkR2 V c 1 t) (iblkR2 V c 2 t) (iblkR2 V c 3 t) (iblkR2 V c 4 t) s (ix2 0 d) = s (ix2 0 d) + blkR2 V c (fun y => y) t.val d
    ∧ k2_pay1 (F := Ideal) (k2_pay4 (iblkR2 V c 0 t) (iblkR2 V c 1 t) (iblkR2 V c 2 t) (iblkR2 V c 3 t) (iblkR2 V c 4 t)) s (ix2 0 d) = s (ix2 0 d) + blkR2 V c (fun y => y * y) t.val d := by
  unfold blkR2
  rw [dif_pos t.isLt, dif_pos t.isLt]
  refine ⟨(colsum_apply s _ d).trans ?_, (colsum_apply s _ d).trans ?_⟩
  · exact congrArg (s (ix2 0 d) + ·) (Finset.sum_congr rfl fun r _ => blockR2_apply V c t r d)
  · exact congrArg (s (ix2 0 d) + ·) (Finset.sum_congr rfl fun r _ => congrArg (fun y => y * y) (blockR2_apply V c t r d))

-- After point `n` the running rows hold the sums of blocks 0 to `n`: the first is added to the zero row.
theorem accR2_apply : ∀ (n : ℕ) (h : n < cfg2.N) (d : Fin 128),
    (accR2 V c n h).1 (ix2 0 d) = ∑ t ∈ Finset.range (n + 1), blkR2 V c (fun y => y) t d
    ∧ (accR2 V c n h).2 (ix2 0 d) = ∑ t ∈ Finset.range (n + 1), blkR2 V c (fun y => y * y) t d
  | 0, h, d => ⟨(stepR2 V c ⟨0, h⟩ _ d).1.trans (by rw [(pay23R2_apply _).1, zero_add, Finset.sum_range_one]),
      (stepR2 V c ⟨0, h⟩ _ d).2.trans (by rw [(pay23R2_apply _).2, zero_add, Finset.sum_range_one])⟩
  | n + 1, h, d =>
    ⟨(stepR2 V c ⟨n + 1, h⟩ _ d).1.trans (by rw [(accR2_apply n _ d).1, Finset.sum_range_succ _ (n + 1)]),
      (stepR2 V c ⟨n + 1, h⟩ _ d).2.trans (by rw [(accR2_apply n _ d).2, Finset.sum_range_succ _ (n + 1)])⟩

-- At the last point the running rows hold the sums over all rows.
theorem lastR2 (h : t.val % 20 = 19) (d : Fin 128) :
    (accR2 V c t.val t.isLt).1 (ix2 0 d) = ∑ n : Fin 100000, hR2 V c n d
    ∧ (accR2 V c t.val t.isLt).2 (ix2 0 d) = ∑ n : Fin 100000, hR2 V c n d * hR2 V c n d := by
  have h19 : t.val + 1 = 20 := by have := lt_of_lt_of_eq t.isLt (show cfg2.N = 20 from N_2); omega
  rw [(accR2_apply V c _ _ d).1, (accR2_apply V c _ _ d).2, h19]
  exact ⟨sum_rows (N := cfg2.N) N_2 rowR2 (fun _ _ => rfl) fun n => hR2 V c n d,
    sum_rows (N := cfg2.N) N_2 rowR2 (fun _ _ => rfl) fun n => hR2 V c n d * hR2 V c n d⟩

theorem t19R2 : ∃ t : Fin cfg2.N, t.val = 19 := ⟨⟨19, by rw [show cfg2.N = 20 from N_2]; omega⟩, rfl⟩

-- The column sums over all rows of `g` of the perceptron, as a one-row array.
abbrev totR2 (g : EReal → EReal) : Vec Ideal S1x128 .f32 := fun i => ∑ n : Fin 100000, g (hR2 V c n (i 1))

theorem mlpR2_value6 (d : Fin 128) : (datR2 V c).arrAt 6 cfg2.N (ix2 0 d) = ∑ n : Fin 100000, hR2 V c n d := by
  refine congrFun ((datR2 V c).arrAt_eq_of_cover 6 (totR2 V c fun y => y) (fun t hf => ?_) fun i => ?_) (ix2 0 d)
  · refine funext (forall_row (n := 128) fun d => ?_)
    rw [View.read_apply, cast_eq]
    refine (lastR2 V c t ((flush2_6 t).mp hf) d).1.trans ?_
    exact (congrArg (fun k => ∑ n : Fin 100000, hR2 V c n k)
      (Fin.ext ((cfg2.win 6).rect_emb_val_of_index_zero t (1 : Fin 2) ((idxR2 t).2.2.2.2.2.2.1 1) (ix2 0 d)))).symm
  · obtain ⟨t, ht⟩ := t19R2
    refine ⟨t, (flush2_6 t).mpr (by omega), ?_⟩
    show i ∈ ((View.whole (Pipeline.arrRef spec2 6)).slice ((cfg2.win 6).rect t)).set
    rw [View.set_slice_whole, Rect.mem_set_unit]
    intro a
    simp only [(idxR2 t).2.2.2.2.2.2.1, Nat.zero_mul, Nat.zero_add]
    exact ⟨Nat.zero_le _, (i a).isLt⟩

theorem mlpR2_value7 (d : Fin 128) : (datR2 V c).arrAt 7 cfg2.N (ix2 0 d) = ∑ n : Fin 100000, hR2 V c n d * hR2 V c n d := by
  refine congrFun ((datR2 V c).arrAt_eq_of_cover 7 (totR2 V c fun y => y * y) (fun t hf => ?_) fun i => ?_) (ix2 0 d)
  · refine funext (forall_row (n := 128) fun d => ?_)
    rw [View.read_apply, cast_eq]
    refine (lastR2 V c t ((flush2_7 t).mp hf) d).2.trans ?_
    exact (congrArg (fun k => ∑ n : Fin 100000, hR2 V c n k * hR2 V c n k)
      (Fin.ext ((cfg2.win 7).rect_emb_val_of_index_zero t (1 : Fin 2) ((idxR2 t).2.2.2.2.2.2.2 1) (ix2 0 d)))).symm
  · obtain ⟨t, ht⟩ := t19R2
    refine ⟨t, (flush2_7 t).mpr (by omega), ?_⟩
    show i ∈ ((View.whole (Pipeline.arrRef spec2 7)).slice ((cfg2.win 7).rect t)).set
    rw [View.set_slice_whole, Rect.mem_set_unit]
    intro a
    simp only [(idxR2 t).2.2.2.2.2.2.2, Nat.zero_mul, Nat.zero_add]
    exact ⟨Nat.zero_le _, (i a).isLt⟩

end Region

end Cert.KernelIdeal.Hand

end
-- ==== Proof.KI.HostStat3.lean ====
import proofs.«408502_j57071525429596_1_alg».proof.Proof.KI.Chain
import proofs.«408502_j57071525429596_1_alg».proof.Proof.KI.BnCommon
import Idealize.ShloMosaic.Lib.ValueIdx
import Idealize.ShloMosaic.Lib.ValueLayout
import Idealize.ShloMosaic.Lib.IdealHost
import Idealize.ShloMosaic.Lib.StableHlo.Run

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (c₀ : Dev nD)

-- A reference outside every earlier stretch's writes and every region's outputs keeps its launch contents.
theorem stat3_launch (r : Ref sig .tc) (ho : ∀ K : Fin 7, r ∉ outsOf K := by decide)
    (h0 : r ∉ hostOps0_W := by decide) (h1 : r ∉ hostOps1_W := by decide) (h2 : r ∉ hostOps2_W := by decide)
    (h3 : r ∉ hostOps3_W := by decide) (h4 : r ∉ hostOps4_W := by decide) :
    W6 m c₀ (Proc.devRef .tc r) = m ((c₀ : Thread nD τ).loc r) :=
  (W6_keep m c₀ r (ho 2)).trans <| (W5_of m c₀ r h2).trans <| (W4_keep m c₀ r (ho 1)).trans <| (W3_of m c₀ r h1).trans <| (W2_keep m c₀ r (ho 0)).trans <| (W1_of m c₀ r h0).trans rfl

theorem hostStat3_mu (d : Fin 128) :
    (W7 m c₀ (Proc.devRef .tc main_v83) : S1x128.Idx → EReal) (ix2 0 d)
      = Ideal.div ((W6 m c₀ (Proc.devRef .tc main_v67_1) : S1x128.Idx → EReal) (ix2 0 d))
          (Ideal.ofBits .f32 0x47C35000#32) := by
  after_results
  exact meanTerm_apply _ d

theorem hostStat3_inv (d : Fin 128) :
    (W7 m c₀ (Proc.devRef .tc main_v84) : S1x128.Idx → EReal) (ix2 0 d)
      = Ideal.rsqrt
          ((Ideal.div ((W6 m c₀ (Proc.devRef .tc main_v67_2) : S1x128.Idx → EReal) (ix2 0 d))
                (Ideal.ofBits .f32 0x47C35000#32)
              - Ideal.div ((W6 m c₀ (Proc.devRef .tc main_v67_1) : S1x128.Idx → EReal) (ix2 0 d))
                  (Ideal.ofBits .f32 0x47C35000#32)
                * Ideal.div ((W6 m c₀ (Proc.devRef .tc main_v67_1) : S1x128.Idx → EReal) (ix2 0 d))
                    (Ideal.ofBits .f32 0x47C35000#32))
            + Ideal.ofBits .f32 0x3727C5AC#32) := by
  after_results
  exact invTerm_apply _ _ d

theorem hostStat3_gamma (d : Fin 128) :
    (W7 m c₀ (Proc.devRef .tc main_v85) : S1x128.Idx → EReal) (ix2 0 d)
      = (m ((c₀ : Thread nD τ).loc main_arg7) : S3x128.Idx → EReal) (ix2 (1 : Fin 3) d) := by
  after_results
  exact (rowTerm_apply (1 : Fin 3) _ slices_S3x128_S1x128_1_0 d).trans (congrFun (stat3_launch m c₀ main_arg7) _)

theorem hostStat3_beta (d : Fin 128) :
    (W7 m c₀ (Proc.devRef .tc main_v86) : S1x128.Idx → EReal) (ix2 0 d)
      = (m ((c₀ : Thread nD τ).loc main_arg8) : S3x128.Idx → EReal) (ix2 (1 : Fin 3) d) := by
  after_results
  exact (rowTerm_apply (1 : Fin 3) _ slices_S3x128_S1x128_1_0 d).trans (congrFun (stat3_launch m c₀ main_arg8) _)

theorem hostStat3_h : W7 m c₀ (Proc.devRef .tc main_v67_0) = W6 m c₀ (Proc.devRef .tc main_v67_0) :=
  W7_of m c₀ main_v67_0 (by decide)

end Cert.KernelIdeal.Hand

end
-- ==== Proof.KI.HostAgg2.lean ====
import proofs.«408502_j57071525429596_1_alg».proof.Proof.KI.HostAgg0

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

theorem hostAgg2_in (c : Dev nD) (n : Fin 100000) (k : Fin 128) :
    (W5 m c (Proc.devRef .tc main_v56) : S100000x128.Idx → EReal) (ix2 n k)
      = Spec.layerIn (srcW (m (c, Proc.devRef .tc main_arg1))) (dstW (m (c, Proc.devRef .tc main_arg1)))
          (fun n k => (W4 m c (Proc.devRef .tc main_v45) : S100000x128.Idx → EReal) (ix2 n k)) n k := by
  after_results_simp
  rw [W4_v1, W4_v3]
  exact aggregate_apply _ _ n k

theorem hostAgg2_W1 (c : Dev nD) (j k : Fin 128) :
    (W5 m c (Proc.devRef .tc main_v58) : S128x128.Idx → EReal) (ix2 j k)
      = (m (c, Proc.devRef .tc main_arg3) : S3x128x128.Idx → EReal) (ix3 1 j k) := by
  after_results_simp
  rw [W4_launch m c main_arg3 (by decide)]
  exact layerMat_apply 1 _ _ 1 rfl j k

theorem hostAgg2_b1 (c : Dev nD) (u : Fin 1) (k : Fin 128) :
    (W5 m c (Proc.devRef .tc main_v65) : S1x128.Idx → EReal) (ix2 u k)
      = (m (c, Proc.devRef .tc main_arg4) : S3x128.Idx → EReal) (ix2 1 k) := by
  after_results_simp
  rw [W4_launch m c main_arg4 (by decide)]
  exact layerRow_apply 1 _ _ 1 rfl u k

theorem hostAgg2_W2 (c : Dev nD) (j k : Fin 128) :
    (W5 m c (Proc.devRef .tc main_v62) : S128x128.Idx → EReal) (ix2 j k)
      = (m (c, Proc.devRef .tc main_arg5) : S3x128x128.Idx → EReal) (ix3 1 j k) := by
  after_results_simp
  rw [W4_launch m c main_arg5 (by decide)]
  exact layerMat_apply 1 _ _ 1 rfl j k

theorem hostAgg2_b2 (c : Dev nD) (u : Fin 1) (k : Fin 128) :
    (W5 m c (Proc.devRef .tc main_v66) : S1x128.Idx → EReal) (ix2 u k)
      = (m (c, Proc.devRef .tc main_arg6) : S3x128.Idx → EReal) (ix2 1 k) := by
  after_results_simp
  rw [W4_launch m c main_arg6 (by decide)]
  exact layerRow_apply 1 _ _ 1 rfl u k

end Cert.KernelIdeal.Hand

end
-- ==== Proof.KI.LayerVal2.lean ====
import proofs.«408502_j57071525429596_1_alg».proof.Proof.KI.Bn3Val
import proofs.«408502_j57071525429596_1_alg».proof.Proof.KI.Mlp2Val
import proofs.«408502_j57071525429596_1_alg».proof.Proof.KI.HostStat3
import proofs.«408502_j57071525429596_1_alg».proof.Proof.KI.HostAgg2
import proofs.«408502_j57071525429596_1_alg».proof.Proof.SpecLaws
import proofs.«408502_j57071525429596_1_alg».proof.Proof.SpecNet

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

-- The factors are read back one by one to the specification's, whose variance is spelt over the two column sums.
theorem layerVal2 (c : Dev nD) (n : Fin 100000) (d : Fin 128) :
    (W8 m c (Proc.devRef .tc main_v87) : S100000x128.Idx → EReal) (ix2 n d)
      = Spec.layerK (srcW (m (c, Proc.devRef .tc main_arg1))) (dstW (m (c, Proc.devRef .tc main_arg1)))
          (fun j k => (m ((c : Thread nD τ).loc main_arg3) : S3x128x128.Idx → EReal) (ix3 (1 : Fin 3) j k))
          (fun k => (m ((c : Thread nD τ).loc main_arg4) : S3x128.Idx → EReal) (ix2 (1 : Fin 3) k))
          (fun k d => (m ((c : Thread nD τ).loc main_arg5) : S3x128x128.Idx → EReal) (ix3 (1 : Fin 3) k d))
          (fun d => (m ((c : Thread nD τ).loc main_arg6) : S3x128.Idx → EReal) (ix2 (1 : Fin 3) d))
          (fun d => (m ((c : Thread nD τ).loc main_arg7) : S3x128.Idx → EReal) (ix2 (1 : Fin 3) d))
          (fun d => (m ((c : Thread nD τ).loc main_arg8) : S3x128.Idx → EReal) (ix2 (1 : Fin 3) d))
          (Ideal.ofBits .f32 0x47C35000#32) (Ideal.ofBits .f32 0x3727C5AC#32)
          (fun n k => (W4 m c (Proc.devRef .tc main_v45) : S100000x128.Idx → EReal) (ix2 n k)) n d := by
  unfold Spec.layerK
  refine Eq.trans ?_ (congrArg (fun H => Spec.bnK H _ _ _ _ n d) (show hR2 (E5 m) c = _ by
    unfold hR2
    exact congr (congr (congr (congr (congrArg _ (funext₂ (hostAgg2_in m c))) (funext₂ (hostAgg2_W1 m c)))
      (funext (hostAgg2_b1 m c 0))) (funext₂ (hostAgg2_W2 m c))) (funext (hostAgg2_b2 m c 0))))
  rw [← Spec.bnK_of_idiv _ _ _ Spec.ofBits_100000_ne_zero _ n d,
    ← mlpR2_value7 (E5 m) c d, ← mlpR2_value6 (E5 m) c d, ← mlpR2_value5 (E5 m) c n d,
    ← W6_arr m c 7, ← W6_arr m c 6, ← W6_arr m c 5,
    ← hostStat3_inv m c d, ← hostStat3_mu m c d, ← hostStat3_gamma m c d, ← hostStat3_beta m c d, ← hostStat3_h m c,
    W8_arr m c 5, bnR3_value]

end Cert.KernelIdeal.Hand

end
-- ==== Proof.KI.Bn5Val.lean ====
import proofs.«408502_j57071525429596_1_alg».proof.Proof.KI.Bn5
import proofs.«408502_j57071525429596_1_alg».proof.Proof.KI.BnCommon
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- Decided over the grid's points; every read of a block below is located by these.
theorem idxR5 : ∀ t : Fin cfg5.N,
    (∀ a, (cfg5.win 5).index t a = (cfg5.win 0).index t a)
    ∧ ((cfg5.win 5).index t (0 : Fin 2) = t.val ∧ (cfg5.win 5).index t (1 : Fin 2) = 0)
    ∧ (∀ a, (cfg5.win 1).index t a = 0) ∧ (∀ a, (cfg5.win 2).index t a = 0)
    ∧ (∀ a, (cfg5.win 3).index t a = 0) ∧ ∀ a, (cfg5.win 4).index t a = 0 :=
  (by decide +kernel : ∀ t : Fin grid5.N, _)

variable (V : (c : Dev nD) → (b : Ref sig .tc) → Buf (Elt Ideal) ((c : Thread nD τ).loc b)) (c : Dev nD) (t : Fin cfg5.N)

abbrev actR5 : S100000x128.Idx → EReal := V c (Pipeline.arrRef spec5 0)
abbrev meanR5 : S1x128.Idx → EReal := V c (Pipeline.arrRef spec5 1)
abbrev invR5 : S1x128.Idx → EReal := V c (Pipeline.arrRef spec5 2)
abbrev scaleR5 : S1x128.Idx → EReal := V c (Pipeline.arrRef spec5 3)
abbrev shiftR5 : S1x128.Idx → EReal := V c (Pipeline.arrRef spec5 4)

-- On each axis the place is the block index times the block's size plus the local coordinate.
theorem emb_outR5 (p : Fin 5000) (q : Fin 128) (n : Fin 100000) (hn : n.val = 5000 * t.val + p.val) :
    (((cfg5.win 5).blk t).view.emb (ix2 p q) : S100000x128.Idx) = ix2 n q := by
  obtain ⟨-, ⟨e0, e1⟩, -⟩ := idxR5 t
  funext a; apply Fin.ext
  match a with
  | ⟨0, _⟩ => show (cfg5.win 5).index t (0 : Fin 2) * 5000 + 1 * p.val = n.val; rw [e0, hn]; omega
  | ⟨1, _⟩ => show (cfg5.win 5).index t (1 : Fin 2) * 128 + 1 * q.val = q.val; rw [e1]; omega

-- The activations' window has the output window's block index, so its block sits at the same place.
theorem iblkR5_0_eq : iblkR5 V c 0 t = fun y => actR5 V c (((cfg5.win 5).blk t).view.emb y) :=
  funext fun y => congrArg (actR5 V c) (funext fun a => Fin.ext (congrArg (· * _ + _) ((idxR5 t).1 a))).symm

-- A zero block index on every axis puts the block at its own coordinates: each row's block is the row.
theorem iblkR5_1_eq : iblkR5 V c 1 t = meanR5 V c :=
  funext fun y => congrArg (meanR5 V c) (funext fun a => Fin.ext ((cfg5.win 1).rect_emb_val_of_index_zero t a ((idxR5 t).2.2.1 a) y))
theorem iblkR5_2_eq : iblkR5 V c 2 t = invR5 V c :=
  funext fun y => congrArg (invR5 V c) (funext fun a => Fin.ext ((cfg5.win 2).rect_emb_val_of_index_zero t a ((idxR5 t).2.2.2.1 a) y))
theorem iblkR5_3_eq : iblkR5 V c 3 t = scaleR5 V c :=
  funext fun y => congrArg (scaleR5 V c) (funext fun a => Fin.ext ((cfg5.win 3).rect_emb_val_of_index_zero t a ((idxR5 t).2.2.2.2.1 a) y))
theorem iblkR5_4_eq : iblkR5 V c 4 t = shiftR5 V c :=
  funext fun y => congrArg (shiftR5 V c) (funext fun a => Fin.ext ((cfg5.win 4).rect_emb_val_of_index_zero t a ((idxR5 t).2.2.2.2.2 a) y))

def bnArrR5 : S100000x128.Idx → EReal := fun i =>
  scaleR5 V c (ix2 0 (i 1)) * (actR5 V c (ix2 (i 0) (i 1)) - meanR5 V c (ix2 0 (i 1))) * invR5 V c (ix2 0 (i 1))
    + shiftR5 V c (ix2 0 (i 1))

-- Every point writes back its block of ONE array, which is what the cover argument asks.
theorem flushedR5_eq : (datR5 V c).flushed 5 t = ((cfg5.win 5).blk t).view.read (Elt Ideal) (bnArrR5 V c) := by
  show (cfg5.win 5).cut (grid5.coords t) ((datR5 V c).after 5 t) = _
  rw [datR5_after5, iblkR5_0_eq, iblkR5_1_eq, iblkR5_2_eq, iblkR5_3_eq, iblkR5_4_eq]
  funext j
  obtain ⟨p, q, rfl⟩ : ∃ (p : Fin 5000) (q : Fin 128), j = ix2 p q := ⟨j 0, j 1, eq_ix2 j⟩
  have hlt : 5000 * t.val + p.val < 100000 := by
    have ht : t.val < 20 := (N_5 : cfg5.N = 20) ▸ t.isLt
    have := p.isLt
    omega
  show (k5_pay1 (F := Ideal) _ _ _ _ _ : S5000x128.Idx → EReal) (ix2 p q) = bnArrR5 V c (((cfg5.win 5).blk t).view.emb (ix2 p q))
  unfold k5_pay1
  simp only [shapeCast_self]
  refine (bnPay_apply _ _ _ _ _ p q).trans ?_
  rw [emb_outR5 t p q ⟨_, hlt⟩ rfl]
  rfl

-- Row n lies in the block of point n / 5000, at local row n % 5000.
theorem cover_outR5 (i : S100000x128.Idx) :
    ∃ t : Fin cfg5.N, (cfg5.win 5).flush t = true ∧ i ∈ ((cfg5.win 5).blk t).view.set := by
  have h0 : (i 0).val < 100000 := (i 0).isLt
  have hq : (i 0).val / 5000 < cfg5.N := by rw [show cfg5.N = 20 from N_5]; omega
  obtain ⟨p, hp⟩ : ∃ p : Fin 5000, (i 0).val = 5000 * ((i 0).val / 5000) + p.val :=
    ⟨⟨_, Nat.mod_lt _ (by decide)⟩, (Nat.div_add_mod _ _).symm⟩
  have h := ((cfg5.win 5).blk ⟨_, hq⟩).view.emb_mem_set (ix2 p (i 1))
  rw [emb_outR5 ⟨_, hq⟩ p (i 1) (i 0) hp] at h
  exact ⟨_, flush5_5 _, (congrArg (· ∈ _) (eq_ix2 i)).mpr h⟩

theorem bnR5_value (n : Fin 100000) (d : Fin 128) :
    ((datR5 V c).arrAt 5 cfg5.N : S100000x128.Idx → EReal) (ix2 n d)
      = scaleR5 V c (ix2 0 d) * (actR5 V c (ix2 n d) - meanR5 V c (ix2 0 d)) * invR5 V c (ix2 0 d) + shiftR5 V c (ix2 0 d) :=
  congrFun ((datR5 V c).arrAt_eq_of_cover 5 (bnArrR5 V c) (fun t _ => flushedR5_eq V c t) cover_outR5) _

end Cert.KernelIdeal.Hand

end
-- ==== Proof.KI.Mlp4Val.lean ====
import proofs.«408502_j57071525429596_1_alg».proof.Proof.KI.Mlp4
import proofs.«408502_j57071525429596_1_alg».proof.Proof.KI.MlpCommon
import proofs.«408502_j57071525429596_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem pay23R4_apply (i : S1x128.Idx) : k4_pay2 (F := Ideal) i = 0 ∧ k4_pay3 (F := Ideal) i = 0 := ⟨zero_f32, zero_f32⟩

section Region
variable (V : (c : Dev nD) → (b : Ref sig .tc) → Buf (Elt Ideal) ((c : Thread nD τ).loc b)) (c : Dev nD) (t : Fin cfg4.N)

abbrev xR4 : Vec Ideal S100000x128 .f32 := V c (Pipeline.arrRef spec4 0)
abbrev w1R4 : Vec Ideal S128x128 .f32 := V c (Pipeline.arrRef spec4 1)
abbrev b1R4 : Vec Ideal S1x128 .f32 := V c (Pipeline.arrRef spec4 2)
abbrev w2R4 : Vec Ideal S128x128 .f32 := V c (Pipeline.arrRef spec4 3)
abbrev b2R4 : Vec Ideal S1x128 .f32 := V c (Pipeline.arrRef spec4 4)

-- The perceptron of the region's five arrays.
abbrev hR4 : Fin 100000 → Fin 128 → EReal :=
  Spec.mlp (fun n j => xR4 V c (ix2 n j)) (fun j k => w1R4 V c (ix2 j k)) (fun k => b1R4 V c (ix2 0 k))
    (fun k d => w2R4 V c (ix2 k d)) (fun d => b2R4 V c (ix2 0 d))

theorem idxR4 : ∀ t : Fin cfg4.N,
    ((cfg4.win 0).index t (0 : Fin 2) = t.val ∧ (cfg4.win 0).index t (1 : Fin 2) = 0)
    ∧ (∀ a : Fin 2, (cfg4.win 1).index t a = 0) ∧ (∀ a : Fin 2, (cfg4.win 2).index t a = 0)
    ∧ (∀ a : Fin 2, (cfg4.win 3).index t a = 0) ∧ (∀ a : Fin 2, (cfg4.win 4).index t a = 0)
    ∧ ((cfg4.win 5).index t (0 : Fin 2) = t.val ∧ (cfg4.win 5).index t (1 : Fin 2) = 0)
    ∧ (∀ a : Fin 2, (cfg4.win 6).index t a = 0) ∧ (∀ a : Fin 2, (cfg4.win 7).index t a = 0) :=
  (by decide +kernel : ∀ t : Fin grid4.N, _)

def rowR4 (r : Fin 5000) : Fin 100000 :=
  ⟨5000 * t.val + r.val, by have := lt_of_lt_of_eq t.isLt (show cfg4.N = 20 from N_4); have := r.isLt; omega⟩

theorem iblk0R4_apply (r : Fin 5000) (j : Fin 128) :
    (iblkR4 V c 0 t : Vec Ideal S5000x128 .f32) (ix2 r j) = xR4 V c (ix2 (rowR4 t r) j) := by
  obtain ⟨⟨e0, e1⟩, -⟩ := idxR4 t
  refine congrArg (xR4 V c) (funext fun a => Fin.ext ?_)
  match a with
  | ⟨0, _⟩ => show (cfg4.win 0).index t (0 : Fin 2) * 5000 + 1 * r.val = 5000 * t.val + r.val; omega
  | ⟨1, _⟩ => show (cfg4.win 0).index t (1 : Fin 2) * 128 + 1 * j.val = j.val; omega

-- At block index zero on both axes a block's index is its array's index.
theorem iblk1R4_apply (j k : Fin 128) : (iblkR4 V c 1 t : Vec Ideal S128x128 .f32) (ix2 j k) = w1R4 V c (ix2 j k) :=
  congrArg (w1R4 V c) (funext fun a => Fin.ext ((cfg4.win 1).rect_emb_val_of_index_zero t a ((idxR4 t).2.1 a) _))
theorem iblk2R4_apply (u : Fin 1) (k : Fin 128) : (iblkR4 V c 2 t : Vec Ideal S1x128 .f32) (ix2 u k) = b1R4 V c (ix2 u k) :=
  congrArg (b1R4 V c) (funext fun a => Fin.ext ((cfg4.win 2).rect_emb_val_of_index_zero t a ((idxR4 t).2.2.1 a) _))
theorem iblk3R4_apply (j k : Fin 128) : (iblkR4 V c 3 t : Vec Ideal S128x128 .f32) (ix2 j k) = w2R4 V c (ix2 j k) :=
  congrArg (w2R4 V c) (funext fun a => Fin.ext ((cfg4.win 3).rect_emb_val_of_index_zero t a ((idxR4 t).2.2.2.1 a) _))
theorem iblk4R4_apply (u : Fin 1) (k : Fin 128) : (iblkR4 V c 4 t : Vec Ideal S1x128 .f32) (ix2 u k) = b2R4 V c (ix2 u k) :=
  congrArg (b2R4 V c) (funext fun a => Fin.ext ((cfg4.win 4).rect_emb_val_of_index_zero t a ((idxR4 t).2.2.2.2.1 a) _))

-- The payload at a point is the two rectified layers of the arrays at the block's rows.
theorem blockR4_apply (r : Fin 5000) (d : Fin 128) :
    k4_pay4 (F := Ideal) (iblkR4 V c 0 t) (iblkR4 V c 1 t) (iblkR4 V c 2 t) (iblkR4 V c 3 t) (iblkR4 V c 4 t) (ix2 r d)
      = hR4 V c (rowR4 t r) d := by
  unfold k4_pay4 hR4 Spec.mlp
  simp only [maximumf_apply, addf_apply, broadcast_apply, matmul_ix2, broadcastTo_1b_ab_apply, shapeCast_self,
    truncf_apply, zero_f32, iblk0R4_apply, iblk1R4_apply, iblk2R4_apply, iblk3R4_apply, iblk4R4_apply]

-- The blocks of 5000 rows cover the rows (row n is in block n / 5000), and on block t the perceptron is the payload at t.
theorem mlpR4_value5 (n : Fin 100000) (d : Fin 128) : (datR4 V c).arrAt 5 cfg4.N (ix2 n d) = hR4 V c n d := by
  refine congrFun ((datR4 V c).arrAt_eq_of_cover 5 (fun i => hR4 V c (i 0) (i 1) : Vec Ideal S100000x128 .f32)
    (fun t _ => ?_) fun i => ?_) (ix2 n d)
  · obtain ⟨-, -, -, -, -, ⟨e0, e1⟩, -⟩ := idxR4 t
    refine funext (forall_ix2 (m := 5000) (n := 128) fun r d => ?_)
    refine (blockR4_apply V c t r d).trans ?_
    have h0 : (((cfg4.win 5).blk t).view.emb (ix2 r d)) 0 = rowR4 t r :=
      Fin.ext (by show (cfg4.win 5).index t (0 : Fin 2) * 5000 + 1 * r.val = 5000 * t.val + r.val; omega)
    have h1 : (((cfg4.win 5).blk t).view.emb (ix2 r d)) 1 = d :=
      Fin.ext ((cfg4.win 5).rect_emb_val_of_index_zero t (1 : Fin 2) e1 _)
    exact (congrArg₂ (hR4 V c) h0 h1).symm
  · have hi0 := idx2_lt0 i
    have hi1 := idx2_lt1 i
    obtain ⟨t, ht⟩ : ∃ t : Fin cfg4.N, t.val = (i 0).val / 5000 := ⟨⟨_, by rw [show cfg4.N = 20 from N_4]; omega⟩, rfl⟩
    refine ⟨t, flush4_5 t, ?_⟩
    obtain ⟨-, -, -, -, -, ⟨e0, e1⟩, -⟩ := idxR4 t
    show i ∈ ((View.whole (Pipeline.arrRef spec4 5)).slice ((cfg4.win 5).rect t)).set
    rw [View.set_slice_whole, Rect.mem_set_unit]
    intro a
    match a with
    | ⟨0, _⟩ =>
      show (cfg4.win 5).index t (0 : Fin 2) * 5000 ≤ (i 0).val ∧ (i 0).val < (cfg4.win 5).index t (0 : Fin 2) * 5000 + 5000
      omega
    | ⟨1, _⟩ =>
      show (cfg4.win 5).index t (1 : Fin 2) * 128 ≤ (i 1).val ∧ (i 1).val < (cfg4.win 5).index t (1 : Fin 2) * 128 + 128
      omega

-- The column sum over block `t`'s rows of `g` of the perceptron (zero past the grid).
def blkR4 (g : EReal → EReal) (t : ℕ) (d : Fin 128) : EReal :=
  if h : t < cfg4.N then ∑ r : Fin 5000, g (hR4 V c (rowR4 ⟨t, h⟩ r) d) else 0

-- At point `t` each running row gains block `t`'s sum.
theorem stepR4 (s : Vec Ideal S1x128 .f32) (d : Fin 128) :
    k4_pay5 (F := Ideal) (iblkR4 V c 0 t) (iblkR4 V c 1 t) (iblkR4 V c 2 t) (iblkR4 V c 3 t) (iblkR4 V c 4 t) s (ix2 0 d) = s (ix2 0 d) + blkR4 V c (fun y => y) t.val d
    ∧ k4_pay1 (F := Ideal) (k4_pay4 (iblkR4 V c 0 t) (iblkR4 V c 1 t) (iblkR4 V c 2 t) (iblkR4 V c 3 t) (iblkR4 V c 4 t)) s (ix2 0 d) = s (ix2 0 d) + blkR4 V c (fun y => y * y) t.val d := by
  unfold blkR4
  rw [dif_pos t.isLt, dif_pos t.isLt]
  refine ⟨(colsum_apply s _ d).trans ?_, (colsum_apply s _ d).trans ?_⟩
  · exact congrArg (s (ix2 0 d) + ·) (Finset.sum_congr rfl fun r _ => blockR4_apply V c t r d)
  · exact congrArg (s (ix2 0 d) + ·) (Finset.sum_congr rfl fun r _ => congrArg (fun y => y * y) (blockR4_apply V c t r d))

-- After point `n` the running rows hold the sums of blocks 0 to `n`: the first is added to the zero row.
theorem accR4_apply : ∀ (n : ℕ) (h : n < cfg4.N) (d : Fin 128),
    (accR4 V c n h).1 (ix2 0 d) = ∑ t ∈ Finset.range (n + 1), blkR4 V c (fun y => y) t d
    ∧ (accR4 V c n h).2 (ix2 0 d) = ∑ t ∈ Finset.range (n + 1), blkR4 V c (fun y => y * y) t d
  | 0, h, d => ⟨(stepR4 V c ⟨0, h⟩ _ d).1.trans (by rw [(pay23R4_apply _).1, zero_add, Finset.sum_range_one]),
      (stepR4 V c ⟨0, h⟩ _ d).2.trans (by rw [(pay23R4_apply _).2, zero_add, Finset.sum_range_one])⟩
  | n + 1, h, d =>
    ⟨(stepR4 V c ⟨n + 1, h⟩ _ d).1.trans (by rw [(accR4_apply n _ d).1, Finset.sum_range_succ _ (n + 1)]),
      (stepR4 V c ⟨n + 1, h⟩ _ d).2.trans (by rw [(accR4_apply n _ d).2, Finset.sum_range_succ _ (n + 1)])⟩

-- At the last point the running rows hold the sums over all rows.
theorem lastR4 (h : t.val % 20 = 19) (d : Fin 128) :
    (accR4 V c t.val t.isLt).1 (ix2 0 d) = ∑ n : Fin 100000, hR4 V c n d
    ∧ (accR4 V c t.val t.isLt).2 (ix2 0 d) = ∑ n : Fin 100000, hR4 V c n d * hR4 V c n d := by
  have h19 : t.val + 1 = 20 := by have := lt_of_lt_of_eq t.isLt (show cfg4.N = 20 from N_4); omega
  rw [(accR4_apply V c _ _ d).1, (accR4_apply V c _ _ d).2, h19]
  exact ⟨sum_rows (N := cfg4.N) N_4 rowR4 (fun _ _ => rfl) fun n => hR4 V c n d,
    sum_rows (N := cfg4.N) N_4 rowR4 (fun _ _ => rfl) fun n => hR4 V c n d * hR4 V c n d⟩

theorem t19R4 : ∃ t : Fin cfg4.N, t.val = 19 := ⟨⟨19, by rw [show cfg4.N = 20 from N_4]; omega⟩, rfl⟩

-- The column sums over all rows of `g` of the perceptron, as a one-row array.
abbrev totR4 (g : EReal → EReal) : Vec Ideal S1x128 .f32 := fun i => ∑ n : Fin 100000, g (hR4 V c n (i 1))

theorem mlpR4_value6 (d : Fin 128) : (datR4 V c).arrAt 6 cfg4.N (ix2 0 d) = ∑ n : Fin 100000, hR4 V c n d := by
  refine congrFun ((datR4 V c).arrAt_eq_of_cover 6 (totR4 V c fun y => y) (fun t hf => ?_) fun i => ?_) (ix2 0 d)
  · refine funext (forall_row (n := 128) fun d => ?_)
    rw [View.read_apply, cast_eq]
    refine (lastR4 V c t ((flush4_6 t).mp hf) d).1.trans ?_
    exact (congrArg (fun k => ∑ n : Fin 100000, hR4 V c n k)
      (Fin.ext ((cfg4.win 6).rect_emb_val_of_index_zero t (1 : Fin 2) ((idxR4 t).2.2.2.2.2.2.1 1) (ix2 0 d)))).symm
  · obtain ⟨t, ht⟩ := t19R4
    refine ⟨t, (flush4_6 t).mpr (by omega), ?_⟩
    show i ∈ ((View.whole (Pipeline.arrRef spec4 6)).slice ((cfg4.win 6).rect t)).set
    rw [View.set_slice_whole, Rect.mem_set_unit]
    intro a
    simp only [(idxR4 t).2.2.2.2.2.2.1, Nat.zero_mul, Nat.zero_add]
    exact ⟨Nat.zero_le _, (i a).isLt⟩

theorem mlpR4_value7 (d : Fin 128) : (datR4 V c).arrAt 7 cfg4.N (ix2 0 d) = ∑ n : Fin 100000, hR4 V c n d * hR4 V c n d := by
  refine congrFun ((datR4 V c).arrAt_eq_of_cover 7 (totR4 V c fun y => y * y) (fun t hf => ?_) fun i => ?_) (ix2 0 d)
  · refine funext (forall_row (n := 128) fun d => ?_)
    rw [View.read_apply, cast_eq]
    refine (lastR4 V c t ((flush4_7 t).mp hf) d).2.trans ?_
    exact (congrArg (fun k => ∑ n : Fin 100000, hR4 V c n k * hR4 V c n k)
      (Fin.ext ((cfg4.win 7).rect_emb_val_of_index_zero t (1 : Fin 2) ((idxR4 t).2.2.2.2.2.2.2 1) (ix2 0 d)))).symm
  · obtain ⟨t, ht⟩ := t19R4
    refine ⟨t, (flush4_7 t).mpr (by omega), ?_⟩
    show i ∈ ((View.whole (Pipeline.arrRef spec4 7)).slice ((cfg4.win 7).rect t)).set
    rw [View.set_slice_whole, Rect.mem_set_unit]
    intro a
    simp only [(idxR4 t).2.2.2.2.2.2.2, Nat.zero_mul, Nat.zero_add]
    exact ⟨Nat.zero_le _, (i a).isLt⟩

end Region

end Cert.KernelIdeal.Hand

end
-- ==== Proof.KI.HostStat5.lean ====
import proofs.«408502_j57071525429596_1_alg».proof.Proof.KI.Chain
import proofs.«408502_j57071525429596_1_alg».proof.Proof.KI.BnCommon
import Idealize.ShloMosaic.Lib.ValueIdx
import Idealize.ShloMosaic.Lib.ValueLayout
import Idealize.ShloMosaic.Lib.IdealHost
import Idealize.ShloMosaic.Lib.StableHlo.Run

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (c₀ : Dev nD)

-- A reference outside every earlier stretch's writes and every region's outputs keeps its launch contents.
theorem stat5_launch (r : Ref sig .tc) (ho : ∀ K : Fin 7, r ∉ outsOf K := by decide)
    (h0 : r ∉ hostOps0_W := by decide) (h1 : r ∉ hostOps1_W := by decide) (h2 : r ∉ hostOps2_W := by decide)
    (h3 : r ∉ hostOps3_W := by decide) (h4 : r ∉ hostOps4_W := by decide) :
    W10 m c₀ (Proc.devRef .tc r) = m ((c₀ : Thread nD τ).loc r) :=
  (W10_keep m c₀ r (ho 4)).trans <| (W9_of m c₀ r h4).trans <| (W8_keep m c₀ r (ho 3)).trans <| (W7_of m c₀ r h3).trans <| (W6_keep m c₀ r (ho 2)).trans <| (W5_of m c₀ r h2).trans <| (W4_keep m c₀ r (ho 1)).trans <| (W3_of m c₀ r h1).trans <| (W2_keep m c₀ r (ho 0)).trans <| (W1_of m c₀ r h0).trans rfl

theorem hostStat5_mu (d : Fin 128) :
    (W11 m c₀ (Proc.devRef .tc main_v125) : S1x128.Idx → EReal) (ix2 0 d)
      = Ideal.div ((W10 m c₀ (Proc.devRef .tc main_v109_1) : S1x128.Idx → EReal) (ix2 0 d))
          (Ideal.ofBits .f32 0x47C35000#32) := by
  after_results
  exact meanTerm_apply _ d

theorem hostStat5_inv (d : Fin 128) :
    (W11 m c₀ (Proc.devRef .tc main_v126) : S1x128.Idx → EReal) (ix2 0 d)
      = Ideal.rsqrt
          ((Ideal.div ((W10 m c₀ (Proc.devRef .tc main_v109_2) : S1x128.Idx → EReal) (ix2 0 d))
                (Ideal.ofBits .f32 0x47C35000#32)
              - Ideal.div ((W10 m c₀ (Proc.devRef .tc main_v109_1) : S1x128.Idx → EReal) (ix2 0 d))
                  (Ideal.ofBits .f32 0x47C35000#32)
                * Ideal.div ((W10 m c₀ (Proc.devRef .tc main_v109_1) : S1x128.Idx → EReal) (ix2 0 d))
                    (Ideal.ofBits .f32 0x47C35000#32))
            + Ideal.ofBits .f32 0x3727C5AC#32) := by
  after_results
  exact invTerm_apply _ _ d

theorem hostStat5_gamma (d : Fin 128) :
    (W11 m c₀ (Proc.devRef .tc main_v127) : S1x128.Idx → EReal) (ix2 0 d)
      = (m ((c₀ : Thread nD τ).loc main_arg7) : S3x128.Idx → EReal) (ix2 (2 : Fin 3) d) := by
  after_results
  exact (rowTerm_apply (2 : Fin 3) _ slices_S3x128_S1x128_2_0 d).trans (congrFun (stat5_launch m c₀ main_arg7) _)

theorem hostStat5_beta (d : Fin 128) :
    (W11 m c₀ (Proc.devRef .tc main_v128) : S1x128.Idx → EReal) (ix2 0 d)
      = (m ((c₀ : Thread nD τ).loc main_arg8) : S3x128.Idx → EReal) (ix2 (2 : Fin 3) d) := by
  after_results
  exact (rowTerm_apply (2 : Fin 3) _ slices_S3x128_S1x128_2_0 d).trans (congrFun (stat5_launch m c₀ main_arg8) _)

theorem hostStat5_h : W11 m c₀ (Proc.devRef .tc main_v109_0) = W10 m c₀ (Proc.devRef .tc main_v109_0) :=
  W11_of m c₀ main_v109_0 (by decide)

end Cert.KernelIdeal.Hand

end
-- ==== Proof.KI.HostAgg4.lean ====
import proofs.«408502_j57071525429596_1_alg».proof.Proof.KI.HostAgg0

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

theorem hostAgg4_in (c : Dev nD) (n : Fin 100000) (k : Fin 128) :
    (W9 m c (Proc.devRef .tc main_v98) : S100000x128.Idx → EReal) (ix2 n k)
      = Spec.layerIn (srcW (m (c, Proc.devRef .tc main_arg1))) (dstW (m (c, Proc.devRef .tc main_arg1)))
          (fun n k => (W8 m c (Proc.devRef .tc main_v87) : S100000x128.Idx → EReal) (ix2 n k)) n k := by
  after_results_simp
  rw [W8_v1, W8_v3]
  exact aggregate_apply _ _ n k

theorem hostAgg4_W1 (c : Dev nD) (j k : Fin 128) :
    (W9 m c (Proc.devRef .tc main_v100) : S128x128.Idx → EReal) (ix2 j k)
      = (m (c, Proc.devRef .tc main_arg3) : S3x128x128.Idx → EReal) (ix3 2 j k) := by
  after_results_simp
  rw [W8_launch m c main_arg3 (by decide)]
  exact layerMat_apply 2 _ _ 2 rfl j k

theorem hostAgg4_b1 (c : Dev nD) (u : Fin 1) (k : Fin 128) :
    (W9 m c (Proc.devRef .tc main_v107) : S1x128.Idx → EReal) (ix2 u k)
      = (m (c, Proc.devRef .tc main_arg4) : S3x128.Idx → EReal) (ix2 2 k) := by
  after_results_simp
  rw [W8_launch m c main_arg4 (by decide)]
  exact layerRow_apply 2 _ _ 2 rfl u k

theorem hostAgg4_W2 (c : Dev nD) (j k : Fin 128) :
    (W9 m c (Proc.devRef .tc main_v104) : S128x128.Idx → EReal) (ix2 j k)
      = (m (c, Proc.devRef .tc main_arg5) : S3x128x128.Idx → EReal) (ix3 2 j k) := by
  after_results_simp
  rw [W8_launch m c main_arg5 (by decide)]
  exact layerMat_apply 2 _ _ 2 rfl j k

theorem hostAgg4_b2 (c : Dev nD) (u : Fin 1) (k : Fin 128) :
    (W9 m c (Proc.devRef .tc main_v108) : S1x128.Idx → EReal) (ix2 u k)
      = (m (c, Proc.devRef .tc main_arg6) : S3x128.Idx → EReal) (ix2 2 k) := by
  after_results_simp
  rw [W8_launch m c main_arg6 (by decide)]
  exact layerRow_apply 2 _ _ 2 rfl u k

end Cert.KernelIdeal.Hand

end
-- ==== Proof.KI.LayerVal3.lean ====
import proofs.«408502_j57071525429596_1_alg».proof.Proof.KI.Bn5Val
import proofs.«408502_j57071525429596_1_alg».proof.Proof.KI.Mlp4Val
import proofs.«408502_j57071525429596_1_alg».proof.Proof.KI.HostStat5
import proofs.«408502_j57071525429596_1_alg».proof.Proof.KI.HostAgg4
import proofs.«408502_j57071525429596_1_alg».proof.Proof.SpecLaws
import proofs.«408502_j57071525429596_1_alg».proof.Proof.SpecNet

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

-- The factors are read back one by one to the specification's, whose variance is spelt over the two column sums.
theorem layerVal3 (c : Dev nD) (n : Fin 100000) (d : Fin 128) :
    (W12 m c (Proc.devRef .tc main_v129) : S100000x128.Idx → EReal) (ix2 n d)
      = Spec.layerK (srcW (m (c, Proc.devRef .tc main_arg1))) (dstW (m (c, Proc.devRef .tc main_arg1)))
          (fun j k => (m ((c : Thread nD τ).loc main_arg3) : S3x128x128.Idx → EReal) (ix3 (2 : Fin 3) j k))
          (fun k => (m ((c : Thread nD τ).loc main_arg4) : S3x128.Idx → EReal) (ix2 (2 : Fin 3) k))
          (fun k d => (m ((c : Thread nD τ).loc main_arg5) : S3x128x128.Idx → EReal) (ix3 (2 : Fin 3) k d))
          (fun d => (m ((c : Thread nD τ).loc main_arg6) : S3x128.Idx → EReal) (ix2 (2 : Fin 3) d))
          (fun d => (m ((c : Thread nD τ).loc main_arg7) : S3x128.Idx → EReal) (ix2 (2 : Fin 3) d))
          (fun d => (m ((c : Thread nD τ).loc main_arg8) : S3x128.Idx → EReal) (ix2 (2 : Fin 3) d))
          (Ideal.ofBits .f32 0x47C35000#32) (Ideal.ofBits .f32 0x3727C5AC#32)
          (fun n k => (W8 m c (Proc.devRef .tc main_v87) : S100000x128.Idx → EReal) (ix2 n k)) n d := by
  unfold Spec.layerK
  refine Eq.trans ?_ (congrArg (fun H => Spec.bnK H _ _ _ _ n d) (show hR4 (E9 m) c = _ by
    unfold hR4
    exact congr (congr (congr (congr (congrArg _ (funext₂ (hostAgg4_in m c))) (funext₂ (hostAgg4_W1 m c)))
      (funext (hostAgg4_b1 m c 0))) (funext₂ (hostAgg4_W2 m c))) (funext (hostAgg4_b2 m c 0))))
  rw [← Spec.bnK_of_idiv _ _ _ Spec.ofBits_100000_ne_zero _ n d,
    ← mlpR4_value7 (E9 m) c d, ← mlpR4_value6 (E9 m) c d, ← mlpR4_value5 (E9 m) c n d,
    ← W10_arr m c 7, ← W10_arr m c 6, ← W10_arr m c 5,
    ← hostStat5_inv m c d, ← hostStat5_mu m c d, ← hostStat5_gamma m c d, ← hostStat5_beta m c d, ← hostStat5_h m c,
    W12_arr m c 5, bnR5_value]

end Cert.KernelIdeal.Hand

end
-- ==== Proof.KI.HostPool6.lean ====
import proofs.«408502_j57071525429596_1_alg».proof.Proof.KI.Chain
import proofs.«408502_j57071525429596_1_alg».proof.Proof.SpecNet
import proofs.«408502_j57071525429596_1_alg».proof.Proof.LibIndexedRows
import Idealize.ShloMosaic.Lib.ValueIdx
import Idealize.ShloMosaic.Lib.ValueLayout
import Idealize.ShloMosaic.Lib.IdealHost
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastInDim_col_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split <;> omega

theorem scatteredOnes_apply (B : IVec S100000 32) (g : Fin 512) :
    Host.scatterAdd (F := Ideal) scatter_S512_S100000x1_S100000_n_0_0_1
        (broadcastInDim S512 ![] bcast_S_S512 (constant (F := Ideal) S_ .f32 0x00000000#32))
        (broadcastInDim S100000x1 ![0] bcast_S100000_S100000x1_0 B)
        (broadcastInDim S100000 ![] bcast_S_S100000 (constant (F := Ideal) S_ .f32 0x3F800000#32)) (ix1 g)
      = Spec.counts (fun n => B (ix1 n)) g := by
  rw [IndexedRows.host_scatterAdd_vec _ rfl rfl rfl,
    broadcastInDim_scalar_apply, constant_apply, Ideal.ofBits_zero_f32, zero_add]
  unfold Spec.counts
  refine Finset.sum_congr (Finset.filter_congr fun e _ => ?_) fun e _ => ?_
  · rw [broadcastInDim_col_apply]
  · rw [broadcastInDim_scalar_apply, constant_apply, Ideal.ofBits_one_f32]

variable (m : (ℓ : Loc nD τ sig) → Buf (Elt Ideal) ℓ)

-- A reference in no write list and no region's output list holds, before the last stretch as after the last region, what was launched.
theorem pool6_launch (c₀ : Dev nD) (r : Ref sig .tc) (h : (∀ K : Fin 7, r ∉ outsOf K) ∧ r ∉ hostOps0_W ∧ r ∉ hostOps1_W
    ∧ r ∉ hostOps2_W ∧ r ∉ hostOps3_W ∧ r ∉ hostOps4_W ∧ r ∉ hostOps5_W ∧ r ∉ hostOps6_W) :
    W12 m c₀ (Proc.devRef .tc r) = m ((c₀ : Thread nD τ).loc r) :=
  let ⟨ho, h0, h1, h2, h3, h4, h5, h6⟩ := h
  ((W13_of m c₀ r h6).symm.trans (W14_keep m c₀ r (ho 6)).symm).trans (W14_launch m c₀ r ho h0 h1 h2 h3 h4 h5 h6)

theorem hostPool6_batch (c₀ : Dev nD) (n : Fin 100000) :
    (W13 m c₀ (Proc.devRef .tc main_v139) : S100000x1.Idx → BitVec 32) (ix2 n 0)
      = (m ((c₀ : Thread nD τ).loc main_arg2) : S100000.Idx → BitVec 32) (ix1 n) := by
  after_results_simp
  refine (shapeCast_a_a1_apply _ _ _ _).trans ?_
  rw [pool6_launch m c₀ main_arg2 (by decide)]

theorem hostPool6_cinv (c₀ : Dev nD) (g : Fin 512) :
    (W13 m c₀ (Proc.devRef .tc main_v138) : S512x1.Idx → EReal) (ix2 g 0)
      = Ideal.div 1
          (max (Spec.counts (fun n => (m ((c₀ : Thread nD τ).loc main_arg2) : S100000.Idx → BitVec 32) (ix1 n)) g) 1) := by
  after_results_simp
  refine (shapeCast_a_a1_apply _ _ _ _).trans ?_
  rw [hostDivf_apply, maximumf_apply, scatteredOnes_apply, broadcastInDim_scalar_apply, constant_apply,
    Ideal.ofBits_one_f32, pool6_launch m c₀ main_arg2 (by decide)]

theorem hostPool6_l1 (c₀ : Dev nD) (j : Fin 128) :
    (W13 m c₀ (Proc.devRef .tc main_v140) : S1x128.Idx → EReal) (ix2 0 j)
      = (m ((c₀ : Thread nD τ).loc main_arg10) : S128.Idx → EReal) (ix1 j) := by
  after_results_simp
  refine (shapeCast_a_1a_apply _ _ _ _).trans ?_
  rw [pool6_launch m c₀ main_arg10 (by decide)]

theorem hostPool6_l2 (c₀ : Dev nD) (k : Fin 10) :
    (W13 m c₀ (Proc.devRef .tc main_v141) : S1x10.Idx → EReal) (ix2 0 k)
      = (m ((c₀ : Thread nD τ).loc main_arg12) : S10.Idx → EReal) (ix1 k) := by
  after_results_simp
  refine (shapeCast_a_1a_apply _ _ _ _).trans ?_
  rw [pool6_launch m c₀ main_arg12 (by decide)]

theorem hostPool6_x (c₀ : Dev nD) :
    W13 m c₀ (Proc.devRef .tc main_v129) = W12 m c₀ (Proc.devRef .tc main_v129) :=
  W13_of m c₀ main_v129 (by decide)

theorem hostPool6_w1 (c₀ : Dev nD) :
    W13 m c₀ (Proc.devRef .tc main_arg9) = m ((c₀ : Thread nD τ).loc main_arg9) :=
  (W13_of m c₀ main_arg9 (by decide)).trans (pool6_launch m c₀ main_arg9 (by decide))

theorem hostPool6_w2 (c₀ : Dev nD) :
    W13 m c₀ (Proc.devRef .tc main_arg11) = m ((c₀ : Thread nD τ).loc main_arg11) :=
  (W13_of m c₀ main_arg11 (by decide)).trans (pool6_launch m c₀ main_arg11 (by decide))

end Cert.KernelIdeal.Hand

end
-- ==== Proof.KI.Pool6Val.lean ====
import proofs.«408502_j57071525429596_1_alg».proof.Proof.KI.Pool6
import proofs.«408502_j57071525429596_1_alg».proof.Proof.SpecNet
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals
import Mathlib.Data.Fintype.BigOperators

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

abbrev D2 : DotDims S5000x512 S5000x128 S512x128 := dot_S5000x512_S5000x128_S512x128_0_0_1_1_n_n
def eD2 : D2.contr.Idx ≃ Fin 5000 := contrEquiv1 D2 5000 rfl rfl
abbrev D3 : DotDims S512x128 S128x128 S512x128 := dot_S512x128_S128x128_S512x128_1_0_0_1_n_n
def eD3 : D3.contr.Idx ≃ Fin 128 := contrEquiv1 D3 128 rfl rfl
abbrev D4 : DotDims S512x128 S128x10 S512x10 := dot_S512x128_S128x10_S512x10_1_0_0_1_n_n
def eD4 : D4.contr.Idx ≃ Fin 128 := contrEquiv1 D4 128 rfl rfl
theorem onehot_word (u v : BitVec 32) :
    (FloatOps.sitofp (F := Ideal) .f32 ((IntOp.cmpi .eq u v).setWidth 32) : EReal) = if u = v then 1 else 0 := by
  show (((((IntOp.cmpi .eq u v).setWidth 32).toInt : ℤ) : ℝ) : EReal) = _
  by_cases h : u = v
  · subst h; simp [IntOp.cmpi]
  · have hb : (u == v) = false := by simpa using h
    simp [IntOp.cmpi, hb, h]

theorem toInt_ofNat_graph (g : Fin 512) : (BitVec.ofNat 32 g.val).toInt = (g.val : ℤ) := by
  rw [BitVec.toInt_eq_toNat_cond]; simp only [BitVec.toNat_ofNat]; have := g.isLt; omega

theorem word_eq_graph_iff (b : BitVec 32) (g : Fin 512) : b = BitVec.ofNat 32 g.val ↔ b.toInt = (g.val : ℤ) :=
  ⟨fun h => h ▸ toInt_ofNat_graph g, fun h => BitVec.eq_of_toInt_eq (h.trans (toInt_ofNat_graph g).symm)⟩

theorem pay2_apply (x : Vec Ideal S5000x128 .f32) (b : Vec Ideal S5000x1 .i32) (acc : Vec Ideal S512x128 .f32) (g : Fin 512) (d : Fin 128) :
    k6_pay2 x b acc (ix2 g d)
      = acc (ix2 g d) + ∑ r : Fin 5000, (if (b (ix2 r 0)).toInt = (g.val : ℤ) then x (ix2 r d) else 0) := by
  unfold k6_pay2
  simp only [shapeCast_self]
  rw [addf_apply]
  refine congrArg (acc (ix2 g d) + ·) ?_
  simp only [matmul]
  rw [Ideal.matmul_constant_zero_apply]
  rw [← Equiv.sum_comp eD2.symm]
  refine Finset.sum_congr rfl fun r _ => ?_
  rw [show D2.lhsIdx (ix2 g d) (eD2.symm r) = ix2 r g from Shape.idx_ext₂ rfl rfl,
    show D2.rhsIdx (ix2 g d) (eD2.symm r) = ix2 r d from Shape.idx_ext₂ rfl rfl]
  rw [truncf_apply, truncf_apply, sitofp_apply, extui_apply]
  show (FloatOps.sitofp (F := Ideal) FTy.f32 (BitVec.setWidth 32 (IntOp.cmpi .eq
      (broadcastTo S5000x512 b broadcasts_S5000x1_S5000x512 (ix2 r g))
      (iota Kind.tc S5000x512 32 [1] iota_S5000x512_d1_w32 (ix2 r g)))) : EReal) * x (ix2 r d) = _
  rw [broadcastTo_apply b broadcasts_S5000x1_S5000x512 (ix2 r g) (ix2 r 0) (fun a => by
      match a with
      | ⟨0, _⟩ | ⟨1, _⟩ => rfl),
    iota_single_apply]
  rw [onehot_word]
  show (if b (ix2 r 0) = BitVec.ofNat 32 g.val then (1 : EReal) else 0) * x (ix2 r d) = _
  rw [ite_mul, one_mul, zero_mul]
  exact if_congr (word_eq_graph_iff _ g) rfl rfl

theorem pay1_apply (i : S512x128.Idx) : (k6_pay1 (F := Ideal)) i = 0 := by
  unfold k6_pay1
  simp only [shapeCast_self]
  show Ideal.ofBits .f32 0x00000000#32 = 0
  exact Ideal.ofBits_zero_f32

theorem pay3_apply (A : Vec Ideal S512x128 .f32) (ci : Vec Ideal S512x1 .f32) (w1 : Vec Ideal S128x128 .f32) (b1 : Vec Ideal S1x128 .f32)
    (w2 : Vec Ideal S128x10 .f32) (b2 : Vec Ideal S1x10 .f32) (g : Fin 512) (k : Fin 10) :
    k6_pay3 A ci w1 b1 w2 b2 (ix2 g k)
      = (∑ j : Fin 128, max ((∑ d : Fin 128, (A (ix2 g d) * ci (ix2 g 0)) * w1 (ix2 d j)) + b1 (ix2 0 j)) 0 * w2 (ix2 j k)) + b2 (ix2 0 k) := by
  unfold k6_pay3
  simp only [shapeCast_self]
  rw [addf_apply]
  simp only [matmul]
  rw [Ideal.matmul_constant_zero_apply]
  rw [broadcastTo_1b_ab_apply b2 broadcasts_S1x10_S512x10 g k]
  refine congrArg (· + b2 (ix2 0 k)) ?_
  rw [← Equiv.sum_comp eD4.symm]
  refine Finset.sum_congr rfl fun j _ => ?_
  rw [show D4.lhsIdx (ix2 g k) (eD4.symm j) = ix2 g j from Shape.idx_ext₂ rfl rfl,
    show D4.rhsIdx (ix2 g k) (eD4.symm j) = ix2 j k from Shape.idx_ext₂ rfl rfl]
  rw [truncf_apply, truncf_apply, maximumf_apply, broadcast_apply, addf_apply]
  rw [broadcastTo_1b_ab_apply b1 broadcasts_S1x128_S512x128 g j]
  rw [show (Scalar.ofBits FTy.f32 0x00000000#32 : Ideal .f32) = 0 from Ideal.ofBits_zero_f32]
  refine congrArg (fun s => max (s + b1 (ix2 0 j)) 0 * w2 (ix2 j k)) ?_
  rw [Ideal.matmul_constant_zero_apply]
  rw [← Equiv.sum_comp eD3.symm]
  refine Finset.sum_congr rfl fun d _ => ?_
  rw [show D3.lhsIdx (ix2 g j) (eD3.symm d) = ix2 g d from Shape.idx_ext₂ rfl rfl,
    show D3.rhsIdx (ix2 g j) (eD3.symm d) = ix2 d j from Shape.idx_ext₂ rfl rfl]
  rw [truncf_apply, truncf_apply, mulf_apply]
  rw [broadcastTo_apply ci broadcasts_S512x1_S512x128 (ix2 g d) (ix2 g 0) (fun a => by
      match a with
      | ⟨0, _⟩ | ⟨1, _⟩ => rfl)]

section Rows
variable (bW : Fin 100000 → BitVec 32) (X : Fin 100000 → Fin 128 → EReal) (g : Fin 512) (d : Fin 128)

def segTerm (n : ℕ) : EReal :=
  if h : n < 100000 then (if (bW ⟨n, h⟩).toInt = (g.val : ℤ) then X ⟨n, h⟩ d else 0) else 0

theorem sum_rowTerm_all :
    ∑ n ∈ Finset.range 100000, segTerm bW X g d n
      = ∑ n ∈ Finset.univ.filter (fun n : Fin 100000 => (bW n).toInt = (g.val : ℤ)), X n d := by
  rw [← Fin.sum_univ_eq_sum_range (segTerm bW X g d) 100000, Finset.sum_filter]
  refine Finset.sum_congr rfl fun n _ => ?_
  unfold segTerm
  rw [dif_pos n.isLt]

theorem sum_rowTerm_succ (t : ℕ) :
    ∑ n ∈ Finset.range (5000 * (t + 1)), segTerm bW X g d n
      = ∑ n ∈ Finset.range (5000 * t), segTerm bW X g d n + ∑ r : Fin 5000, segTerm bW X g d (5000 * t + r.val) := by
  have e := Fin.sum_univ_eq_sum_range (fun r : ℕ => (segTerm bW X g d (5000 * t + r) : EReal)) 5000
  rw [show 5000 * (t + 1) = 5000 * t + 5000 from by ring, Finset.sum_range_add]
  exact congrArg (_ + ·) e.symm

end Rows

section Value
variable (V : (c : Dev nD) → (b : Ref sig .tc) → Buf (Elt Ideal) ((c : Thread nD τ).loc b))

/-- Offset zero and stride one leave a coordinate unchanged. -/
theorem zmul (K x : ℕ) : 0 * K + 1 * x = x := by omega

theorem idx6_0 : ∀ t : Fin cfg6.N, win6_0.index t 0 = t.val ∧ win6_0.index t 1 = 0 := by decide +kernel
theorem idx6_1 : ∀ t : Fin cfg6.N, win6_1.index t 0 = t.val ∧ win6_1.index t 1 = 0 := by decide +kernel

theorem iblk0_apply (c : Dev nD) (t : Fin cfg6.N) (r : Fin 5000) (d : Fin 128) (h : 5000 * t.val + r.val < 100000) :
    (iblkR6 V c 0 t : Vec Ideal S5000x128 .f32) (ix2 r d)
      = (V c (Pipeline.arrRef spec6 0) : Vec Ideal S100000x128 .f32) (ix2 ⟨5000 * t.val + r.val, h⟩ d) := by
  have hi := idx6_0 t
  unfold iblkR6
  rw [View.read_apply]
  show V c (Pipeline.arrRef spec6 0) _ = V c (Pipeline.arrRef spec6 0) _
  congr 1
  funext ax
  apply Fin.ext
  match ax with
  | ⟨0, _⟩ => show win6_0.index t 0 * 5000 + 1 * r.val = 5000 * t.val + r.val; rw [hi.1]; omega
  | ⟨1, _⟩ => show win6_0.index t 1 * 128 + 1 * d.val = d.val; rw [hi.2]; omega

theorem iblk1_apply (c : Dev nD) (t : Fin cfg6.N) (r : Fin 5000) (h : 5000 * t.val + r.val < 100000) :
    (iblkR6 V c 1 t : Vec Ideal S5000x1 .i32) (ix2 r 0)
      = (V c (Pipeline.arrRef spec6 1) : Vec Ideal S100000x1 .i32) (ix2 ⟨5000 * t.val + r.val, h⟩ 0) := by
  have hi := idx6_1 t
  unfold iblkR6
  rw [View.read_apply]
  show V c (Pipeline.arrRef spec6 1) _ = V c (Pipeline.arrRef spec6 1) _
  congr 1
  funext ax
  apply Fin.ext
  match ax with
  | ⟨0, _⟩ => show win6_1.index t 0 * 5000 + 1 * r.val = 5000 * t.val + r.val; rw [hi.1]; omega
  | ⟨1, _⟩ => show win6_1.index t 1 * 1 + 1 * (0 : Fin 1).val = (0 : Fin 1).val; rw [hi.2]; rfl

theorem iblk2_apply (c : Dev nD) (t : Fin cfg6.N) (a : Fin 512) (b : Fin 1) :
    (iblkR6 V c 2 t : Vec Ideal S512x1 .f32) (ix2 a b) = (V c (Pipeline.arrRef spec6 2) : Vec Ideal S512x1 .f32) (ix2 a b) := by
  show V c (Pipeline.arrRef spec6 2) _ = _
  exact congrArg _ (Shape.idx_ext₂ (zmul 512 a) (zmul 1 b))

theorem iblk3_apply (c : Dev nD) (t : Fin cfg6.N) (a : Fin 128) (b : Fin 128) :
    (iblkR6 V c 3 t : Vec Ideal S128x128 .f32) (ix2 a b) = (V c (Pipeline.arrRef spec6 3) : Vec Ideal S128x128 .f32) (ix2 a b) := by
  show V c (Pipeline.arrRef spec6 3) _ = _
  exact congrArg _ (Shape.idx_ext₂ (zmul 128 a) (zmul 128 b))

theorem iblk4_apply (c : Dev nD) (t : Fin cfg6.N) (a : Fin 1) (b : Fin 128) :
    (iblkR6 V c 4 t : Vec Ideal S1x128 .f32) (ix2 a b) = (V c (Pipeline.arrRef spec6 4) : Vec Ideal S1x128 .f32) (ix2 a b) := by
  show V c (Pipeline.arrRef spec6 4) _ = _
  exact congrArg _ (Shape.idx_ext₂ (zmul 1 a) (zmul 128 b))

theorem iblk5_apply (c : Dev nD) (t : Fin cfg6.N) (a : Fin 128) (b : Fin 10) :
    (iblkR6 V c 5 t : Vec Ideal S128x10 .f32) (ix2 a b) = (V c (Pipeline.arrRef spec6 5) : Vec Ideal S128x10 .f32) (ix2 a b) := by
  show V c (Pipeline.arrRef spec6 5) _ = _
  exact congrArg _ (Shape.idx_ext₂ (zmul 128 a) (zmul 10 b))

theorem iblk6_apply (c : Dev nD) (t : Fin cfg6.N) (a : Fin 1) (b : Fin 10) :
    (iblkR6 V c 6 t : Vec Ideal S1x10 .f32) (ix2 a b) = (V c (Pipeline.arrRef spec6 6) : Vec Ideal S1x10 .f32) (ix2 a b) := by
  show V c (Pipeline.arrRef spec6 6) _ = _
  exact congrArg _ (Shape.idx_ext₂ (zmul 1 a) (zmul 10 b))

abbrev XR6 (c : Dev nD) : Fin 100000 → Fin 128 → EReal := fun n d => (V c (Pipeline.arrRef spec6 0) : Vec Ideal S100000x128 .f32) (ix2 n d)
abbrev BW6 (c : Dev nD) : Fin 100000 → BitVec 32 := fun n => (V c (Pipeline.arrRef spec6 1) : Vec Ideal S100000x1 .i32) (ix2 n 0)

theorem blockTerm (c : Dev nD) (t : Fin cfg6.N) (g : Fin 512) (d : Fin 128) (r : Fin 5000) :
    (if ((iblkR6 V c 1 t : Vec Ideal S5000x1 .i32) (ix2 r 0)).toInt = (g.val : ℤ)
        then ((iblkR6 V c 0 t : Vec Ideal S5000x128 .f32) (ix2 r d) : EReal) else (0 : EReal))
      = segTerm (BW6 V c) (XR6 V c) g d (5000 * t.val + r.val) := by
  have hN : t.val < 20 := lt_of_lt_of_eq t.isLt (show cfg6.N = 20 from N_6)
  have h : 5000 * t.val + r.val < 100000 := by have := r.isLt; omega
  unfold segTerm
  rw [dif_pos h, iblk0_apply V c t r d h, iblk1_apply V c t r h]

theorem accR6_apply (c : Dev nD) (g : Fin 512) (d : Fin 128) : ∀ (n : ℕ) (h : n < cfg6.N),
    accR6 V c n h (ix2 g d) = ∑ m ∈ Finset.range (5000 * (n + 1)), segTerm (BW6 V c) (XR6 V c) g d m
  | 0, h => by
    rw [show accR6 V c 0 h = k6_pay2 (iblkR6 V c 0 ⟨0, h⟩) (iblkR6 V c 1 ⟨0, h⟩) (k6_pay1 (F := Ideal)) from rfl,
      pay2_apply, pay1_apply, sum_rowTerm_succ _ _ _ _ 0, show Finset.range (5000 * 0) = Finset.range 0 from rfl,
      Finset.sum_range_zero]
    exact congrArg (0 + ·) (Finset.sum_congr rfl fun r _ => blockTerm V c ⟨0, h⟩ g d r)
  | n + 1, h => by
    rw [show accR6 V c (n + 1) h = k6_pay2 (iblkR6 V c 0 ⟨n + 1, h⟩) (iblkR6 V c 1 ⟨n + 1, h⟩) (accR6 V c n (Nat.lt_of_succ_lt h)) from rfl,
      pay2_apply, accR6_apply c g d n, sum_rowTerm_succ _ _ _ _ (n + 1)]
    exact congrArg (_ + ·) (Finset.sum_congr rfl fun r _ => blockTerm V c ⟨n + 1, h⟩ g d r)

abbrev t19 : Fin cfg6.N := ⟨19, by decide⟩

theorem acc_last (c : Dev nD) (g : Fin 512) (d : Fin 128) :
    accR6 V c 19 t19.isLt (ix2 g d) = Spec.poolSum (BW6 V c) (XR6 V c) g d := by
  rw [accR6_apply V c g d 19 t19.isLt, show 5000 * (19 + 1) = 100000 from rfl, sum_rowTerm_all]
  rfl

abbrev result7 (c : Dev nD) : Buf (Elt Ideal) ((c : Thread nD τ).loc main_v142) :=
  k6_pay3 (accR6 V c 19 t19.isLt) (iblkR6 V c 2 t19) (iblkR6 V c 3 t19) (iblkR6 V c 4 t19) (iblkR6 V c 5 t19) (iblkR6 V c 6 t19)

theorem flushed7_eq (c : Dev nD) (t : Fin cfg6.N) (hf : (cfg6.win 7).flush t = true) :
    (datR6 V c).flushed 7 t = ((cfg6.win 7).blk t).view.read (Elt Ideal) (result7 V c) := by
  have hN : cfg6.N = 20 := N_6
  have h19 : t.val = 19 := by have := (flush6_7 t).mp hf; have := t.isLt; omega
  obtain rfl : t = t19 := Fin.ext h19
  show (cfg6.win 7).cut (grid6.coords t19) ((datR6 V c).after 7 t19) = _
  rw [afterR6_7]
  have hz' : (fun a => win6_7.index t19 a * main_v142.ty.shape.size a) = fun _ => 0 := funext fun a => by fin_cases a <;> decide
  exact (Memref.read_access_unit_zero (Elt Ideal) main_v142 hz' (fun a => by rw [congrFun hz' a]; simp) (result7 V c)).symm

theorem final7 (c : Dev nD) : (datR6 V c).arrAt 7 cfg6.N = result7 V c :=
  (datR6 V c).arrAt_eq_of_cover 7 (result7 V c) (flushed7_eq V c) fun i =>
    ⟨t19, (flush6_7 t19).mpr rfl, by
      show i ∈ ((View.whole main_v142).slice (win6_7.rect t19)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

theorem poolR6_value (c : Dev nD) (g : Fin 512) (k : Fin 10) :
    ((datR6 V c).arrAt 7 cfg6.N : Vec Ideal S512x10 .f32) (ix2 g k)
      = (∑ j : Fin 128, max ((∑ d : Fin 128,
            (Spec.poolSum (BW6 V c) (XR6 V c) g d * (V c (Pipeline.arrRef spec6 2) : Vec Ideal S512x1 .f32) (ix2 g 0))
              * (V c (Pipeline.arrRef spec6 3) : Vec Ideal S128x128 .f32) (ix2 d j))
            + (V c (Pipeline.arrRef spec6 4) : Vec Ideal S1x128 .f32) (ix2 0 j)) 0
          * (V c (Pipeline.arrRef spec6 5) : Vec Ideal S128x10 .f32) (ix2 j k))
        + (V c (Pipeline.arrRef spec6 6) : Vec Ideal S1x10 .f32) (ix2 0 k) := by
  rw [final7]
  show k6_pay3 (accR6 V c 19 t19.isLt) (iblkR6 V c 2 t19) (iblkR6 V c 3 t19) (iblkR6 V c 4 t19) (iblkR6 V c 5 t19) (iblkR6 V c 6 t19) (ix2 g k) = _
  rw [pay3_apply]
  simp only [acc_last, iblk2_apply, iblk3_apply, iblk4_apply, iblk5_apply, iblk6_apply]

end Value

end Cert.KernelIdeal.Hand

end
-- ==== Proof.KI.HeadVal.lean ====
import proofs.«408502_j57071525429596_1_alg».proof.Proof.KI.Chain
import proofs.«408502_j57071525429596_1_alg».proof.Proof.KI.HostPool6
import proofs.«408502_j57071525429596_1_alg».proof.Proof.KI.Pool6Val
import proofs.«408502_j57071525429596_1_alg».proof.Proof.SpecNet
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem head_of_arrays (g : Fin 512) (k : Fin 10)
    {B bW : Fin 100000 → BitVec 32} {X X' : Fin 100000 → Fin 128 → EReal} {CI : S512x1.Idx → EReal}
    {L1 a9 : S128x128.Idx → EReal} {l1row : S1x128.Idx → EReal} {a10 : S128.Idx → EReal}
    {L2 a11 : S128x10.Idx → EReal} {l2row : S1x10.Idx → EReal} {a12 : S10.Idx → EReal}
    (hB : B = bW) (hX : X = X')
    (hC : CI (ix2 g 0) = Ideal.div 1 (max (Spec.counts bW g) 1))
    (hL1 : L1 = a9) (hl1 : ∀ j : Fin 128, l1row (ix2 0 j) = a10 (ix1 j))
    (hL2 : L2 = a11) (hl2 : l2row (ix2 0 k) = a12 (ix1 k)) :
    (∑ j : Fin 128, max ((∑ d : Fin 128,
          (Spec.poolSum B X g d * CI (ix2 g 0)) * L1 (ix2 d j)) + l1row (ix2 0 j)) 0 * L2 (ix2 j k))
        + l2row (ix2 0 k)
      = Spec.headK bW (Spec.poolSum bW X') (fun d j => a9 (ix2 d j)) (fun j => a10 (ix1 j))
          (fun j k => a11 (ix2 j k)) (fun k => a12 (ix1 k)) g k := by
  subst hB hX hL1 hL2
  rw [hC, hl2]
  simp only [hl1]
  rfl

variable (m : (ℓ : Loc nD τ sig) → Buf (Elt Ideal) ℓ)

theorem headVal (c : Dev nD) (g : Fin 512) (k : Fin 10) :
    (W14 m c (Proc.devRef .tc main_v142) : S512x10.Idx → EReal) (ix2 g k)
      = Spec.headK (fun n => (m ((c : Thread nD τ).loc main_arg2) : S100000.Idx → BitVec 32) (ix1 n))
          (Spec.poolSum (fun n => (m ((c : Thread nD τ).loc main_arg2) : S100000.Idx → BitVec 32) (ix1 n))
            (fun n d => (W12 m c (Proc.devRef .tc main_v129) : S100000x128.Idx → EReal) (ix2 n d)))
          (fun d j => (m ((c : Thread nD τ).loc main_arg9) : S128x128.Idx → EReal) (ix2 d j))
          (fun j => (m ((c : Thread nD τ).loc main_arg10) : S128.Idx → EReal) (ix1 j))
          (fun j k => (m ((c : Thread nD τ).loc main_arg11) : S128x10.Idx → EReal) (ix2 j k))
          (fun k => (m ((c : Thread nD τ).loc main_arg12) : S10.Idx → EReal) (ix1 k)) g k :=
  (congrFun (W14_arr m c 7) _).trans <| (poolR6_value (E13 m) c g k).trans <|
    head_of_arrays g k (funext fun n => hostPool6_batch m c n)
    (funext fun n => funext fun d => congrFun (hostPool6_x m c) (ix2 n d))
    (hostPool6_cinv m c g) (hostPool6_w1 m c) (fun j => hostPool6_l1 m c j) (hostPool6_w2 m c) (hostPool6_l2 m c k)

end Cert.KernelIdeal.Hand

end
-- ==== Proof.KI.Val.lean ====
import proofs.«408502_j57071525429596_1_alg».proof.Proof.KI.LayerVal1
import proofs.«408502_j57071525429596_1_alg».proof.Proof.KI.LayerVal2
import proofs.«408502_j57071525429596_1_alg».proof.Proof.KI.LayerVal3
import proofs.«408502_j57071525429596_1_alg».proof.Proof.KI.HeadVal
import proofs.«408502_j57071525429596_1_alg».proof.Proof.SpecNet

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

theorem kernel_value (c : Dev nD) (g : Fin 512) (k : Fin 10) :
    (W14 m c (Proc.devRef .tc main_v142) : S512x10.Idx → EReal) (ix2 g k)
      = Spec.netK (srcW (m (c, Proc.devRef .tc main_arg1))) (dstW (m (c, Proc.devRef .tc main_arg1)))
          (fun n => (m ((c : Thread nD τ).loc main_arg2) : S100000.Idx → BitVec 32) (ix1 n))
          (fun n k => (m ((c : Thread nD τ).loc main_arg0) : S100000x128.Idx → EReal) (ix2 n k))
          (fun l j k => (m ((c : Thread nD τ).loc main_arg3) : S3x128x128.Idx → EReal) (ix3 l j k))
          (fun l k => (m ((c : Thread nD τ).loc main_arg4) : S3x128.Idx → EReal) (ix2 l k))
          (fun l k d => (m ((c : Thread nD τ).loc main_arg5) : S3x128x128.Idx → EReal) (ix3 l k d))
          (fun l d => (m ((c : Thread nD τ).loc main_arg6) : S3x128.Idx → EReal) (ix2 l d))
          (fun l d => (m ((c : Thread nD τ).loc main_arg7) : S3x128.Idx → EReal) (ix2 l d))
          (fun l d => (m ((c : Thread nD τ).loc main_arg8) : S3x128.Idx → EReal) (ix2 l d))
          (Ideal.ofBits .f32 0x47C35000#32) (Ideal.ofBits .f32 0x3727C5AC#32)
          (fun d j => (m ((c : Thread nD τ).loc main_arg9) : S128x128.Idx → EReal) (ix2 d j))
          (fun j => (m ((c : Thread nD τ).loc main_arg10) : S128.Idx → EReal) (ix1 j))
          (fun j k => (m ((c : Thread nD τ).loc main_arg11) : S128x10.Idx → EReal) (ix2 j k))
          (fun k => (m ((c : Thread nD τ).loc main_arg12) : S10.Idx → EReal) (ix1 k)) g k := by
  unfold Spec.netK
  rw [headVal m c g k]
  congr 2
  funext n d
  rw [layerVal3 m c n d]
  congr 1
  funext n k
  rw [layerVal2 m c n k]
  congr 1
  funext n k
  exact layerVal1 m c n k

end Cert.KernelIdeal.Hand

end
-- ==== Proof.Ref.Head.lean ====
import proofs.«408502_j57071525429596_1_alg».proof.Proof.RefRun
import proofs.«408502_j57071525429596_1_alg».proof.Proof.SpecNet
import proofs.«408502_j57071525429596_1_alg».proof.Proof.LibIndexedRows
import Idealize.ShloMosaic.Lib.StackMember
import Idealize.ShloMosaic.Lib.Pipeline.Value
import Idealize.ShloMosaic.Lib.IdealHost
import Idealize.ShloMosaic.PureOps.Ideal.Laws

noncomputable section

namespace Cert.ReferenceIdeal.RefRead

open Cert.ReferenceIdeal Cert.ReferenceIdeal.Gen Cert.ReferenceIdeal.RefValue
open Idealize.ShloMosaic Idealize.ShloMosaic.TcCoe Idealize.ShloMosaic.ValueIdx Idealize.ShloMosaic.StableHlo
open Idealize.ShloMosaic.IndexedRows Idealize.ShloMosaic.StackMember Idealize.SL.Sem
open scoped BigOperators

section Stages

variable (X : FVec Ideal S100000x128 .f32) (b : IVec S100000 32)
  (L1 : FVec Ideal S128x128 .f32) (l1 : FVec Ideal S128 .f32) (L2 : FVec Ideal S128x10 .f32) (l2 : FVec Ideal S10 .f32)

def idxCol : IVec S100000x1 32 := broadcastInDim S100000x1 ![0] bcast_S100000_S100000x1_0 b

def sumsV : FVec Ideal S512x128 .f32 :=
  Host.scatterAdd scatter_S512x128_S100000x1_S100000x128_1_0_0_1
    (broadcastInDim S512x128 ![] bcast_S_S512x128 (constant (F := Ideal) S_ .f32 0x00000000#32)) (idxCol b) X

def countsV : FVec Ideal S512 .f32 :=
  Host.scatterAdd scatter_S512_S100000x1_S100000_n_0_0_1
    (broadcastInDim S512 ![] bcast_S_S512 (constant (F := Ideal) S_ .f32 0x00000000#32)) (idxCol b)
    (broadcastInDim S100000 ![] bcast_S_S100000 (constant (F := Ideal) S_ .f32 0x3F800000#32))

def cmaxV : FVec Ideal S512x128 .f32 :=
  broadcastInDim S512x128 ![0, 1] bcast_S512x1_S512x128_0_1
    (broadcastInDim S512x1 ![0] bcast_S512_S512x1_0
      (maximumf (countsV b) (broadcastInDim S512 ![] bcast_S_S512 (constant (F := Ideal) S_ .f32 0x3F800000#32))))

def pooledV : FVec Ideal S512x128 .f32 := Host.divf (sumsV X b) (cmaxV b)

def hiddenV : FVec Ideal S512x128 .f32 :=
  maximumf (addf (Host.dotGeneral dot_S512x128_S128x128_S512x128_1_0_0_1_n_n none (pooledV X b) L1)
      (broadcastInDim S512x128 ![0, 1] bcast_S1x128_S512x128_0_1 (broadcastInDim S1x128 ![1] bcast_S128_S1x128_1 l1)))
    (broadcastInDim S512x128 ![] bcast_S_S512x128 (constant (F := Ideal) S_ .f32 0x00000000#32))

def outV : FVec Ideal S512x10 .f32 :=
  addf (Host.dotGeneral dot_S512x128_S128x10_S512x10_1_0_0_1_n_n none (hiddenV X b L1 l1) L2)
    (broadcastInDim S512x10 ![0, 1] bcast_S1x10_S512x10_0_1 (broadcastInDim S1x10 ![1] bcast_S10_S1x10_1 l2))

theorem idxCol_apply (n : Fin 100000) : idxCol b (ix2 n 0) = b (ix1 n) := by
  unfold idxCol
  exact broadcastInDim_apply _ _ b (ix2 n 0) (ix1 n) (fun a => by match a with | ⟨0, _⟩ => rfl)

-- Rows scattered into a zero matrix: entry (g, d) is the sum of the rows whose graph word is g.
theorem sumsV_apply (g : Fin 512) (d : Fin 128) :
    sumsV X b (ix2 g d)
      = ∑ n ∈ Finset.univ.filter (fun n : Fin 100000 => (b (ix1 n)).toInt = (g.val : ℤ)), X (ix2 n d) := by
  unfold sumsV
  rw [host_scatterAdd_rows _ rfl rfl rfl rfl, broadcastInDim_scalar_apply, constant_apply, Ideal.ofBits_zero_f32, zero_add]
  simp only [idxCol_apply]

theorem countsV_apply (g : Fin 512) :
    countsV b (ix1 g)
      = ∑ _n ∈ Finset.univ.filter (fun n : Fin 100000 => (b (ix1 n)).toInt = (g.val : ℤ)), (1 : EReal) := by
  unfold countsV
  rw [host_scatterAdd_vec _ rfl rfl rfl, broadcastInDim_scalar_apply, constant_apply, Ideal.ofBits_zero_f32, zero_add]
  simp only [idxCol_apply]
  exact Finset.sum_congr rfl fun n _ => by rw [broadcastInDim_scalar_apply, constant_apply, Ideal.ofBits_one_f32]

theorem hostDivf_apply {s : Shape} {φ : FTy} (x y : FVec Ideal s φ) (i : s.Idx) :
    Host.divf x y i = Ideal.div (x i) (y i) := rfl

-- The count, at least one, is repeated along each row; the pooled mean is the sum divided by it.
theorem pooledV_apply (g : Fin 512) (d : Fin 128) :
    pooledV X b (ix2 g d) = Ideal.div (sumsV X b (ix2 g d)) (max (countsV b (ix1 g)) 1) := by
  unfold pooledV cmaxV
  rw [hostDivf_apply, broadcastInDim_apply (s := S512x1) (t := S512x128) ![0, 1] bcast_S512x1_S512x128_0_1 _ (ix2 g d) (ix2 g (0 : Fin 1))
      (fun a => by match a with | ⟨0, _⟩ => rfl | ⟨1, _⟩ => rfl),
    broadcastInDim_apply (s := S512) (t := S512x1) ![0] bcast_S512_S512x1_0 _ (ix2 g (0 : Fin 1)) (ix1 g)
      (fun a => by match a with | ⟨0, _⟩ => rfl),
    maximumf_apply, broadcastInDim_scalar_apply, constant_apply, Ideal.ofBits_one_f32]

theorem dotA_eq : dot_S512x128_S128x128_S512x128_1_0_0_1_n_n = DotDims.plain 512 128 128 := rfl
theorem dotB_eq : dot_S512x128_S128x10_S512x10_1_0_0_1_n_n = DotDims.plain 512 128 10 := rfl

theorem hiddenV_apply (g : Fin 512) (j : Fin 128) :
    hiddenV X b L1 l1 (ix2 g j)
      = max ((∑ d : Fin 128, pooledV X b (ix2 g d) * L1 (ix2 d j)) + l1 (ix1 j)) 0 := by
  unfold hiddenV
  rw [maximumf_apply, addf_apply, dotA_eq, dotGeneral_plain_apply, broadcastInDim_oneRow_apply,
    broadcastInDim_apply (s := S128) (t := S1x128) ![1] bcast_S128_S1x128_1 _ (ix2 (0 : Fin 1) j) (ix1 j)
      (fun a => by match a with | ⟨0, _⟩ => rfl),
    broadcastInDim_scalar_apply, constant_apply, Ideal.ofBits_zero_f32]

theorem outV_apply (g : Fin 512) (k : Fin 10) :
    outV X b L1 l1 L2 l2 (ix2 g k)
      = (∑ j : Fin 128, hiddenV X b L1 l1 (ix2 g j) * L2 (ix2 j k)) + l2 (ix1 k) := by
  unfold outV
  rw [addf_apply, dotB_eq, dotGeneral_plain_apply, broadcastInDim_oneRow_apply,
    broadcastInDim_apply (s := S10) (t := S1x10) ![1] bcast_S10_S1x10_1 _ (ix2 (0 : Fin 1) k) (ix1 k)
      (fun a => by match a with | ⟨0, _⟩ => rfl)]

-- Composed, the stages are the specification's head over the pooled sums.
theorem outV_eq_headR (g : Fin 512) (k : Fin 10) :
    outV X b L1 l1 L2 l2 (ix2 g k)
      = Spec.headR (fun n => b (ix1 n)) (Spec.poolSum (fun n => b (ix1 n)) (fun n d => X (ix2 n d)))
          (fun d j => L1 (ix2 d j)) (fun j => l1 (ix1 j)) (fun j k => L2 (ix2 j k)) (fun k => l2 (ix1 k)) g k := by
  rw [outV_apply]
  simp only [hiddenV_apply, pooledV_apply, sumsV_apply, countsV_apply]
  rfl

end Stages

-- The last window's result is the head over the window's own layer output and five arguments.
theorem window3_out (W : Valuation τ sig (Elt Ideal)) :
    after (ops3 (F := Ideal)) W (Proc.devRef .tc main_v180)
      = outV (after (ops3 (F := Ideal)) W (Proc.devRef .tc main_v159)) (W (Proc.devRef .tc main_arg2))
          (W (Proc.devRef .tc main_arg9)) (W (Proc.devRef .tc main_arg10)) (W (Proc.devRef .tc main_arg11))
          (W (Proc.devRef .tc main_arg12)) := by
  after_results_simp
  rfl

-- A reference the first three windows do not write enters the last window as launched.
theorem enter3 (V0 : Valuation τ sig (Elt Ideal)) (r : Ref sig .tc)
    (h : r ∉ ops0_W ∧ r ∉ ops1_W ∧ r ∉ ops2_W := by decide) :
    after (ops2 (F := Ideal)) (after ops1 (after ops0 V0)) (Proc.devRef .tc r) = V0 (Proc.devRef .tc r) := by
  rw [keep2 _ r h.2.2, keep1 _ r h.2.1, keep0 _ r h.1]

theorem refHead (m : (ℓ : Loc nD τ sig) → Buf (Elt Ideal) ℓ) (c : Dev nD) (g : Fin 512) (k : Fin 10) :
    after (ops (F := Ideal)) (fun b => m (c, b)) (Proc.devRef .tc main_v180) (ix2 g k)
      = Spec.headR (fun n => m (c, main_arg2) (ix1 n))
          (Spec.poolSum (fun n => m (c, main_arg2) (ix1 n))
            (fun n d => after (ops (F := Ideal)) (fun b => m (c, b)) (Proc.devRef .tc main_v159) (ix2 n d)))
          (fun d j => m (c, main_arg9) (ix2 d j)) (fun j => m (c, main_arg10) (ix1 j))
          (fun j k => m (c, main_arg11) (ix2 j k)) (fun k => m (c, main_arg12) (ix1 k)) g k := by
  rw [after_ops, window3_out, enter3 _ main_arg2, enter3 _ main_arg9, enter3 _ main_arg10, enter3 _ main_arg11,
    enter3 _ main_arg12]
  exact outV_eq_headR _ _ _ _ _ _ g k

end Cert.ReferenceIdeal.RefRead

end
-- ==== Proof.Ref.LayerTerm.lean ====
import proofs.«408502_j57071525429596_1_alg».proof.Proof.Gen.ReferenceIdeal
import proofs.«408502_j57071525429596_1_alg».proof.Proof.SpecNet
import proofs.«408502_j57071525429596_1_alg».proof.Proof.LibIndexedRows
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefRead

open Cert.ReferenceIdeal Cert.ReferenceIdeal.Gen Idealize.ShloMosaic Idealize.ShloMosaic.ValueIdx
open scoped BigOperators

local notation "c₀" => Ideal.ofBits FTy.f32 0x47C35000#32
local notation "ε₀" => Ideal.ofBits FTy.f32 0x3727C5AC#32

def edgeRow (r : Nat) (hs : S2x1600000.Slices ![r, 0] S1x1600000) (a1 : IVec S2x1600000 32) : IVec S1600000 32 :=
  fun i => shapeCast S1600000 (extractStridedSlice S1x1600000 ![r, 0] a1 hs) shapeCasts_S1x1600000_S1600000 i

def srcCol (r0 : IVec S1600000 32) : IVec S1600000x1 32 :=
  broadcastInDim S1600000x1 ![0] bcast_S1600000_S1600000x1_0
    (select (cmpi .slt r0 (broadcastInDim S1600000 ![] bcast_S_S1600000 (constantI S_ 32 0#32)))
      (addi r0 (broadcastInDim S1600000 ![] bcast_S_S1600000 (constantI S_ 32 100000#32))) r0)

def dstCol (r1 : IVec S1600000 32) : IVec S1600000x1 32 :=
  broadcastInDim S1600000x1 ![0] bcast_S1600000_S1600000x1_0 r1

def srcW (a1 : IVec S2x1600000 32) (e : Fin 1600000) : BitVec 32 :=
  srcCol (edgeRow 0 slices_S2x1600000_S1x1600000_0_0 a1) (ix2 e 0)

def dstW (a1 : IVec S2x1600000 32) (e : Fin 1600000) : BitVec 32 :=
  dstCol (edgeRow 1 slices_S2x1600000_S1x1600000_1_0 a1) (ix2 e 0)

def zeroM : FVec Ideal S100000x128 .f32 :=
  broadcastInDim S100000x128 ![] bcast_S_S100000x128 (constant (F := Ideal) S_ .f32 0x00000000#32)

def rowB (v : FVec Ideal S128 .f32) : FVec Ideal S100000x128 .f32 :=
  broadcastInDim S100000x128 ![0, 1] bcast_S1x128_S100000x128_0_1 (broadcastInDim S1x128 ![1] bcast_S128_S1x128_1 v)

def aggT (x : FVec Ideal S100000x128 .f32) (sc dc : IVec S1600000x1 32) : FVec Ideal S100000x128 .f32 :=
  addf x (Host.scatterAdd (F := Ideal) scatter_S100000x128_S1600000x1_S1600000x128_1_0_0_1 zeroM dc
    (Host.gather gather_S100000x128_S1600000x1_S1600000x128_1_0_n_n_0_1_1128 x sc))

def linT (h : FVec Ideal S100000x128 .f32) (W : FVec Ideal S128x128 .f32) (b : FVec Ideal S128 .f32) :
    FVec Ideal S100000x128 .f32 :=
  maximumf (addf (Host.dotGeneral (F := Ideal) dot_S100000x128_S128x128_S100000x128_1_0_0_1_n_n none h W) (rowB b)) zeroM

def sumT (h : FVec Ideal S100000x128 .f32) : FVec Ideal S128 .f32 :=
  Host.reduceAdd (F := Ideal) h (constant (F := Ideal) S_ .f32 0x00000000#32) reducesTo_S100000x128_S128_d0 h_S_

def meanT (h : FVec Ideal S100000x128 .f32) : FVec Ideal S128 .f32 :=
  Host.divf (F := Ideal) (sumT h) (broadcastInDim S128 ![] bcast_S_S128 (constant (F := Ideal) S_ .f32 0x47C35000#32))

def devT (h : FVec Ideal S100000x128 .f32) : FVec Ideal S100000x128 .f32 :=
  subf h (broadcastInDim S100000x128 ![0, 1] bcast_S1x128_S100000x128_0_1
    (Host.divf (F := Ideal) (broadcastInDim S1x128 ![1] bcast_S128_S1x128_1 (sumT h))
      (broadcastInDim S1x128 ![] bcast_S_S1x128 (constant (F := Ideal) S_ .f32 0x47C35000#32))))

def denomT : FVec Ideal S_ .f32 :=
  subf (constant (F := Ideal) S_ .f32 0x47C35000#32) (sitofp .f32 (constantI S_ 32 0#32))

def varT (h : FVec Ideal S100000x128 .f32) : FVec Ideal S128 .f32 :=
  select (broadcastInDim S128 ![] bcast_S_S128 (cmpf .ogt denomT (constant (F := Ideal) S_ .f32 0x00000000#32)))
    (Host.divf (F := Ideal) (sumT (mulf (devT h) (devT h))) (broadcastInDim S128 ![] bcast_S_S128 denomT))
    (broadcastInDim S128 ![] bcast_S_S128 (id (constant (F := Ideal) S_ .f32 0x7FC00000#32)))

def bnT (h : FVec Ideal S100000x128 .f32) (γ β : FVec Ideal S128 .f32) : FVec Ideal S100000x128 .f32 :=
  addf (mulf (mulf (rowB γ) (subf h (rowB (meanT h))))
    (rowB (Host.rsqrt (F := Ideal) (addf (varT h)
      (broadcastInDim S128 ![] bcast_S_S128 (constant (F := Ideal) S_ .f32 0x3727C5AC#32)))))) (rowB β)

def layerT (x : FVec Ideal S100000x128 .f32) (sc dc : IVec S1600000x1 32) (W1 : FVec Ideal S128x128 .f32)
    (b1 : FVec Ideal S128 .f32) (W2 : FVec Ideal S128x128 .f32) (b2 γ β : FVec Ideal S128 .f32) :
    FVec Ideal S100000x128 .f32 :=
  bnT (linT (linT (aggT x sc dc) W1 b1) W2 b2) γ β

def matRow (r : Nat) (hs : S3x128x128.Slices ![r, 0, 0] S1x128x128) (W : FVec Ideal S3x128x128 .f32) :
    FVec Ideal S128x128 .f32 :=
  fun i => shapeCast S128x128 (extractStridedSlice S1x128x128 ![r, 0, 0] W hs) shapeCasts_S1x128x128_S128x128 i

def vecRow (r : Nat) (hs : S3x128.Slices ![r, 0] S1x128) (v : FVec Ideal S3x128 .f32) : FVec Ideal S128 .f32 :=
  fun i => shapeCast S128 (extractStridedSlice S1x128 ![r, 0] v hs) shapeCasts_S1x128_S128 i

def layerTP (r : Nat) (hM : S3x128x128.Slices ![r, 0, 0] S1x128x128) (hV : S3x128.Slices ![r, 0] S1x128)
    (x : FVec Ideal S100000x128 .f32) (sc dc : IVec S1600000x1 32) (a3 : FVec Ideal S3x128x128 .f32)
    (a4 : FVec Ideal S3x128 .f32) (a5 : FVec Ideal S3x128x128 .f32) (a6 a7 a8 : FVec Ideal S3x128 .f32) :
    FVec Ideal S100000x128 .f32 :=
  layerT x sc dc (matRow r hM a3) (vecRow r hV a4) (matRow r hM a5) (vecRow r hV a6) (vecRow r hV a7) (vecRow r hV a8)

theorem zeroM_apply (j : S100000x128.Idx) : zeroM j = 0 := by
  unfold zeroM
  rw [broadcastInDim_scalar_apply, constant_apply, Ideal.ofBits_zero_f32]

theorem rowB_apply (v : FVec Ideal S128 .f32) (n : Fin 100000) (k : Fin 128) : rowB v (ix2 n k) = v (ix1 k) := by
  unfold rowB
  exact (broadcastInDim_apply _ _ _ (ix2 n k) (ix2 (0 : Fin 1) k) fun a => by
    match a with | ⟨0, _⟩ | ⟨1, _⟩ => rfl).trans
    (broadcastInDim_apply _ _ _ (ix2 (0 : Fin 1) k) (ix1 k) fun a => by match a with | ⟨0, _⟩ => rfl)

theorem matRow_apply (r : Nat) (hr : r < 3) (hs : S3x128x128.Slices ![r, 0, 0] S1x128x128)
    (W : FVec Ideal S3x128x128 .f32) (j k : Fin 128) :
    matRow r hs W (ix2 j k) = W (ix3 (⟨r, hr⟩ : Fin 3) j k) := by
  unfold matRow
  exact (shapeCast_1ab_ab_apply _ _ j k).trans (extractStridedSlice_apply _ W hs _ _ fun a => by
    match a with | ⟨0, _⟩ => rfl | ⟨1, _⟩ | ⟨2, _⟩ => exact (Nat.zero_add _).symm)

theorem vecRow_apply (r : Nat) (hr : r < 3) (hs : S3x128.Slices ![r, 0] S1x128) (v : FVec Ideal S3x128 .f32)
    (k : Fin 128) : vecRow r hs v (ix1 k) = v (ix2 (⟨r, hr⟩ : Fin 3) k) := by
  unfold vecRow
  exact (shapeCast_1a_a_apply _ _ k).trans (extractStridedSlice_apply _ v hs _ _ fun a => by
    match a with | ⟨0, _⟩ => rfl | ⟨1, _⟩ => exact (Nat.zero_add _).symm)

theorem aggT_apply (x : FVec Ideal S100000x128 .f32) (sc dc : IVec S1600000x1 32) (n : Fin 100000) (k : Fin 128) :
    aggT x sc dc (ix2 n k)
      = x (ix2 n k) + ∑ e ∈ Finset.univ.filter (fun e : Fin 1600000 => (dc (ix2 e 0)).toInt = (n.val : ℤ)),
          x (ix2 ⟨min (sc (ix2 e 0)).toInt.toNat (100000 - 1), by omega⟩ k) := by
  unfold aggT
  rw [addf_apply, IndexedRows.host_scatterAdd_rows scatter_S100000x128_S1600000x1_S1600000x128_1_0_0_1 rfl rfl rfl rfl,
    zeroM_apply, zero_add]
  refine congrArg (x (ix2 n k) + ·) (Finset.sum_congr rfl fun e _ => ?_)
  exact IndexedRows.gather_rows gather_S100000x128_S1600000x1_S1600000x128_1_0_n_n_0_1_1128 rfl rfl rfl rfl rfl x sc e k
    (by decide)

section
variable (h : FVec Ideal S100000x128 .f32) (W : FVec Ideal S128x128 .f32) (b γ β : FVec Ideal S128 .f32)
  (n : Fin 100000) (k d : Fin 128)

/-- An entry of the product is the sum over the shared axis of the entrywise products. -/
theorem dotT_apply :
    Host.dotGeneral (F := Ideal) dot_S100000x128_S128x128_S100000x128_1_0_0_1_n_n none h W (ix2 n k)
      = ∑ j : Fin 128, h (ix2 n j) * W (ix2 j k) := by
  refine (Ideal.dotGeneral_apply dot_S100000x128_S128x128_S100000x128_1_0_0_1_n_n none .single h W (ix2 n k)).trans ?_
  rw [← Equiv.sum_comp (contrEquiv1 dot_S100000x128_S128x128_S100000x128_1_0_0_1_n_n 128 rfl rfl).symm]
  refine Finset.sum_congr rfl fun j _ => ?_
  congr 2 <;> exact Shape.idx_ext₂ rfl rfl

theorem linT_apply :
    linT h W b (ix2 n k) = max ((∑ j : Fin 128, h (ix2 n j) * W (ix2 j k)) + b (ix1 k)) 0 := by
  unfold linT
  rw [maximumf_apply, addf_apply, dotT_apply, rowB_apply, zeroM_apply]

theorem sumT_apply : sumT h (ix1 d) = ∑ n : Fin 100000, h (ix2 n d) := by
  have hR : S100000x128.Reduces [0] S128 := by decide
  unfold sumT
  rw [hostReduceAdd_apply]
  refine (Ideal.hostReduceAdd_single reducesTo_S100000x128_S128_d0 hR h _ (ix1 d)).trans ?_
  rw [constant_apply, Ideal.ofBits_zero_f32, zero_add]
  show ∑ n : Fin 100000, h (hR.lift (ix1 d) n) = _
  exact Finset.sum_congr rfl fun n _ => congrArg h (Shape.idx_ext₂ rfl rfl)

theorem meanT_apply :
    meanT h (ix1 d) = Ideal.div (∑ n : Fin 100000, h (ix2 n d)) c₀ := by
  unfold meanT
  rw [hostDivf_apply, sumT_apply, broadcastInDim_scalar_apply, constant_apply]

theorem devT_apply :
    devT h (ix2 n d) = h (ix2 n d) - Ideal.div (∑ m : Fin 100000, h (ix2 m d)) c₀ := by
  unfold devT
  rw [subf_apply]
  refine congrArg (h (ix2 n d) - ·) ?_
  refine (broadcastInDim_apply _ _ _ (ix2 n d) (ix2 (0 : Fin 1) d) fun a => by
    match a with | ⟨0, _⟩ | ⟨1, _⟩ => rfl).trans ?_
  rw [hostDivf_apply, broadcastInDim_scalar_apply, constant_apply]
  exact congrArg (Ideal.div · c₀) ((broadcastInDim_apply _ _ _ (ix2 (0 : Fin 1) d) (ix1 d) fun a => by
    match a with | ⟨0, _⟩ => rfl).trans (sumT_apply h d))

theorem denomT_apply : denomT ix0 = c₀ - 0 := by
  unfold denomT
  rw [subf_apply, constant_apply]
  show c₀ - ((((0#32 : BitVec 32).toInt : ℤ) : ℝ) : EReal) = _
  rw [Spec.sitofp_zero]

theorem varT_apply :
    varT h (ix1 d) = Ideal.div (∑ n : Fin 100000, devT h (ix2 n d) * devT h (ix2 n d)) (c₀ - 0) := by
  unfold varT
  rw [select_apply, broadcastInDim_scalar_apply, cmpf_apply, denomT_apply, constant_apply, Ideal.ofBits_zero_f32,
    Ideal.cmpf_def, Spec.cmp_ogt_of_lt (Spec.IsPosReal.sub_zero_pos Spec.ofBits_100000_isPosReal), select_one,
    hostDivf_apply, broadcastInDim_scalar_apply, denomT_apply, sumT_apply]
  rfl

theorem bnT_apply :
    bnT h γ β (ix2 n d)
      = Spec.bnR (fun n d => h (ix2 n d)) (fun d => γ (ix1 d)) (fun d => β (ix1 d)) c₀ ε₀ n d := by
  unfold bnT
  rw [addf_apply, mulf_apply, mulf_apply, subf_apply, rowB_apply, rowB_apply, rowB_apply, rowB_apply, meanT_apply]
  show _ * Ideal.rsqrt (varT h (ix1 d) + _) + _ = _
  rw [varT_apply, broadcastInDim_scalar_apply, constant_apply]
  simp only [devT_apply]
  exact Spec.bnR_of_idiv (fun n d => h (ix2 n d)) (fun d => γ (ix1 d)) (fun d => β (ix1 d))
    Spec.ofBits_100000_ne_zero ε₀ n d

end

theorem layerTP_apply (r : Nat) (hr : r < 3) (hM : S3x128x128.Slices ![r, 0, 0] S1x128x128)
    (hV : S3x128.Slices ![r, 0] S1x128) (x : FVec Ideal S100000x128 .f32) (sc dc : IVec S1600000x1 32)
    (a3 : FVec Ideal S3x128x128 .f32) (a4 : FVec Ideal S3x128 .f32) (a5 : FVec Ideal S3x128x128 .f32)
    (a6 a7 a8 : FVec Ideal S3x128 .f32) (n : Fin 100000) (d : Fin 128) :
    layerTP r hM hV x sc dc a3 a4 a5 a6 a7 a8 (ix2 n d)
      = Spec.layerR (fun e => sc (ix2 e 0)) (fun e => dc (ix2 e 0)) (fun j k => a3 (ix3 (⟨r, hr⟩ : Fin 3) j k))
          (fun k => a4 (ix2 (⟨r, hr⟩ : Fin 3) k)) (fun k d => a5 (ix3 (⟨r, hr⟩ : Fin 3) k d))
          (fun d => a6 (ix2 (⟨r, hr⟩ : Fin 3) d)) (fun d => a7 (ix2 (⟨r, hr⟩ : Fin 3) d))
          (fun d => a8 (ix2 (⟨r, hr⟩ : Fin 3) d)) c₀ ε₀ (fun n k => x (ix2 n k)) n d := by
  have hH : (fun n d => linT (linT (aggT x sc dc) (matRow r hM a3) (vecRow r hV a4)) (matRow r hM a5) (vecRow r hV a6) (ix2 n d))
      = Spec.mlp (Spec.layerIn (fun e => sc (ix2 e 0)) (fun e => dc (ix2 e 0)) (fun n k => x (ix2 n k)))
          (fun j k => a3 (ix3 ⟨r, hr⟩ j k)) (fun k => a4 (ix2 ⟨r, hr⟩ k))
          (fun k d => a5 (ix3 ⟨r, hr⟩ k d)) (fun d => a6 (ix2 ⟨r, hr⟩ d)) := by
    funext n d
    simp only [Spec.mlp, Spec.layerIn, Spec.agg, linT_apply, aggT_apply, matRow_apply r hr, vecRow_apply r hr]
  unfold layerTP layerT
  rw [bnT_apply, hH]
  simp only [vecRow_apply r hr]
  rfl

end Cert.ReferenceIdeal.RefRead

end
-- ==== Proof.Ref.Layer1.lean ====
import proofs.«408502_j57071525429596_1_alg».proof.Proof.RefRun
import proofs.«408502_j57071525429596_1_alg».proof.Proof.Ref.LayerTerm

noncomputable section

namespace Cert.ReferenceIdeal.RefRead

open Cert.ReferenceIdeal Cert.ReferenceIdeal.Gen Cert.ReferenceIdeal.RefValue Idealize.ShloMosaic
  Idealize.ShloMosaic.TcCoe Idealize.SL.Sem Idealize.ShloMosaic.StableHlo Idealize.ShloMosaic.ValueIdx

variable (m : (ℓ : Loc nD τ sig) → Buf (Elt Ideal) ℓ) (c : Dev nD)

theorem edge_src (V : Valuation τ sig (Elt Ideal)) :
    after (ops0 (F := Ideal)) V (Proc.devRef .tc main_v1)
      = edgeRow 0 slices_S2x1600000_S1x1600000_0_0 (V (Proc.devRef .tc main_arg1)) := by
  after_results_simp
  rfl

theorem edge_dst (V : Valuation τ sig (Elt Ideal)) :
    after (ops0 (F := Ideal)) V (Proc.devRef .tc main_v3)
      = edgeRow 1 slices_S2x1600000_S1x1600000_1_0 (V (Proc.devRef .tc main_arg1)) := by
  after_results_simp
  rfl

-- The first two windows leave the layer's term in the result buffer, the later two do not write it.
theorem refLayer1 (n : Fin 100000) (d : Fin 128) :
    after (ops (F := Ideal)) (fun b => m (c, b)) (Proc.devRef .tc main_v55) (ix2 n d)
      = Spec.layerR (srcW (m (c, main_arg1))) (dstW (m (c, main_arg1)))
          (fun j k => m (c, main_arg3) (ix3 0 j k)) (fun k => m (c, main_arg4) (ix2 0 k))
          (fun k d => m (c, main_arg5) (ix3 0 k d)) (fun d => m (c, main_arg6) (ix2 0 d))
          (fun d => m (c, main_arg7) (ix2 0 d)) (fun d => m (c, main_arg8) (ix2 0 d))
          (Ideal.ofBits .f32 0x47C35000#32) (Ideal.ofBits .f32 0x3727C5AC#32)
          (fun n k => m (c, main_arg0) (ix2 n k)) n d := by
  rw [after_ops, keep3 _ main_v55 (by decide), keep2 _ main_v55 (by decide)]
  refine (congrFun ?_ _).trans (layerTP_apply 0 (by decide) slices_S3x128x128_S1x128x128_0_0_0 slices_S3x128_S1x128_0_0
    _ _ _ _ _ _ _ _ _ n d)
  after_results_simp
  simp only [TRef.ofBuf, TRef.toBuf, cast_eq]
  rfl

end Cert.ReferenceIdeal.RefRead

end
-- ==== Proof.Ref.Layer2.lean ====
import proofs.«408502_j57071525429596_1_alg».proof.Proof.RefRun
import proofs.«408502_j57071525429596_1_alg».proof.Proof.Ref.LayerTerm
import proofs.«408502_j57071525429596_1_alg».proof.Proof.Ref.Layer1

noncomputable section

namespace Cert.ReferenceIdeal.RefRead

open Cert.ReferenceIdeal Cert.ReferenceIdeal.Gen Cert.ReferenceIdeal.RefValue Idealize.ShloMosaic
  Idealize.ShloMosaic.TcCoe Idealize.SL.Sem Idealize.ShloMosaic.StableHlo Idealize.ShloMosaic.ValueIdx

variable (m : (ℓ : Loc nD τ sig) → Buf (Elt Ideal) ℓ) (c : Dev nD)

theorem layer2_term (W : Valuation τ sig (Elt Ideal)) :
    after (ops2 (F := Ideal)) (after (ops1 (F := Ideal)) W) (Proc.devRef .tc main_v107)
      = layerTP 1 slices_S3x128x128_S1x128x128_1_0_0 slices_S3x128_S1x128_1_0
          (after (ops1 (F := Ideal)) W (Proc.devRef .tc main_v55))
          (srcCol (W (Proc.devRef .tc main_v1))) (dstCol (W (Proc.devRef .tc main_v3)))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  after_results_simp
  simp only [TRef.ofBuf, TRef.toBuf, cast_eq]
  rfl

-- Windows that write none of the buffers the term reads leave them as they were; read at (n, d), the term is the layer function.
theorem refLayer2 (n : Fin 100000) (d : Fin 128) :
    after (ops (F := Ideal)) (fun b => m (c, b)) (Proc.devRef .tc main_v107) (ix2 n d)
      = Spec.layerR (srcW (m (c, main_arg1))) (dstW (m (c, main_arg1)))
          (fun j k => m (c, main_arg3) (ix3 1 j k)) (fun k => m (c, main_arg4) (ix2 1 k))
          (fun k d => m (c, main_arg5) (ix3 1 k d)) (fun d => m (c, main_arg6) (ix2 1 d))
          (fun d => m (c, main_arg7) (ix2 1 d)) (fun d => m (c, main_arg8) (ix2 1 d))
          (Ideal.ofBits .f32 0x47C35000#32) (Ideal.ofBits .f32 0x3727C5AC#32)
          (fun n k => after (ops (F := Ideal)) (fun b => m (c, b)) (Proc.devRef .tc main_v55) (ix2 n k)) n d := by
  rw [after_ops, keep3 _ main_v107 (by decide), keep3 _ main_v55 (by decide), keep2 _ main_v55 (by decide), layer2_term,
    edge_src, edge_dst, keep0 _ main_arg3 (by decide), keep0 _ main_arg4 (by decide), keep0 _ main_arg5 (by decide),
    keep0 _ main_arg6 (by decide), keep0 _ main_arg7 (by decide), keep0 _ main_arg8 (by decide)]
  exact layerTP_apply 1 (by decide) _ _ _ _ _ _ _ _ _ _ _ n d

end Cert.ReferenceIdeal.RefRead

end
-- ==== Proof.Ref.Layer3.lean ====
import proofs.«408502_j57071525429596_1_alg».proof.Proof.RefRun
import proofs.«408502_j57071525429596_1_alg».proof.Proof.Ref.LayerTerm
import proofs.«408502_j57071525429596_1_alg».proof.Proof.Ref.Layer1

noncomputable section

namespace Cert.ReferenceIdeal.RefRead

open Cert.ReferenceIdeal Cert.ReferenceIdeal.Gen Cert.ReferenceIdeal.RefValue Idealize.ShloMosaic
  Idealize.ShloMosaic.TcCoe Idealize.SL.Sem Idealize.ShloMosaic.StableHlo Idealize.ShloMosaic.ValueIdx

variable (m : (ℓ : Loc nD τ sig) → Buf (Elt Ideal) ℓ) (c : Dev nD)

theorem layer3_term (W : Valuation τ sig (Elt Ideal)) :
    after (ops3 (F := Ideal)) (after (ops2 (F := Ideal)) W) (Proc.devRef .tc main_v159)
      = layerTP 2 slices_S3x128x128_S1x128x128_2_0_0 slices_S3x128_S1x128_2_0
          (after (ops2 (F := Ideal)) W (Proc.devRef .tc main_v107))
          (srcCol (W (Proc.devRef .tc main_v1))) (dstCol (W (Proc.devRef .tc main_v3)))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  after_results_simp
  simp only [TRef.ofBuf, TRef.toBuf, cast_eq]
  rfl

-- Windows that write none of the buffers the term reads leave them as they were; read at (n, d), the term is the layer function.
theorem refLayer3 (n : Fin 100000) (d : Fin 128) :
    after (ops (F := Ideal)) (fun b => m (c, b)) (Proc.devRef .tc main_v159) (ix2 n d)
      = Spec.layerR (srcW (m (c, main_arg1))) (dstW (m (c, main_arg1)))
          (fun j k => m (c, main_arg3) (ix3 2 j k)) (fun k => m (c, main_arg4) (ix2 2 k))
          (fun k d => m (c, main_arg5) (ix3 2 k d)) (fun d => m (c, main_arg6) (ix2 2 d))
          (fun d => m (c, main_arg7) (ix2 2 d)) (fun d => m (c, main_arg8) (ix2 2 d))
          (Ideal.ofBits .f32 0x47C35000#32) (Ideal.ofBits .f32 0x3727C5AC#32)
          (fun n k => after (ops (F := Ideal)) (fun b => m (c, b)) (Proc.devRef .tc main_v107) (ix2 n k)) n d := by
  rw [after_ops, keep3 _ main_v107 (by decide), layer3_term,
    keep1 _ main_v1 (by decide), keep1 _ main_v3 (by decide), edge_src, edge_dst,
    keep1 _ main_arg3 (by decide), keep1 _ main_arg4 (by decide), keep1 _ main_arg5 (by decide),
    keep1 _ main_arg6 (by decide), keep1 _ main_arg7 (by decide), keep1 _ main_arg8 (by decide),
    keep0 _ main_arg3 (by decide), keep0 _ main_arg4 (by decide), keep0 _ main_arg5 (by decide),
    keep0 _ main_arg6 (by decide), keep0 _ main_arg7 (by decide), keep0 _ main_arg8 (by decide)]
  exact layerTP_apply 2 (by decide) _ _ _ _ _ _ _ _ _ _ _ n d

end Cert.ReferenceIdeal.RefRead

end
-- ==== Proof.Ref.Val.lean ====
import proofs.«408502_j57071525429596_1_alg».proof.Proof.Ref.Head
import proofs.«408502_j57071525429596_1_alg».proof.Proof.Ref.LayerTerm
import proofs.«408502_j57071525429596_1_alg».proof.Proof.Ref.Layer1
import proofs.«408502_j57071525429596_1_alg».proof.Proof.Ref.Layer2
import proofs.«408502_j57071525429596_1_alg».proof.Proof.Ref.Layer3

noncomputable section

namespace Cert.ReferenceIdeal.RefRead

open Cert.ReferenceIdeal Cert.ReferenceIdeal.Gen Cert.ReferenceIdeal.RefValue
open Idealize.ShloMosaic Idealize.ShloMosaic.TcCoe Idealize.ShloMosaic.ValueIdx Idealize.ShloMosaic.StableHlo
open Idealize.SL.Sem

-- The result is the head of the third layer's buffer, and each layer's buffer is the layer function of the one before.
theorem ref_value (m : (ℓ : Loc nD τ sig) → Buf (Elt Ideal) ℓ) (c : Dev nD) (g : Fin 512) (k : Fin 10) :
    after (ops (F := Ideal)) (fun b => m (c, b)) (Proc.devRef .tc main_v180) (ix2 g k)
      = Spec.netR (srcW (m (c, main_arg1))) (dstW (m (c, main_arg1))) (fun n => m (c, main_arg2) (ix1 n))
          (fun n k => m (c, main_arg0) (ix2 n k)) (fun l j k => m (c, main_arg3) (ix3 l j k)) (fun l k => m (c, main_arg4) (ix2 l k))
          (fun l k d => m (c, main_arg5) (ix3 l k d)) (fun l d => m (c, main_arg6) (ix2 l d)) (fun l d => m (c, main_arg7) (ix2 l d))
          (fun l d => m (c, main_arg8) (ix2 l d)) (Ideal.ofBits .f32 0x47C35000#32) (Ideal.ofBits .f32 0x3727C5AC#32)
          (fun d j => m (c, main_arg9) (ix2 d j)) (fun j => m (c, main_arg10) (ix1 j)) (fun j k => m (c, main_arg11) (ix2 j k))
          (fun k => m (c, main_arg12) (ix1 k)) g k := by
  rw [refHead, funext fun n => funext fun d => refLayer3 m c n d, funext fun n => funext fun d => refLayer2 m c n d,
    funext fun n => funext fun d => refLayer1 m c n d]
  rfl

end Cert.ReferenceIdeal.RefRead

end
-- ==== Proof.SrcEq.lean ====
import proofs.«408502_j57071525429596_1_alg».proof.Proof.KI.HostAgg0
import proofs.«408502_j57071525429596_1_alg».proof.Proof.Ref.LayerTerm

noncomputable section

namespace Cert

open Idealize.ShloMosaic

theorem srcW_eq (a1 : IVec KernelIdeal.S2x1600000 32) :
    KernelIdeal.Hand.srcW a1 = ReferenceIdeal.RefRead.srcW a1 := by
  funext e
  unfold KernelIdeal.Hand.srcW ReferenceIdeal.RefRead.srcW KernelIdeal.Hand.srcCol ReferenceIdeal.RefRead.srcCol
    KernelIdeal.Hand.fixNeg KernelIdeal.Hand.srcRow ReferenceIdeal.RefRead.edgeRow
  rfl

theorem dstW_eq (a1 : IVec KernelIdeal.S2x1600000 32) :
    KernelIdeal.Hand.dstW a1 = ReferenceIdeal.RefRead.dstW a1 := by
  funext e
  unfold KernelIdeal.Hand.dstW ReferenceIdeal.RefRead.dstW KernelIdeal.Hand.dstCol ReferenceIdeal.RefRead.dstCol
    KernelIdeal.Hand.dstRow ReferenceIdeal.RefRead.edgeRow
  rfl

end Cert

end
-- ==== Proof.FinitePre.lean ====
import proofs.«408502_j57071525429596_1_alg».proof.Pre_finite_inputs
import proofs.«408502_j57071525429596_1_alg».proof.Proof.Spec
import proofs.«408502_j57071525429596_1_alg».proof.Proof.SpecLaws
import Idealize.ShloMosaic.Lib.ReduceAll
import Idealize.ShloMosaic.Lib.ValueIdx

noncomputable section

namespace Cert.Spec

open Idealize.ShloMosaic Cert.Pre_finite_inputs

-- A conjunction over all entries that is one is one at every entry, and |x| < +∞ makes x a real number.
theorem all_isReal_of_reduce {s : Shape} {axes : List (Fin s.rank)} {a : FVec Ideal s .f32}
    {hb : S_.BroadcastsInDim s (![] : Fin 0 → Fin s.rank)} {hr : s.ReducesTo axes S_}
    {hu : 0 < S_.numel} {init : IVec S_ 1}
    (h : Host.reduce IntOp.andi
        (cmpf .olt (Host.absf a) (broadcastInDim s ![] hb (constant S_ .f32 0x7F800000#32)))
        init hr hu ValueIdx.ix0 = 1#1) (i : s.Idx) : IsReal (a i) := by
  haveI : Subsingleton S_.Idx := ⟨fun _ _ => funext fun d => d.elim0⟩
  have e : Ideal.cmp .olt (Max.max (a i) (-(a i))) (Ideal.ofBits .f32 0x7F800000#32) = 1#1 :=
    Host.reduce_andi_all _ init hr hu ValueIdx.ix0 h i
  rw [ofBits_inf] at e
  exact isReal_of_abs_lt_top (lt_of_cmp_olt e)

theorem finite_of_pre [Facts] (a0 : FVec Ideal S100000x128 .f32) (a1 : IVec S2x1600000 32)
    (a2 : IVec S100000 32) (a3 : FVec Ideal S3x128x128 .f32) (a4 : FVec Ideal S3x128 .f32)
    (a5 : FVec Ideal S3x128x128 .f32) (a6 a7 a8 : FVec Ideal S3x128 .f32)
    (a9 : FVec Ideal S128x128 .f32) (a10 : FVec Ideal S128 .f32) (a11 : FVec Ideal S128x10 .f32)
    (a12 : FVec Ideal S10 .f32)
    (h : fn (F := Ideal) a0 a1 a2 a3 a4 a5 a6 a7 a8 a9 a10 a11 a12 = (fun _ => 1#1)) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  have h0 := congrFun h ValueIdx.ix0
  dsimp only [fn, fn_part1, fn_part2, fn_part3, Idealize.ShloMosaic.andi] at h0
  simp only [IntOp.andi_eq_one] at h0
  obtain ⟨⟨⟨⟨⟨⟨⟨⟨⟨⟨h_0, h_3⟩, h_4⟩, h_5⟩, h_6⟩, h_7⟩, h_8⟩, h_9⟩, h_10⟩, h_11⟩, h_12⟩ := h0
  exact ⟨all_isReal_of_reduce h_0, all_isReal_of_reduce h_3, all_isReal_of_reduce h_4, all_isReal_of_reduce h_5,
    all_isReal_of_reduce h_6, all_isReal_of_reduce h_7, all_isReal_of_reduce h_8, all_isReal_of_reduce h_9,
    all_isReal_of_reduce h_10, all_isReal_of_reduce h_11, all_isReal_of_reduce h_12⟩

end Cert.Spec

end
-- ==== Proof.Bridge.lean ====
import proofs.«408502_j57071525429596_1_alg».proof.Defs
import proofs.«408502_j57071525429596_1_alg».proof.Proof.Gen.Pre_finite_inputs
import proofs.«408502_j57071525429596_1_alg».proof.Proof.KI.Run
import proofs.«408502_j57071525429596_1_alg».proof.Proof.KI.Val
import proofs.«408502_j57071525429596_1_alg».proof.Proof.RefRun
import proofs.«408502_j57071525429596_1_alg».proof.Proof.Ref.Val
import proofs.«408502_j57071525429596_1_alg».proof.Proof.SrcEq
import proofs.«408502_j57071525429596_1_alg».proof.Proof.SpecNet
import proofs.«408502_j57071525429596_1_alg».proof.Proof.FinitePre

noncomputable section

namespace Cert.Bridge

open Idealize.ShloMosaic Idealize.ShloMosaic.TcCoe Idealize.ShloMosaic.ValueIdx Idealize.SL.Sem

-- Both results are the network of the same finite arguments: one with the variance as E[h²] − μ², one as Σ(h − μ)²/N.
theorem algebraic : Cert.algebraic_KernelIdeal_ReferenceIdeal := by
  intro m ρ m' ρ' hpre hagree
  refine ⟨fun c => KernelIdeal.Hand.W14 m c (Proc.devRef .tc KernelIdeal.main_v142), KernelIdeal.Hand.run m ρ, ?_⟩
  refine (θ_run _ _ _).mono (fun _ h c => ⟨(h c).1.trans ?_, (h c).2⟩) (ReferenceIdeal.RefValue.run_result (F := Ideal) m' ρ')
  obtain ⟨a0, a1, a2, a3, a4, a5, a6, a7, a8, a9, a10, a11, a12⟩ := hagree c
  funext i
  obtain ⟨g, k, rfl⟩ : ∃ (g : Fin 512) (k : Fin 10), i = ix2 g k := ⟨i 0, i 1, eq_ix2 i⟩
  have hf := Cert.Spec.finite_of_pre _ _ _ _ _ _ _ _ _ _ _ _ _ (hpre c)
  refine (ReferenceIdeal.RefRead.ref_value m' c g k).trans ?_
  simp only [a0, a1, a2, a3, a4, a5, a6, a7, a8, a9, a10, a11, a12]
  refine Eq.trans ?_ (KernelIdeal.Hand.kernel_value m c g k).symm
  rw [Cert.srcW_eq (m (c, Proc.devRef .tc KernelIdeal.main_arg1)), Cert.dstW_eq (m (c, Proc.devRef .tc KernelIdeal.main_arg1))]
  exact (congrFun (congrFun (Cert.Spec.netK_eq_netR _ _ _ Cert.Spec.ofBits_100000 Cert.Spec.ofBits_eps_isPosReal
    (fun n k => hf.1 (ix2 n k)) (fun l j k => hf.2.1 (ix3 l j k)) (fun l k => hf.2.2.1 (ix2 l k))
    (fun l k d => hf.2.2.2.1 (ix3 l k d)) (fun l d => hf.2.2.2.2.1 (ix2 l d)) (fun l d => hf.2.2.2.2.2.1 (ix2 l d))
    (fun l d => hf.2.2.2.2.2.2.1 (ix2 l d)) _ _ _ _) g) k).symm

end Cert.Bridge

end
-- ==== Proof.lean ====
/- A three-layer graph network with column normalisation over the nodes and a pooled two-layer head, against its plain
   reference. The two sides differ in the variance (the mean of squares minus the squared mean, against the mean squared
   deviation: one number on finite entries) and in the pooling (a product with 1/max(count, 1) against the quotient). -/
import proofs.«408502_j57071525429596_1_alg».proof.Defs
import proofs.«408502_j57071525429596_1_alg».proof.Proof.Gen.Kernel
import proofs.«408502_j57071525429596_1_alg».proof.Proof.Gen.KernelIdeal
import proofs.«408502_j57071525429596_1_alg».proof.Proof.Gen.ReferenceIdeal
import proofs.«408502_j57071525429596_1_alg».proof.Proof.Gen.Pre_finite_inputs
import proofs.«408502_j57071525429596_1_alg».proof.Proof.K.Run
import proofs.«408502_j57071525429596_1_alg».proof.Proof.KI.Run
import proofs.«408502_j57071525429596_1_alg».proof.Proof.RefRun
import proofs.«408502_j57071525429596_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m g _ => Cert.Kernel.Hand.frame m g,
    fun m g _ => Cert.KernelIdeal.Hand.frame m g,
    fun m g _ => Cert.ReferenceIdeal.RefValue.frame_ref (F := Ideal) m g,
    trivial,
    Cert.Bridge.algebraic⟩

end Cert.Proof

end
